-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v420) = v0 c
          ∧ r.2.mem ((c.tc : Thread Cert.ReferenceIdeal.nD Cert.ReferenceIdeal.τ).loc Cert.ReferenceIdeal.main_v426) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_
  bcast_S_S256x768 : S_.BroadcastsInDim S256x768 (![] : Fin 0 → Fin S256x768.rank)
  reducesTo_S256x768_S_d0_1 : S256x768.ReducesTo [0, 1] S_
  bcast_S_S768x256 : S_.BroadcastsInDim S768x256 (![] : Fin 0 → Fin S768x256.rank)
  reducesTo_S768x256_S_d0_1 : S768x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part5 {F : FTy → Type} [FloatOps F] (main_arg18 : FVec F S256 .f32) (main_v83 : IVec S_ 1) (main_v84 : FVec F S256x512 .f32) (main_cst_32 : FVec F S_ .f32) : IVec S_ 1 :=
  let main_v85 : FVec F S256x512 .f32 := broadcastInDim S256x512 ![] bcast_S_S256x512 main_cst_32
  let main_v86 : IVec S256x512 1 := cmpf .olt main_v84 main_v85
  let main_c_33 : IVec S_ 1 := constantI S_ 1 1#1
  let main_v87 : IVec S_ 1 := (fun x v => Host.reduce IntOp.andi x v reducesTo_S256x512_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg14 : FVec F S768 .f32) (main_arg15 : FVec F S512x256 .f32) (main_arg16 : FVec F S512 .f32) (main_arg17 : FVec F S256x512 .f32) (main_arg18 : FVec F S256 .f32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S512x256 .f32 := Host.absf main_arg15
  let main_cst_28 : FVec F S_ .f32 := constant S_ .f32 0x7F800000#32
  let main_v75 : FVec F S512x256 .f32 := broadcastInDim S512x256 ![] bcast_S_S512x256 main_cst_28
  let main_v76 : IVec S512x256 1 := cmpf .olt main_v74 main_v75
  let main_c_29 : IVec S_ 1 := constantI S_ 1 1#1
  let main_v77 : IVec S_ 1 := (fun x v => Host.reduce IntOp.andi x v reducesTo_S512x256_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S256x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v48 : IVec S_ 1) (main_v49 : FVec F S256x768 .f32) (main_v50 : FVec F S256x768 .f32) : IVec S_ 1 :=
  let main_v51 : IVec S256x768 1 := cmpf .olt main_v49 main_v50
  let main_c_19 : IVec S_ 1 := constantI S_ 1 1#1
  let main_v52 : IVec S_ 1 := (fun x v => Host.reduce IntOp.andi x v reducesTo_S256x768_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768x256 .f32 := Host.absf main_arg12
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_v63 main_v67

def fn_part2 {F : FTy → Type} [FloatOps F] (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x768 .f32 := Host.absf main_arg9
  let main_cst_16 : FVec F S_ .f32 := constant S_ .f32 0x7F800000#32
  let main_v45 : FVec F S256x768 .f32 := broadcastInDim S256x768 ![] bcast_S_S256x768 main_cst_16
  let main_v46 : IVec S256x768 1 := cmpf .olt main_v44 main_v45
  let main_c_17 : IVec S_ 1 := constantI S_ 1 1#1
  let main_v47 : IVec S_ 1 := (fun x v => Host.reduce IntOp.andi x v reducesTo_S256x768_S_d0_1 h_S_) main_v46 main_c_17
  let main_v48 : IVec S_ 1 := andi main_v43 main_v47
  let main_v49 : FVec F S256x768 .f32 := Host.absf main_arg10
  let main_cst_18 : FVec F S_ .f32 := constant S_ .f32 0x7F800000#32
  let main_v50 : FVec F S256x768 .f32 := broadcastInDim S256x768 ![] bcast_S_S256x768 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256 .f32) (main_arg6 : FVec F S256 .f32) (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x768 .f32) (main_arg1 : FVec F S768 .f32) (main_arg2 : FVec F S768 .f32) (main_arg3 : FVec F S256 .f32) (main_arg4 : FVec F S256 .f32) (main_arg5 : FVec F S256 .f32) (main_arg6 : FVec F S256 .f32) (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S1x768 : Shape := ⟨2, ![1, 768]⟩
abbrev S1x256 : Shape := ⟨2, ![1, 256]⟩
abbrev S1x512 : Shape := ⟨2, ![1, 512]⟩
abbrev S16384x256 : Shape := ⟨2, ![16384, 256]⟩
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x1 : Shape := ⟨2, ![1, 1]⟩
abbrev S1x16 : Shape := ⟨2, ![1, 16]⟩
abbrev S16 : Shape := ⟨1, ![16]⟩
abbrev S16x1 : Shape := ⟨2, ![16, 1]⟩
abbrev S256x16 : Shape := ⟨2, ![256, 16]⟩
abbrev S4096x16 : Shape := ⟨2, ![4096, 16]⟩
abbrev S16x768 : Shape := ⟨2, ![16, 768]⟩
abbrev S16x512 : Shape := ⟨2, ![16, 512]⟩
abbrev S1 : Shape := ⟨1, ![1]⟩
abbrev S_ : Shape := ⟨0, ![]⟩

abbrev nBuf : Space → Nat
  | .hbm => 41
  | .vmem => 36
  | .smem => 0
  | _ => 0

abbrev bufTy : (tb : Table) → Fin (tcTables nBuf tb) → BufTy
  | .hbm, ⟨0, _⟩ => ⟨S16384x768, .f32⟩
  | .hbm, ⟨1, _⟩ => ⟨S768, .f32⟩
  | .hbm, ⟨2, _⟩ => ⟨S768, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S16x256, .f32⟩
  | .hbm, ⟨8, _⟩ => ⟨S256x256, .f32⟩
  | .hbm, ⟨9, _⟩ => ⟨S256x768, .f32⟩
  | .hbm, ⟨10, _⟩ => ⟨S256x768, .f32⟩
  | .hbm, ⟨11, _⟩ => ⟨S768x256, .f32⟩
  | .hbm, ⟨12, _⟩ => ⟨S768x256, .f32⟩
  | .hbm, ⟨13, _⟩ => ⟨S768, .f32⟩
  | .hbm, ⟨14, _⟩ => ⟨S768, .f32⟩
  | .hbm, ⟨15, _⟩ => ⟨S512x256, .f32⟩
  | .hbm, ⟨16, _⟩ => ⟨S512, .f32⟩
  | .hbm, ⟨17, _⟩ => ⟨S256x512, .f32⟩
  | .hbm, ⟨18, _⟩ => ⟨S256, .f32⟩
  | .hbm, ⟨19, _⟩ => ⟨S768x256, .f32⟩
  | .hbm, ⟨20, _⟩ => ⟨S768x256, .f32⟩
  | .hbm, ⟨21, _⟩ => ⟨S256x256, .f32⟩
  | .hbm, ⟨22, _⟩ => ⟨S256x768, .f32⟩
  | .hbm, ⟨23, _⟩ => ⟨S256x768, .f32⟩
  | .hbm, ⟨24, _⟩ => ⟨S256x512, .f32⟩
  | .hbm, ⟨25, _⟩ => ⟨S512x256, .f32⟩
  | .hbm, ⟨26, _⟩ => ⟨S1x768, .f32⟩
  | .hbm, ⟨27, _⟩ => ⟨S1x768, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x768, .f32⟩
  | .hbm, ⟨33, _⟩ => ⟨S1x768, .f32⟩
  | .hbm, ⟨34, _⟩ => ⟨S1x512, .f32⟩
  | .hbm, ⟨35, _⟩ => ⟨S1x256, .f32⟩
  | .hbm, ⟨36, _⟩ => ⟨S16384x256, .bf16⟩
  | .hbm, ⟨37, _⟩ => ⟨S16384x256, .bf16⟩
  | .hbm, ⟨38, _⟩ => ⟨S16x256, .f32⟩
  | .hbm, ⟨39, _⟩ => ⟨S1x1, .f32⟩
  | .hbm, ⟨40, _⟩ => ⟨S_, .f32⟩
  | .local _ .vmem, ⟨0, _⟩ => ⟨S4096x768, .f32⟩
  | .local _ .vmem, ⟨1, _⟩ => ⟨S4096x768, .f32⟩
  | .local _ .vmem, ⟨2, _⟩ => ⟨S1x768, .f32⟩
  | .local _ .vmem, ⟨3, _⟩ => ⟨S1x768, .f32⟩
  | .local _ .vmem, ⟨4, _⟩ => ⟨S768x256, .f32⟩
  | .local _ .vmem, ⟨5, _⟩ => ⟨S768x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S16x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S256x768, .f32⟩
  | .local _ .vmem, ⟨19, _⟩ => ⟨S256x768, .f32⟩
  | .local _ .vmem, ⟨20, _⟩ => ⟨S1x768, .f32⟩
  | .local _ .vmem, ⟨21, _⟩ => ⟨S1x768, .f32⟩
  | .local _ .vmem, ⟨22, _⟩ => ⟨S1x256, .f32⟩
  | .local _ .vmem, ⟨23, _⟩ => ⟨S1x256, .f32⟩
  | .local _ .vmem, ⟨24, _⟩ => ⟨S256x512, .f32⟩
  | .local _ .vmem, ⟨25, _⟩ => ⟨S1x512, .f32⟩
  | .local _ .vmem, ⟨26, _⟩ => ⟨S512x256, .f32⟩
  | .local _ .vmem, ⟨27, _⟩ => ⟨S1x256, .f32⟩
  | .local _ .vmem, ⟨28, _⟩ => ⟨S16x256, .f32⟩
  | .local _ .vmem, ⟨29, _⟩ => ⟨S1x1, .f32⟩
  | .local _ .vmem, ⟨30, _⟩ => ⟨S16x256, .f32⟩
  | .local _ .vmem, ⟨31, _⟩ => ⟨S16x256, .f32⟩
  | .local _ .vmem, ⟨32, _⟩ => ⟨S16x256, .f32⟩
  | .local _ .vmem, ⟨33, _⟩ => ⟨S1x16, .f32⟩
  | .local _ .vmem, ⟨34, _⟩ => ⟨S1x16, .f32⟩
  | .local _ .vmem, ⟨35, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v18_0 : Ref sig .tc := ⟨.hbm, 38, rfl⟩
abbrev main_v18_1 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![3, 4], ![false, false]⟩

def k1_cond4 (i : grid1.Coords) : BitVec 1 :=
  let arg0 : BitVec 32 := BitVec.ofNat 32 (i 0).val
  let c2_i32 : BitVec 32 := 2#32
  let v54 : BitVec 1 := Scalar.cmpi .eq arg0 c2_i32
  let arg1 : BitVec 32 := BitVec.ofNat 32 (i 1).val
  let c3_i32_29 : BitVec 32 := 3#32
  let v55 : BitVec 1 := Scalar.cmpi .eq arg1 c3_i32_29
  let v56 : BitVec 1 := Scalar.andi v54 v55
  let v57 : BitVec 32 := Scalar.extui v56
  let c0_i32_30 : BitVec 32 := 0#32
  let v58 : BitVec 1 := Scalar.cmpi .ne v57 c0_i32_30
  v58

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S256x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S512x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S16x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

class Facts₀ : Prop where
  transposes_S256x768_S768x256_1_0 : S256x768.Transposes [1, 0] S768x256
  transposes_S256x256_S256x256_1_0 : S256x256.Transposes [1, 0] S256x256
  transposes_S768x256_S256x768_1_0 : S768x256.Transposes [1, 0] S256x768
  transposes_S512x256_S256x512_1_0 : S512x256.Transposes [1, 0] S256x512
  transposes_S256x512_S512x256_1_0 : S256x512.Transposes [1, 0] S512x256
  bcast_S768_S1x768_1 : S768.BroadcastsInDim S1x768 (![1] : Fin 1 → Fin S1x768.rank)
  bcast_S256_S1x256_1 : S256.BroadcastsInDim S1x256 (![1] : Fin 1 → Fin S1x256.rank)
  bcast_S512_S1x512_1 : S512.BroadcastsInDim S1x512 (![1] : Fin 1 → Fin S1x512.rank)
  inb_S4096x768_S4096x768_0_0 : ∀ a, (![0, 0] : Fin 2 → Nat) a + S4096x768.size a ≤ S4096x768.size a
  h_S4096x768 : 0 < S4096x768.numel
  reduces_S4096x768_S4096 : S4096x768.Reduces [1] S4096
  shapeCasts_S4096_S4096x1 : S4096.ShapeCasts S4096x1
  broadcasts_S4096x1_S4096x768 : S4096x1.Broadcasts S4096x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S4096x768 : S1x768.Broadcasts S4096x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S16x256_S16 : S16x256.Reduces [1] S16
  shapeCasts_S16_S16x1 : S16.ShapeCasts S16x1
  broadcasts_S16x1_S16x256 : S16x1.Broadcasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S4096x256_S4096x256 : S4096x256.ShapeCasts S4096x256
  transposes_S16x256_p1_0_S256x16 : S16x256.Transposes [1, 0] S256x16
  reduces_S4096x16_S4096 : S4096x16.Reduces [1] S4096
  broadcasts_S4096x1_S4096x16 : S4096x1.Broadcasts S4096x16
  reduces_S4096x16_S16 : S4096x16.Reduces [0] S16
  shapeCasts_S16_S1x16 : S16.ShapeCasts S1x16
  transposes_S1x16_p1_0_S16x1 : S1x16.Transposes [1, 0] S16x1
  inb_S256x768_S256x768_0_0 : ∀ a, (![0, 0] : Fin 2 → Nat) a + S256x768.size a ≤ S256x768.size a
  h_S256x768 : 0 < S256x768.numel
  shapeCasts_S256x768_S256x768 : S256x768.ShapeCasts S256x768
  broadcasts_S1x768_S16x768 : S1x768.Broadcasts S16x768
  slices_S16x768_o0_0_S16x256 : S16x768.Slices ![0, 0] S16x256
  slices_S16x768_o0_256_S16x256 : S16x768.Slices ![0, 256] S16x256
  slices_S16x768_o0_512_S16x256 : S16x768.Slices ![0, 512] S16x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S1x16_S1 : S1x16.Reduces [1] S1
  shapeCasts_S1_S1x1 : S1.ShapeCasts S1x1
  shapeCasts_S1x1_S_ : S1x1.ShapeCasts S_
  dot_S4096x768_S768x256_S4096x256_1_0_0_1_n_n_wf : DotDims.WF S4096x768 S768x256 S4096x256 [1] [0] [0] [1] [] []
  dot_S16x256_S256x256_S16x256_1_0_0_1_n_n_wf : DotDims.WF S16x256 S256x256 S16x256 [1] [0] [0] [1] [] []
  dot_S4096x256_S256x16_S4096x16_1_0_0_1_n_n_wf : DotDims.WF S4096x256 S256x16 S4096x16 [1] [0] [0] [1] [] []
  dot_S4096x16_S4096x256_S16x256_0_0_1_1_n_n_wf : DotDims.WF S4096x16 S4096x256 S16x256 [0] [0] [1] [1] [] []
  dot_S16x256_S256x768_S16x768_1_0_0_1_n_n_wf : DotDims.WF S16x256 S256x768 S16x768 [1] [0] [0] [1] [] []
  dot_S16x256_S256x512_S16x512_1_0_0_1_n_n_wf : DotDims.WF S16x256 S256x512 S16x512 [1] [0] [0] [1] [] []
  dot_S16x512_S512x256_S16x256_1_0_0_1_n_n_wf : DotDims.WF S16x512 S512x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S16384x768.size a
  hwx0_0 : ∀ i : grid0.Coords, EltTy.bits .f32 = 32 ∨ (Rect.block (s := S16384x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .f32 = 32 ∨ (Rect.block (s := S768x256) S768x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S16384x256.size a
  hwx0_5 : ∀ i : grid0.Coords, EltTy.bits .bf16 = 32 ∨ (Rect.block (s := S16384x256) S4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S16384x256.size a
  hwx0_6 : ∀ i : grid0.Coords, EltTy.bits .bf16 = 32 ∨ (Rect.block (s := S16384x256) S4096x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .bf16 = 32 ∨ (Rect.block (s := S16384x256) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S16384x256.size a
  hwx1_1 : ∀ i : grid1.Coords, EltTy.bits .bf16 = 32 ∨ (Rect.block (s := S16384x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x768.size a ≤ S256x768.size a
  hwx1_6 : ∀ i : grid1.Coords, EltTy.bits .f32 = 32 ∨ (Rect.block (s := S256x768) S256x768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x768.size a ≤ S256x768.size a
  hwx1_7 : ∀ i : grid1.Coords, EltTy.bits .f32 = 32 ∨ (Rect.block (s := S256x768) S256x768.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x768.size a ≤ S1x768.size a
  hwx1_8 : ∀ i : grid1.Coords, EltTy.bits .f32 = 32 ∨ (Rect.block (s := S1x768) S1x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x768.size a ≤ S1x768.size a
  hwx1_9 : ∀ i : grid1.Coords, EltTy.bits .f32 = 32 ∨ (Rect.block (s := S1x768) S1x768.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x512.size a ≤ S256x512.size a
  hwx1_12 : ∀ i : grid1.Coords, EltTy.bits .f32 = 32 ∨ (Rect.block (s := S256x512) S256x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S512x256.size a ≤ S512x256.size a
  hwx1_14 : ∀ i : grid1.Coords, EltTy.bits .f32 = 32 ∨ (Rect.block (s := S512x256) S512x256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x256.size a
  hwx1_15 : ∀ i : grid1.Coords, EltTy.bits .f32 = 32 ∨ (Rect.block (s := S1x256) S1x256.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S16x256.size a ≤ S16x256.size a
  hwx1_16 : ∀ i : grid1.Coords, EltTy.bits .f32 = 32 ∨ (Rect.block (s := S16x256) S16x256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x16_S4096x256_S16x256_0_0_1_1_n_n : DotDims S4096x16 S4096x256 S16x256 where
  lhsContracting := [0]
  rhsContracting := [0]
  lhsNonContracting := [1]
  rhsNonContracting := [1]
  lhsBatch := []
  rhsBatch := []
  wf := dot_S4096x16_S4096x256_S16x256_0_0_1_1_n_n_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S256x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S256x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x768.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S256x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v15) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v6) S512x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v16) S1x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v18_0) S16x256.size cc1_transform_16 reads1_16 true true 1 stage1_16 sem1_16
    hrank1 hreads1_16 hinb1_16 nbuf1_16 (Memref.isWhole_whole _) hwx1_16 hstage1_16

abbrev win1_17 : Pipeline.Window sig grid1 :=
  Pipeline.Window.ofSpec (Memref.whole main_v18_1) S1x1.size cc1_transform_17 reads1_17 true true 1 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev idle1 : Fin 18 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k1_cond4 i == 1#1) | 17 => fun i => !(k1_cond4 i == 1#1) | ⟨_ + 18, h⟩ => absurd h (Nat.not_lt.2 (Nat.le_add_left _ _))

class Facts : Prop extends Facts₀ where

variable [Facts]
-- ==== ReferenceIdeal.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S_ : Shape := ⟨0, ![]⟩
abbrev S16384 : Shape := ⟨1, ![16384]⟩
abbrev S16384x1 : Shape := ⟨2, ![16384, 1]⟩
abbrev S1x768 : Shape := ⟨2, ![1, 768]⟩
abbrev S16384x256 : Shape := ⟨2, ![16384, 256]⟩
abbrev S16 : Shape := ⟨1, ![16]⟩
abbrev S16x1 : Shape := ⟨2, ![16, 1]⟩
abbrev S1x256 : Shape := ⟨2, ![1, 256]⟩
abbrev S256x16 : Shape := ⟨2, ![256, 16]⟩
abbrev S16384x16 : Shape := ⟨2, ![16384, 16]⟩
abbrev S1x16 : Shape := ⟨2, ![1, 16]⟩
abbrev S16x16384 : Shape := ⟨2, ![16, 16384]⟩
abbrev S16x768 : Shape := ⟨2, ![16, 768]⟩
abbrev S16x512 : Shape := ⟨2, ![16, 512]⟩
abbrev S1x512 : Shape := ⟨2, ![1, 512]⟩
abbrev S1 : Shape := ⟨1, ![1]⟩
abbrev S3 : Shape := ⟨1, ![3]⟩

abbrev nBuf : Space → Nat
  | .hbm => 531
  | .vmem => 0
  | .smem => 0
  | _ => 0

abbrev hbmTy0_0 (i : Nat) : BufTy := match i % 128 with
  | 0 => ⟨S16384x768, .f32⟩
  | 1 => ⟨S768, .f32⟩
  | 2 => ⟨S768, .f32⟩
  | 3 => ⟨S256, .f32⟩
  | 4 => ⟨S256, .f32⟩
  | 5 => ⟨S256, .f32⟩
  | 6 => ⟨S256, .f32⟩
  | 7 => ⟨S16x256, .f32⟩
  | 8 => ⟨S256x256, .f32⟩
  | 9 => ⟨S256x768, .f32⟩
  | 10 => ⟨S256x768, .f32⟩
  | 11 => ⟨S768x256, .f32⟩
  | 12 => ⟨S768x256, .f32⟩
  | 13 => ⟨S768, .f32⟩
  | 14 => ⟨S768, .f32⟩
  | 15 => ⟨S512x256, .f32⟩
  | 16 => ⟨S512, .f32⟩
  | 17 => ⟨S256x512, .f32⟩
  | 18 => ⟨S256, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x768, .f32⟩
  | 26 => ⟨S16384x768, .f32⟩
  | 27 => ⟨S16384x768, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x768, .f32⟩
  | 35 => ⟨S16384x768, .f32⟩
  | 36 => ⟨S_, .f32⟩
  | 37 => ⟨S16384x1, .f32⟩
  | 38 => ⟨S16384x1, .f32⟩
  | 39 => ⟨S16384x1, .f32⟩
  | 40 => ⟨S16384x768, .f32⟩
  | 41 => ⟨S16384x768, .f32⟩
  | 42 => ⟨S1x768, .f32⟩
  | 43 => ⟨S16384x768, .f32⟩
  | 44 => ⟨S16384x768, .f32⟩
  | 45 => ⟨S1x768, .f32⟩
  | 46 => ⟨S16384x768, .f32⟩
  | 47 => ⟨S16384x768, .f32⟩
  | 48 => ⟨S768x256, .f32⟩
  | 49 => ⟨S16384x256, .f32⟩
  | 50 => ⟨S768x256, .f32⟩
  | 51 => ⟨S16384x256, .f32⟩
  | 52 => ⟨S_, .f32⟩
  | 53 => ⟨S16, .f32⟩
  | 54 => ⟨S16x1, .f32⟩
  | 55 => ⟨S_, .f32⟩
  | 56 => ⟨S16x1, .f32⟩
  | 57 => ⟨S16x1, .f32⟩
  | 58 => ⟨S16x256, .f32⟩
  | 59 => ⟨S16x256, .f32⟩
  | 60 => ⟨S16x256, .f32⟩
  | 61 => ⟨S_, .f32⟩
  | 62 => ⟨S16, .f32⟩
  | 63 => ⟨S16x1, .f32⟩
  | 64 => ⟨S_, .f32⟩
  | 65 => ⟨S16x1, .f32⟩
  | 66 => ⟨S16x1, .f32⟩
  | 67 => ⟨S16x256, .f32⟩
  | 68 => ⟨S16x256, .f32⟩
  | 69 => ⟨S_, .f32⟩
  | 70 => ⟨S16x1, .f32⟩
  | 71 => ⟨S16x1, .f32⟩
  | 72 => ⟨S16x1, .f32⟩
  | 73 => ⟨S16x256, .f32⟩
  | 74 => ⟨S16x256, .f32⟩
  | 75 => ⟨S1x256, .f32⟩
  | 76 => ⟨S16x256, .f32⟩
  | 77 => ⟨S16x256, .f32⟩
  | 78 => ⟨S1x256, .f32⟩
  | 79 => ⟨S16x256, .f32⟩
  | 80 => ⟨S16x256, .f32⟩
  | 81 => ⟨S256x256, .f32⟩
  | 82 => ⟨S16x256, .f32⟩
  | 83 => ⟨S_, .f32⟩
  | 84 => ⟨S16x256, .f32⟩
  | 85 => ⟨S16x256, .f32⟩
  | 86 => ⟨S256x16, .f32⟩
  | 87 => ⟨S16384x16, .f32⟩
  | 88 => ⟨S_, .f32⟩
  | 89 => ⟨S16384, .f32⟩
  | 90 => ⟨S_, .f32⟩
  | 91 => ⟨S16384, .f32⟩
  | 92 => ⟨S16384, .f32⟩
  | 93 => ⟨S16384x1, .f32⟩
  | 94 => ⟨S16384x16, .f32⟩
  | 95 => ⟨S16384x16, .f32⟩
  | 96 => ⟨S16384x16, .f32⟩
  | 97 => ⟨S_, .f32⟩
  | 98 => ⟨S16384, .f32⟩
  | 99 => ⟨S16384x1, .f32⟩
  | 100 => ⟨S16384x16, .f32⟩
  | 101 => ⟨S16384x16, .f32⟩
  | 102 => ⟨S_, .f32⟩
  | 103 => ⟨S16384x16, .f32⟩
  | 104 => ⟨S16384x16, .f32⟩
  | 105 => ⟨S_, .f32⟩
  | 106 => ⟨S16, .f32⟩
  | 107 => ⟨S1x16, .f32⟩
  | 108 => ⟨S16384x16, .f32⟩
  | 109 => ⟨S16384x16, .f32⟩
  | 110 => ⟨S_, .f32⟩
  | 111 => ⟨S_, .f32⟩
  | 112 => ⟨S_, .f32⟩
  | 113 => ⟨S_, .f32⟩
  | 114 => ⟨S16384x16, .f32⟩
  | 115 => ⟨S16384x16, .f32⟩
  | 116 => ⟨S16384x16, .f32⟩
  | 117 => ⟨S_, .f32⟩
  | 118 => ⟨S_, .f32⟩
  | 119 => ⟨S_, .f32⟩
  | 120 => ⟨S_, .f32⟩
  | 121 => ⟨S16x16384, .f32⟩
  | 122 => ⟨S16x256, .f32⟩
  | 123 => ⟨S256x768, .f32⟩
  | 124 => ⟨S16x768, .f32⟩
  | 125 => ⟨S1x768, .f32⟩
  | 126 => ⟨S16x768, .f32⟩
  | 127 => ⟨S16x768, .f32⟩
  | _ => ⟨S16384x768, .f32⟩

abbrev hbmTy0_1 (i : Nat) : BufTy := match i % 128 with
  | 0 => ⟨S256x768, .f32⟩
  | 1 => ⟨S16x768, .f32⟩
  | 2 => ⟨S1x768, .f32⟩
  | 3 => ⟨S16x768, .f32⟩
  | 4 => ⟨S16x768, .f32⟩
  | 5 => ⟨S16x256, .f32⟩
  | 6 => ⟨S16x256, .f32⟩
  | 7 => ⟨S16x256, .f32⟩
  | 8 => ⟨S16x256, .f32⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S_, .f32⟩
  | 15 => ⟨S16x256, .f32⟩
  | 16 => ⟨S16x256, .f32⟩
  | 17 => ⟨S_, .f32⟩
  | 18 => ⟨S16x256, .f32⟩
  | 19 => ⟨S16x256, .f32⟩
  | 20 => ⟨S16x256, .f32⟩
  | 21 => ⟨S16x256, .f32⟩
  | 22 => ⟨S16x256, .f32⟩
  | 23 => ⟨S_, .f32⟩
  | 24 => ⟨S16x256, .f32⟩
  | 25 => ⟨S16x256, .f32⟩
  | 26 => ⟨S_, .f32⟩
  | 27 => ⟨S16x256, .f32⟩
  | 28 => ⟨S16x256, .f32⟩
  | 29 => ⟨S16x256, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S16x256, .f32⟩
  | 36 => ⟨S16x256, .f32⟩
  | 37 => ⟨S16x256, .f32⟩
  | 38 => ⟨S_, .f32⟩
  | 39 => ⟨S16, .f32⟩
  | 40 => ⟨S16x1, .f32⟩
  | 41 => ⟨S_, .f32⟩
  | 42 => ⟨S16x1, .f32⟩
  | 43 => ⟨S16x1, .f32⟩
  | 44 => ⟨S16x256, .f32⟩
  | 45 => ⟨S16x256, .f32⟩
  | 46 => ⟨S16x256, .f32⟩
  | 47 => ⟨S_, .f32⟩
  | 48 => ⟨S16, .f32⟩
  | 49 => ⟨S16x1, .f32⟩
  | 50 => ⟨S_, .f32⟩
  | 51 => ⟨S16x1, .f32⟩
  | 52 => ⟨S16x1, .f32⟩
  | 53 => ⟨S16x256, .f32⟩
  | 54 => ⟨S16x256, .f32⟩
  | 55 => ⟨S_, .f32⟩
  | 56 => ⟨S16x1, .f32⟩
  | 57 => ⟨S16x1, .f32⟩
  | 58 => ⟨S16x1, .f32⟩
  | 59 => ⟨S16x256, .f32⟩
  | 60 => ⟨S16x256, .f32⟩
  | 61 => ⟨S1x256, .f32⟩
  | 62 => ⟨S16x256, .f32⟩
  | 63 => ⟨S16x256, .f32⟩
  | 64 => ⟨S1x256, .f32⟩
  | 65 => ⟨S16x256, .f32⟩
  | 66 => ⟨S16x256, .f32⟩
  | 67 => ⟨S256x512, .f32⟩
  | 68 => ⟨S16x512, .f32⟩
  | 69 => ⟨S1x512, .f32⟩
  | 70 => ⟨S16x512, .f32⟩
  | 71 => ⟨S16x512, .f32⟩
  | 72 => ⟨S_, .f32⟩
  | 73 => ⟨S16x512, .f32⟩
  | 74 => ⟨S16x512, .f32⟩
  | 75 => ⟨S512x256, .f32⟩
  | 76 => ⟨S16x256, .f32⟩
  | 77 => ⟨S1x256, .f32⟩
  | 78 => ⟨S16x256, .f32⟩
  | 79 => ⟨S16x256, .f32⟩
  | 80 => ⟨S16x256, .f32⟩
  | 81 => ⟨S_, .f32⟩
  | 82 => ⟨S16, .f32⟩
  | 83 => ⟨S16x1, .f32⟩
  | 84 => ⟨S_, .f32⟩
  | 85 => ⟨S16x1, .f32⟩
  | 86 => ⟨S16x1, .f32⟩
  | 87 => ⟨S16x256, .f32⟩
  | 88 => ⟨S16x256, .f32⟩
  | 89 => ⟨S16x256, .f32⟩
  | 90 => ⟨S_, .f32⟩
  | 91 => ⟨S16, .f32⟩
  | 92 => ⟨S16x1, .f32⟩
  | 93 => ⟨S_, .f32⟩
  | 94 => ⟨S16x1, .f32⟩
  | 95 => ⟨S16x1, .f32⟩
  | 96 => ⟨S16x256, .f32⟩
  | 97 => ⟨S16x256, .f32⟩
  | 98 => ⟨S_, .f32⟩
  | 99 => ⟨S16x1, .f32⟩
  | 100 => ⟨S16x1, .f32⟩
  | 101 => ⟨S16x1, .f32⟩
  | 102 => ⟨S16x256, .f32⟩
  | 103 => ⟨S16x256, .f32⟩
  | 104 => ⟨S1x256, .f32⟩
  | 105 => ⟨S16x256, .f32⟩
  | 106 => ⟨S16x256, .f32⟩
  | 107 => ⟨S1x256, .f32⟩
  | 108 => ⟨S16x256, .f32⟩
  | 109 => ⟨S16x256, .f32⟩
  | 110 => ⟨S256x256, .f32⟩
  | 111 => ⟨S16x256, .f32⟩
  | 112 => ⟨S_, .f32⟩
  | 113 => ⟨S16x256, .f32⟩
  | 114 => ⟨S16x256, .f32⟩
  | 115 => ⟨S256x16, .f32⟩
  | 116 => ⟨S16384x16, .f32⟩
  | 117 => ⟨S_, .f32⟩
  | 118 => ⟨S16384, .f32⟩
  | 119 => ⟨S_, .f32⟩
  | 120 => ⟨S16384, .f32⟩
  | 121 => ⟨S16384, .f32⟩
  | 122 => ⟨S16384x1, .f32⟩
  | 123 => ⟨S16384x16, .f32⟩
  | 124 => ⟨S16384x16, .f32⟩
  | 125 => ⟨S16384x16, .f32⟩
  | 126 => ⟨S_, .f32⟩
  | 127 => ⟨S16384, .f32⟩
  | _ => ⟨S16384x768, .f32⟩

abbrev hbmTy0_2 (i : Nat) : BufTy := match i % 128 with
  | 0 => ⟨S16384x1, .f32⟩
  | 1 => ⟨S16384x16, .f32⟩
  | 2 => ⟨S16384x16, .f32⟩
  | 3 => ⟨S_, .f32⟩
  | 4 => ⟨S16384x16, .f32⟩
  | 5 => ⟨S16384x16, .f32⟩
  | 6 => ⟨S_, .f32⟩
  | 7 => ⟨S16, .f32⟩
  | 8 => ⟨S1x16, .f32⟩
  | 9 => ⟨S16384x16, .f32⟩
  | 10 => ⟨S16384x16, .f32⟩
  | 11 => ⟨S_, .f32⟩
  | 12 => ⟨S_, .f32⟩
  | 13 => ⟨S_, .f32⟩
  | 14 => ⟨S_, .f32⟩
  | 15 => ⟨S16384x16, .f32⟩
  | 16 => ⟨S16384x16, .f32⟩
  | 17 => ⟨S16384x16, .f32⟩
  | 18 => ⟨S_, .f32⟩
  | 19 => ⟨S_, .f32⟩
  | 20 => ⟨S_, .f32⟩
  | 21 => ⟨S_, .f32⟩
  | 22 => ⟨S16x16384, .f32⟩
  | 23 => ⟨S16x256, .f32⟩
  | 24 => ⟨S256x768, .f32⟩
  | 25 => ⟨S16x768, .f32⟩
  | 26 => ⟨S1x768, .f32⟩
  | 27 => ⟨S16x768, .f32⟩
  | 28 => ⟨S16x768, .f32⟩
  | 29 => ⟨S256x768, .f32⟩
  | 30 => ⟨S16x768, .f32⟩
  | 31 => ⟨S1x768, .f32⟩
  | 32 => ⟨S16x768, .f32⟩
  | 33 => ⟨S16x768, .f32⟩
  | 34 => ⟨S16x256, .f32⟩
  | 35 => ⟨S16x256, .f32⟩
  | 36 => ⟨S16x256, .f32⟩
  | 37 => ⟨S16x256, .f32⟩
  | 38 => ⟨S16x256, .f32⟩
  | 39 => ⟨S16x256, .f32⟩
  | 40 => ⟨S16x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S16x256, .f32⟩
  | 50 => ⟨S16x256, .f32⟩
  | 51 => ⟨S16x256, .f32⟩
  | 52 => ⟨S_, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S16x256, .f32⟩
  | 60 => ⟨S16x256, .f32⟩
  | 61 => ⟨S_, .f32⟩
  | 62 => ⟨S16x256, .f32⟩
  | 63 => ⟨S16x256, .f32⟩
  | 64 => ⟨S16x256, .f32⟩
  | 65 => ⟨S16x256, .f32⟩
  | 66 => ⟨S16x256, .f32⟩
  | 67 => ⟨S_, .f32⟩
  | 68 => ⟨S16, .f32⟩
  | 69 => ⟨S16x1, .f32⟩
  | 70 => ⟨S_, .f32⟩
  | 71 => ⟨S16x1, .f32⟩
  | 72 => ⟨S16x1, .f32⟩
  | 73 => ⟨S16x256, .f32⟩
  | 74 => ⟨S16x256, .f32⟩
  | 75 => ⟨S16x256, .f32⟩
  | 76 => ⟨S_, .f32⟩
  | 77 => ⟨S16, .f32⟩
  | 78 => ⟨S16x1, .f32⟩
  | 79 => ⟨S_, .f32⟩
  | 80 => ⟨S16x1, .f32⟩
  | 81 => ⟨S16x1, .f32⟩
  | 82 => ⟨S16x256, .f32⟩
  | 83 => ⟨S16x256, .f32⟩
  | 84 => ⟨S_, .f32⟩
  | 85 => ⟨S16x1, .f32⟩
  | 86 => ⟨S16x1, .f32⟩
  | 87 => ⟨S16x1, .f32⟩
  | 88 => ⟨S16x256, .f32⟩
  | 89 => ⟨S16x256, .f32⟩
  | 90 => ⟨S1x256, .f32⟩
  | 91 => ⟨S16x256, .f32⟩
  | 92 => ⟨S16x256, .f32⟩
  | 93 => ⟨S1x256, .f32⟩
  | 94 => ⟨S16x256, .f32⟩
  | 95 => ⟨S16x256, .f32⟩
  | 96 => ⟨S256x512, .f32⟩
  | 97 => ⟨S16x512, .f32⟩
  | 98 => ⟨S1x512, .f32⟩
  | 99 => ⟨S16x512, .f32⟩
  | 100 => ⟨S16x512, .f32⟩
  | 101 => ⟨S_, .f32⟩
  | 102 => ⟨S16x512, .f32⟩
  | 103 => ⟨S16x512, .f32⟩
  | 104 => ⟨S512x256, .f32⟩
  | 105 => ⟨S16x256, .f32⟩
  | 106 => ⟨S1x256, .f32⟩
  | 107 => ⟨S16x256, .f32⟩
  | 108 => ⟨S16x256, .f32⟩
  | 109 => ⟨S16x256, .f32⟩
  | 110 => ⟨S_, .f32⟩
  | 111 => ⟨S16, .f32⟩
  | 112 => ⟨S16x1, .f32⟩
  | 113 => ⟨S_, .f32⟩
  | 114 => ⟨S16x1, .f32⟩
  | 115 => ⟨S16x1, .f32⟩
  | 116 => ⟨S16x256, .f32⟩
  | 117 => ⟨S16x256, .f32⟩
  | 118 => ⟨S16x256, .f32⟩
  | 119 => ⟨S_, .f32⟩
  | 120 => ⟨S16, .f32⟩
  | 121 => ⟨S16x1, .f32⟩
  | 122 => ⟨S_, .f32⟩
  | 123 => ⟨S16x1, .f32⟩
  | 124 => ⟨S16x1, .f32⟩
  | 125 => ⟨S16x256, .f32⟩
  | 126 => ⟨S16x256, .f32⟩
  | 127 => ⟨S_, .f32⟩
  | _ => ⟨S16384x768, .f32⟩

abbrev hbmTy0_3 (i : Nat) : BufTy := match i % 128 with
  | 0 => ⟨S16x1, .f32⟩
  | 1 => ⟨S16x1, .f32⟩
  | 2 => ⟨S16x1, .f32⟩
  | 3 => ⟨S16x256, .f32⟩
  | 4 => ⟨S16x256, .f32⟩
  | 5 => ⟨S1x256, .f32⟩
  | 6 => ⟨S16x256, .f32⟩
  | 7 => ⟨S16x256, .f32⟩
  | 8 => ⟨S1x256, .f32⟩
  | 9 => ⟨S16x256, .f32⟩
  | 10 => ⟨S16x256, .f32⟩
  | 11 => ⟨S256x256, .f32⟩
  | 12 => ⟨S16x256, .f32⟩
  | 13 => ⟨S_, .f32⟩
  | 14 => ⟨S16x256, .f32⟩
  | 15 => ⟨S16x256, .f32⟩
  | 16 => ⟨S256x16, .f32⟩
  | 17 => ⟨S16384x16, .f32⟩
  | 18 => ⟨S_, .f32⟩
  | 19 => ⟨S16384, .f32⟩
  | 20 => ⟨S_, .f32⟩
  | 21 => ⟨S16384, .f32⟩
  | 22 => ⟨S16384, .f32⟩
  | 23 => ⟨S16384x1, .f32⟩
  | 24 => ⟨S16384x16, .f32⟩
  | 25 => ⟨S16384x16, .f32⟩
  | 26 => ⟨S16384x16, .f32⟩
  | 27 => ⟨S_, .f32⟩
  | 28 => ⟨S16384, .f32⟩
  | 29 => ⟨S16384x1, .f32⟩
  | 30 => ⟨S16384x16, .f32⟩
  | 31 => ⟨S16384x16, .f32⟩
  | 32 => ⟨S_, .f32⟩
  | 33 => ⟨S16384x16, .f32⟩
  | 34 => ⟨S16384x16, .f32⟩
  | 35 => ⟨S_, .f32⟩
  | 36 => ⟨S16, .f32⟩
  | 37 => ⟨S1x16, .f32⟩
  | 38 => ⟨S16384x16, .f32⟩
  | 39 => ⟨S16384x16, .f32⟩
  | 40 => ⟨S_, .f32⟩
  | 41 => ⟨S_, .f32⟩
  | 42 => ⟨S_, .f32⟩
  | 43 => ⟨S_, .f32⟩
  | 44 => ⟨S16384x16, .f32⟩
  | 45 => ⟨S16384x16, .f32⟩
  | 46 => ⟨S16384x16, .f32⟩
  | 47 => ⟨S_, .f32⟩
  | 48 => ⟨S_, .f32⟩
  | 49 => ⟨S_, .f32⟩
  | 50 => ⟨S_, .f32⟩
  | 51 => ⟨S16x16384, .f32⟩
  | 52 => ⟨S16x256, .f32⟩
  | 53 => ⟨S256x768, .f32⟩
  | 54 => ⟨S16x768, .f32⟩
  | 55 => ⟨S1x768, .f32⟩
  | 56 => ⟨S16x768, .f32⟩
  | 57 => ⟨S16x768, .f32⟩
  | 58 => ⟨S256x768, .f32⟩
  | 59 => ⟨S16x768, .f32⟩
  | 60 => ⟨S1x768, .f32⟩
  | 61 => ⟨S16x768, .f32⟩
  | 62 => ⟨S16x768, .f32⟩
  | 63 => ⟨S16x256, .f32⟩
  | 64 => ⟨S16x256, .f32⟩
  | 65 => ⟨S16x256, .f32⟩
  | 66 => ⟨S16x256, .f32⟩
  | 67 => ⟨S16x256, .f32⟩
  | 68 => ⟨S16x256, .f32⟩
  | 69 => ⟨S16x256, .f32⟩
  | 70 => ⟨S16x256, .f32⟩
  | 71 => ⟨S16x256, .f32⟩
  | 72 => ⟨S_, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S16x256, .f32⟩
  | 79 => ⟨S16x256, .f32⟩
  | 80 => ⟨S16x256, .f32⟩
  | 81 => ⟨S_, .f32⟩
  | 82 => ⟨S16x256, .f32⟩
  | 83 => ⟨S16x256, .f32⟩
  | 84 => ⟨S_, .f32⟩
  | 85 => ⟨S16x256, .f32⟩
  | 86 => ⟨S16x256, .f32⟩
  | 87 => ⟨S16x256, .f32⟩
  | 88 => ⟨S16x256, .f32⟩
  | 89 => ⟨S16x256, .f32⟩
  | 90 => ⟨S_, .f32⟩
  | 91 => ⟨S16x256, .f32⟩
  | 92 => ⟨S16x256, .f32⟩
  | 93 => ⟨S16x256, .f32⟩
  | 94 => ⟨S16x256, .f32⟩
  | 95 => ⟨S16x256, .f32⟩
  | 96 => ⟨S_, .f32⟩
  | 97 => ⟨S16, .f32⟩
  | 98 => ⟨S16x1, .f32⟩
  | 99 => ⟨S_, .f32⟩
  | 100 => ⟨S16x1, .f32⟩
  | 101 => ⟨S16x1, .f32⟩
  | 102 => ⟨S16x256, .f32⟩
  | 103 => ⟨S16x256, .f32⟩
  | 104 => ⟨S16x256, .f32⟩
  | 105 => ⟨S_, .f32⟩
  | 106 => ⟨S16, .f32⟩
  | 107 => ⟨S16x1, .f32⟩
  | 108 => ⟨S_, .f32⟩
  | 109 => ⟨S16x1, .f32⟩
  | 110 => ⟨S16x1, .f32⟩
  | 111 => ⟨S16x256, .f32⟩
  | 112 => ⟨S16x256, .f32⟩
  | 113 => ⟨S_, .f32⟩
  | 114 => ⟨S16x1, .f32⟩
  | 115 => ⟨S16x1, .f32⟩
  | 116 => ⟨S16x1, .f32⟩
  | 117 => ⟨S16x256, .f32⟩
  | 118 => ⟨S16x256, .f32⟩
  | 119 => ⟨S1x256, .f32⟩
  | 120 => ⟨S16x256, .f32⟩
  | 121 => ⟨S16x256, .f32⟩
  | 122 => ⟨S1x256, .f32⟩
  | 123 => ⟨S16x256, .f32⟩
  | 124 => ⟨S16x256, .f32⟩
  | 125 => ⟨S256x512, .f32⟩
  | 126 => ⟨S16x512, .f32⟩
  | 127 => ⟨S1x512, .f32⟩
  | _ => ⟨S16384x768, .f32⟩

abbrev hbmTy0_4 (i : Nat) : BufTy := match i % 128 with
  | 0 => ⟨S16x512, .f32⟩
  | 1 => ⟨S16x512, .f32⟩
  | 2 => ⟨S_, .f32⟩
  | 3 => ⟨S16x512, .f32⟩
  | 4 => ⟨S16x512, .f32⟩
  | 5 => ⟨S512x256, .f32⟩
  | 6 => ⟨S16x256, .f32⟩
  | 7 => ⟨S1x256, .f32⟩
  | 8 => ⟨S16x256, .f32⟩
  | 9 => ⟨S16x256, .f32⟩
  | 10 => ⟨S16x256, .f32⟩
  | 11 => ⟨S1, .f32⟩
  | 12 => ⟨S1, .f32⟩
  | 13 => ⟨S1, .f32⟩
  | 14 => ⟨S3, .f32⟩
  | 15 => ⟨S_, .f32⟩
  | 16 => ⟨S_, .f32⟩
  | 17 => ⟨S_, .f32⟩
  | 18 => ⟨S_, .f32⟩
  | _ => ⟨S16384x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_19 : Ref sig .tc := ⟨.hbm, 142, rfl⟩
abbrev main_v103 : Ref sig .tc := ⟨.hbm, 143, rfl⟩
abbrev main_v104 : Ref sig .tc := ⟨.hbm, 144, rfl⟩
abbrev main_cst_20 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_21 : Ref sig .tc := ⟨.hbm, 151, rfl⟩
abbrev main_v110 : Ref sig .tc := ⟨.hbm, 152, rfl⟩
abbrev main_v111 : Ref sig .tc := ⟨.hbm, 153, rfl⟩
abbrev main_cst_22 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_24 : Ref sig .tc := ⟨.hbm, 166, rfl⟩
abbrev main_v122 : Ref sig .tc := ⟨.hbm, 167, rfl⟩
abbrev main_v123 : Ref sig .tc := ⟨.hbm, 168, rfl⟩
abbrev main_cst_25 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_26 : Ref sig .tc := ⟨.hbm, 175, rfl⟩
abbrev main_v129 : Ref sig .tc := ⟨.hbm, 176, rfl⟩
abbrev main_v130 : Ref sig .tc := ⟨.hbm, 177, rfl⟩
abbrev main_cst_27 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_28 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_29 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_30 : Ref sig .tc := ⟨.hbm, 209, rfl⟩
abbrev main_v159 : Ref sig .tc := ⟨.hbm, 210, rfl⟩
abbrev main_v160 : Ref sig .tc := ⟨.hbm, 211, rfl⟩
abbrev main_cst_31 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_32 : Ref sig .tc := ⟨.hbm, 218, rfl⟩
abbrev main_v166 : Ref sig .tc := ⟨.hbm, 219, rfl⟩
abbrev main_v167 : Ref sig .tc := ⟨.hbm, 220, rfl⟩
abbrev main_cst_33 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_34 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_35 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_36 : Ref sig .tc := ⟨.hbm, 245, rfl⟩
abbrev main_v189 : Ref sig .tc := ⟨.hbm, 246, rfl⟩
abbrev main_cst_37 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_38 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_cst_39 : Ref sig .tc := ⟨.hbm, 259, rfl⟩
abbrev main_v200 : Ref sig .tc := ⟨.hbm, 260, rfl⟩
abbrev main_v201 : Ref sig .tc := ⟨.hbm, 261, rfl⟩
abbrev main_cst_40 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_41 : Ref sig .tc := ⟨.hbm, 267, rfl⟩
abbrev main_v206 : Ref sig .tc := ⟨.hbm, 268, rfl⟩
abbrev main_cst_42 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_cst_43 : Ref sig .tc := ⟨.hbm, 274, rfl⟩
abbrev main_v211 : Ref sig .tc := ⟨.hbm, 275, rfl⟩
abbrev main_cst_44 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_45 : Ref sig .tc := ⟨.hbm, 299, rfl⟩
abbrev main_v234 : Ref sig .tc := ⟨.hbm, 300, rfl⟩
abbrev main_v235 : Ref sig .tc := ⟨.hbm, 301, rfl⟩
abbrev main_cst_46 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_47 : Ref sig .tc := ⟨.hbm, 308, rfl⟩
abbrev main_v241 : Ref sig .tc := ⟨.hbm, 309, rfl⟩
abbrev main_v242 : Ref sig .tc := ⟨.hbm, 310, rfl⟩
abbrev main_cst_48 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_49 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_cst_50 : Ref sig .tc := ⟨.hbm, 323, rfl⟩
abbrev main_v253 : Ref sig .tc := ⟨.hbm, 324, rfl⟩
abbrev main_v254 : Ref sig .tc := ⟨.hbm, 325, rfl⟩
abbrev main_cst_51 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_cst_52 : Ref sig .tc := ⟨.hbm, 332, rfl⟩
abbrev main_v260 : Ref sig .tc := ⟨.hbm, 333, rfl⟩
abbrev main_v261 : Ref sig .tc := ⟨.hbm, 334, rfl⟩
abbrev main_cst_53 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_cst_54 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_cst_55 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_cst_56 : Ref sig .tc := ⟨.hbm, 366, rfl⟩
abbrev main_v290 : Ref sig .tc := ⟨.hbm, 367, rfl⟩
abbrev main_v291 : Ref sig .tc := ⟨.hbm, 368, rfl⟩
abbrev main_cst_57 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_cst_58 : Ref sig .tc := ⟨.hbm, 375, rfl⟩
abbrev main_v297 : Ref sig .tc := ⟨.hbm, 376, rfl⟩
abbrev main_v298 : Ref sig .tc := ⟨.hbm, 377, rfl⟩
abbrev main_cst_59 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_cst_60 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_cst_61 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_cst_62 : Ref sig .tc := ⟨.hbm, 402, rfl⟩
abbrev main_v320 : Ref sig .tc := ⟨.hbm, 403, rfl⟩
abbrev main_cst_63 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_cst_64 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_cst_65 : Ref sig .tc := ⟨.hbm, 416, rfl⟩
abbrev main_v331 : Ref sig .tc := ⟨.hbm, 417, rfl⟩
abbrev main_v332 : Ref sig .tc := ⟨.hbm, 418, rfl⟩
abbrev main_cst_66 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_cst_67 : Ref sig .tc := ⟨.hbm, 424, rfl⟩
abbrev main_v337 : Ref sig .tc := ⟨.hbm, 425, rfl⟩
abbrev main_cst_68 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_cst_69 : Ref sig .tc := ⟨.hbm, 431, rfl⟩
abbrev main_v342 : Ref sig .tc := ⟨.hbm, 432, rfl⟩
abbrev main_cst_70 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_cst_71 : Ref sig .tc := ⟨.hbm, 456, rfl⟩
abbrev main_v365 : Ref sig .tc := ⟨.hbm, 457, rfl⟩
abbrev main_v366 : Ref sig .tc := ⟨.hbm, 458, rfl⟩
abbrev main_cst_72 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_cst_73 : Ref sig .tc := ⟨.hbm, 465, rfl⟩
abbrev main_v372 : Ref sig .tc := ⟨.hbm, 466, rfl⟩
abbrev main_v373 : Ref sig .tc := ⟨.hbm, 467, rfl⟩
abbrev main_cst_74 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_cst_75 : Ref sig .tc := ⟨.hbm, 474, rfl⟩
abbrev main_v379 : Ref sig .tc := ⟨.hbm, 475, rfl⟩
abbrev main_v380 : Ref sig .tc := ⟨.hbm, 476, rfl⟩
abbrev main_v381 : Ref sig .tc := ⟨.hbm, 477, rfl⟩
abbrev main_v382 : Ref sig .tc := ⟨.hbm, 478, rfl⟩
abbrev main_v383 : Ref sig .tc := ⟨.hbm, 479, rfl⟩
abbrev main_cst_76 : Ref sig .tc := ⟨.hbm, 480, rfl⟩
abbrev main_v384 : Ref sig .tc := ⟨.hbm, 481, rfl⟩
abbrev main_v385 : Ref sig .tc := ⟨.hbm, 482, rfl⟩
abbrev main_cst_77 : Ref sig .tc := ⟨.hbm, 483, rfl⟩
abbrev main_v386 : Ref sig .tc := ⟨.hbm, 484, rfl⟩
abbrev main_v387 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_cst_78 : Ref sig .tc := ⟨.hbm, 489, rfl⟩
abbrev main_v391 : Ref sig .tc := ⟨.hbm, 490, rfl⟩
abbrev main_v392 : Ref sig .tc := ⟨.hbm, 491, rfl⟩
abbrev main_cst_79 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_cst_80 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_cst_81 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_v416 : Ref sig .tc := ⟨.hbm, 518, rfl⟩
abbrev main_v417 : Ref sig .tc := ⟨.hbm, 519, rfl⟩
abbrev main_v418 : Ref sig .tc := ⟨.hbm, 520, rfl⟩
abbrev main_v419 : Ref sig .tc := ⟨.hbm, 521, rfl⟩
abbrev main_v420 : Ref sig .tc := ⟨.hbm, 522, rfl⟩
abbrev main_v421 : Ref sig .tc := ⟨.hbm, 523, rfl⟩
abbrev main_v422 : Ref sig .tc := ⟨.hbm, 524, rfl⟩
abbrev main_v423 : Ref sig .tc := ⟨.hbm, 525, rfl⟩
abbrev main_v424 : Ref sig .tc := ⟨.hbm, 526, rfl⟩
abbrev main_cst_82 : Ref sig .tc := ⟨.hbm, 527, rfl⟩
abbrev main_v425 : Ref sig .tc := ⟨.hbm, 528, rfl⟩
abbrev main_cst_83 : Ref sig .tc := ⟨.hbm, 529, rfl⟩
abbrev main_v426 : Ref sig .tc := ⟨.hbm, 530, rfl⟩

abbrev nD : Nat := 1
abbrev τ : Topo := Topo.v7x

variable {F : FTy → Type} [FloatOps F]

class Facts₀ : Prop where
  reducesTo_S16384x768_S16384_d1 : S16384x768.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x768_0_1 : S16384x1.BroadcastsInDim S16384x768 (![0, 1] : Fin 2 → Fin S16384x768.rank)
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  transposes_S256x768_S768x256_1_0 : S256x768.Transposes [1, 0] S768x256
  reducesTo_S16x256_S16_d1 : S16x256.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x256_0_1 : S16x1.BroadcastsInDim S16x256 (![0, 1] : Fin 2 → Fin S16x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  transposes_S256x256_S256x256_1_0 : S256x256.Transposes [1, 0] S256x256
  bcast_S_S16x256 : S_.BroadcastsInDim S16x256 (![] : Fin 0 → Fin S16x256.rank)
  transposes_S16x256_S256x16_1_0 : S16x256.Transposes [1, 0] S256x16
  reducesTo_S16384x16_S16384_d1 : S16384x16.ReducesTo [1] S16384
  bcast_S_S16384 : S_.BroadcastsInDim S16384 (![] : Fin 0 → Fin S16384.rank)
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  reducesTo_S16384x16_S16_d0 : S16384x16.ReducesTo [0] S16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S_d0_1 : S16384x16.ReducesTo [0, 1] S_
  transposes_S16384x16_S16x16384_1_0 : S16384x16.Transposes [1, 0] S16x16384
  transposes_S768x256_S256x768_1_0 : S768x256.Transposes [1, 0] S256x768
  bcast_S1x768_S16x768_0_1 : S1x768.BroadcastsInDim S16x768 (![0, 1] : Fin 2 → Fin S16x768.rank)
  slices_S16x768_S16x256_0_0 : S16x768.Slices ![0, 0] S16x256
  slices_S16x768_S16x256_0_256 : S16x768.Slices ![0, 256] S16x256
  slices_S16x768_S16x256_0_512 : S16x768.Slices ![0, 512] S16x256
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S256x512_S512x256_1_0 : S256x512.Transposes [1, 0] S512x256
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  dot_S16384x768_S768x256_S16384x256_1_0_0_1_n_n_wf : DotDims.WF S16384x768 S768x256 S16384x256 [1] [0] [0] [1] [] []
  dot_S16x256_S256x256_S16x256_1_0_0_1_n_n_wf : DotDims.WF S16x256 S256x256 S16x256 [1] [0] [0] [1] [] []
  dot_S16384x256_S256x16_S16384x16_1_0_0_1_n_n_wf : DotDims.WF S16384x256 S256x16 S16384x16 [1] [0] [0] [1] [] []
  dot_S16x16384_S16384x256_S16x256_1_0_0_1_n_n_wf : DotDims.WF S16x16384 S16384x256 S16x256 [1] [0] [0] [1] [] []
  dot_S16x256_S256x768_S16x768_1_0_0_1_n_n_wf : DotDims.WF S16x256 S256x768 S16x768 [1] [0] [0] [1] [] []
  dot_S16x256_S256x512_S16x512_1_0_0_1_n_n_wf : DotDims.WF S16x256 S256x512 S16x512 [1] [0] [0] [1] [] []
  dot_S16x512_S512x256_S16x256_1_0_0_1_n_n_wf : DotDims.WF S16x512 S512x256 S16x256 [1] [0] [0] [1] [] []

variable [Facts₀]

def dot_S16384x768_S768x256_S16384x256_1_0_0_1_n_n : DotDims S16384x768 S768x256 S16384x256 where
  lhsContracting := [1]
  rhsContracting := [0]
  lhsNonContracting := [0]
  rhsNonContracting := [1]
  lhsBatch := []
  rhsBatch := []
  wf := dot_S16384x768_S768x256_S16384x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16x16384_S16384x256_S16x256_1_0_0_1_n_n : DotDims S16x16384 S16384x256 S16x256 where
  lhsContracting := [1]
  rhsContracting := [0]
  lhsNonContracting := [0]
  rhsNonContracting := [1]
  lhsBatch := []
  rhsBatch := []
  wf := dot_S16x16384_S16384x256_S16x256_1_0_0_1_n_n_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

class Facts : Prop extends Facts₀ where

variable [Facts]
-- ==== Proof.K.R0.lean ====
import proofs.«153310_j37245956390967_1_alg».proof.Proof.Gen.KernelIdeal.Skeleton
import proofs.«153310_j37245956390967_1_alg».proof.Proof.Gen.KernelIdeal.Points
import proofs.«153310_j37245956390967_1_alg».proof.Proof.Gen.KernelIdeal.Launch
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S4096x768 := Rect.unit (s := S4096x768) ![0, 0] S4096x768.size inb_S4096x768_S4096x768_0_0
abbrev r0_g : Rect S1x768 := Rect.unit (s := S1x768) ![0, 0] S1x768.size inb_S1x768_S1x768_0_0
abbrev r0_w : Rect S768x256 := Rect.unit (s := S768x256) ![0, 0] S768x256.size inb_S768x256_S768x256_0_0
abbrev r0_o : Rect S4096x256 := Rect.unit (s := S4096x256) ![0, 0] S4096x256.size inb_S4096x256_S4096x256_0_0

theorem zeros0 : (![0, 0] : Fin 2 → Nat) = fun _ => 0 := funext fun a => by fin_cases a <;> rfl

def out0_5 (x0 : Vec F S4096x768 .f32) (x1 x2 : Vec F S1x768 .f32) (x3 : Vec F S768x256 .f32) : Vec F S4096x256 .bf16 :=
  View.canon [⟨r0_o, k0_pay2 (View.ld x0 r0_x) (View.ld x1 r0_g) (View.ld x2 r0_g) (View.ld x3 r0_w)⟩]

def out0_6 (x0 : Vec F S4096x768 .f32) (x1 x2 : Vec F S1x768 .f32) (x4 : Vec F S768x256 .f32) : Vec F S4096x256 .bf16 :=
  View.canon [⟨r0_o, k0_pay3 (View.ld x0 r0_x) (View.ld x1 r0_g) (View.ld x2 r0_g) (View.ld x4 r0_w)⟩]

/-- A piece over the whole index set is the whole vector, and reading the whole of a vector gives it back. -/
theorem out0_eq (pay : Vec F S4096x768 .f32 → Vec F S1x768 .f32 → Vec F S1x768 .f32 → Vec F S768x256 .f32 → Vec F S4096x256 .bf16)
    (x0 : Vec F S4096x768 .f32) (x1 x2 : Vec F S1x768 .f32) (x3 : Vec F S768x256 .f32) :
    View.canon [⟨r0_o, pay (View.ld x0 r0_x) (View.ld x1 r0_g) (View.ld x2 r0_g) (View.ld x3 r0_w)⟩] = pay x0 x1 x2 x3 := by
  rw [View.canon_unit_zero (S := S4096x256) zeros0 inb_S4096x256_S4096x256_0_0,
    View.ld_unit_zero (S := S4096x768) zeros0 inb_S4096x768_S4096x768_0_0,
    View.ld_unit_zero (S := S1x768) zeros0 inb_S1x768_S1x768_0_0,
    View.ld_unit_zero (S := S1x768) zeros0 inb_S1x768_S1x768_0_0,
    View.ld_unit_zero (S := S768x256) zeros0 inb_S768x256_S768x256_0_0]
theorem out0_5_eq (x0 : Vec F S4096x768 .f32) (x1 x2 : Vec F S1x768 .f32) (x3 : Vec F S768x256 .f32) :
    out0_5 x0 x1 x2 x3 = k0_pay2 x0 x1 x2 x3 := out0_eq k0_pay2 x0 x1 x2 x3
theorem out0_6_eq (x0 : Vec F S4096x768 .f32) (x1 x2 : Vec F S1x768 .f32) (x4 : Vec F S768x256 .f32) :
    out0_6 x0 x1 x2 x4 = k0_pay3 x0 x1 x2 x4 := out0_eq k0_pay3 x0 x1 x2 x4

theorem cover0_o (p : Vec F S4096x256 .bf16) (y : S4096x256.Idx) :
    ∃ pc ∈ ([⟨r0_o, p⟩] : List (View.Piece (Elt F) S4096x256 .bf16)), y ∈ pc.1.set :=
  ⟨_, List.mem_singleton_self _, View.mem_set_unit_zero zeros0 inb_S4096x256_S4096x256_0_0 y⟩

set_option maxHeartbeats 1000000 in

theorem sound_kernel0 (c : Dev nD) (E : Set ℕ) (i : grid0.Coords)
    (arg1 : Memref sig .tc .vmem S4096x768 .f32) (harg1 : arg1.IsWhole) (arg2 : Memref sig .tc .vmem S1x768 .f32) (harg2 : arg2.IsWhole)
    (arg3 : Memref sig .tc .vmem S1x768 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S4096x256 .bf16) (harg6 : arg6.IsWhole)
    (arg7 : Memref sig .tc .vmem S4096x256 .bf16) (harg7 : arg7.IsWhole)
    (x0 : Vec F S4096x768 .f32) (x1 x2 : Vec F S1x768 .f32) (x3 x4 : Vec F S768x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3)
            ∗ owns (c : Thread nD τ) arg7 fullShare (out0_6 x0 x1 x2 x4)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 4 t)
    | ⟨_ + 7, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]
theorem after0_6 (c : Dev nD) (t : Fin cfg0.N) :
    (dat0 V c).after 6 t = out0_6 (iblk0 V c 0 t) (iblk0 V c 1 t) (iblk0 V c 2 t) (iblk0 V c 4 t) := by dsimp only [dat0]

/-- For an input window the contents before the body at a point are the contents after it: the body leaves an input as it was. -/
theorem before0 (c : Dev nD) : ∀ w : Fin cfg0.W, (cfg0.win w).isOut = false → ∀ (t : Fin cfg0.N) (d),
    (dat0 V c).before w t d = (dat0 V c).after w t
  | ⟨0, _⟩, _, t, d | ⟨1, _⟩, _, t, d | ⟨2, _⟩, _, t, d | ⟨3, _⟩, _, t, d | ⟨4, _⟩, _, t, d =>
    ((dat0 V c).before_in_eq_fetched _ rfl (fun _ => rfl) (fun _ _ _ => rfl) (fun _ => rfl) t d).trans rfl
  | ⟨5, _⟩, h, _, _ | ⟨6, _⟩, h, _, _ => absurd h.symm Bool.false_ne_true
  | ⟨_ + 7, h⟩, _, _, _ => absurd h (Nat.not_lt.2 (Nat.le_add_left _ _))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c 0 rfl, before0 V c 1 rfl, before0 V c 2 rfl, before0 V c 3 rfl, before0 V c 4 rfl]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.K.Model.lean ====
import proofs.«153310_j37245956390967_1_alg».proof.Proof.Gen.KernelIdeal.Skeleton

noncomputable section

namespace Cert.KernelIdeal.H

open Idealize.ShloMosaic Idealize.ShloMosaic.TcCoe
open Cert.KernelIdeal Cert.KernelIdeal.Gen

variable {F : FTy → Type} [FloatOps F]

-- The fourteen small operands a grid point sees whole.
structure Wts (F : FTy → Type) where
  w2 : Vec F S16x256 .f32
  w3 : Vec F S256x256 .f32
  w4 : Vec F S1x256 .f32
  w5 : Vec F S1x256 .f32
  w6 : Vec F S256x768 .f32
  w7 : Vec F S256x768 .f32
  w8 : Vec F S1x768 .f32
  w9 : Vec F S1x768 .f32
  w10 : Vec F S1x256 .f32
  w11 : Vec F S1x256 .f32
  w12 : Vec F S256x512 .f32
  w13 : Vec F S1x512 .f32
  w14 : Vec F S512x256 .f32
  w15 : Vec F S1x256 .f32

-- What is carried from one grid point to the next: slots, queries, three accumulators, the variance total.
structure St (F : FTy → Type) where
  s0 : Vec F S16x256 .f32
  s1 : Vec F S16x256 .f32
  s2 : Vec F S16x256 .f32
  s3 : Vec F S1x16 .f32
  s4 : Vec F S1x16 .f32
  s5 : Vec F S1x1 .f32

-- An iteration starts: queries from the slots, accumulators zeroed.
def resetSt (w : Wts F) (s0 : Vec F S16x256 .f32) (s5 : Vec F S1x1 .f32) : St F where
  s0 := s0
  s1 := k1_pay7 s0 w.w4 w.w5 w.w3
  s2 := k1_pay18 (k1_pay8 (F := F))
  s3 := k1_pay19 (F := F)
  s4 := k1_pay20 (F := F)
  s5 := s5

-- One tile of keys and values added into the accumulators.
def tileSt (kb vb : Vec F S4096x256 .bf16) (S : St F) : St F where
  s0 := S.s0
  s1 := S.s1
  s2 := k1_pay3 (k1_pay21 vb) (k1_pay22 kb S.s1) S.s2
  s3 := k1_pay1 (k1_pay23 kb S.s1 S.s3)
  s4 := k1_pay2 (k1_pay22 kb S.s1) S.s4
  s5 := S.s5

-- An iteration ends: the slots updated from the accumulators, its variance added to the total.
def finSt (w : Wts F) (T : St F) : St F where
  s0 := k1_pay4
    (k1_pay13 T.s0 (k1_pay11 T.s3 T.s2 T.s0 w.w6 w.w8 w.w7 w.w9) (k1_pay12 T.s3 T.s2 T.s0 w.w6 w.w8 w.w7 w.w9))
    (k1_pay14 T.s0 (k1_pay11 T.s3 T.s2 T.s0 w.w6 w.w8 w.w7 w.w9) (k1_pay12 T.s3 T.s2 T.s0 w.w6 w.w8 w.w7 w.w9) w.w10 w.w11 w.w12 w.w13)
    (k1_pay15 w.w14) w.w15
  s1 := T.s1
  s2 := T.s2
  s3 := T.s3
  s4 := T.s4
  s5 := k1_pay5 T.s3 T.s4 T.s5

def stepA (kb vb : Vec F S4096x256 .bf16) (w : Wts F) : St F :=
  tileSt kb vb (resetSt w (k1_pay16 w.w2) (k1_pay17 (F := F)))

def stepB (kb vb : Vec F S4096x256 .bf16) (w : Wts F) (S : St F) : St F :=
  tileSt kb vb (resetSt w S.s0 S.s5)

def stepC (kb vb : Vec F S4096x256 .bf16) (S : St F) : St F := tileSt kb vb S

def stepD (kb vb : Vec F S4096x256 .bf16) (w : Wts F) (S : St F) : St F := finSt w (tileSt kb vb S)

def outVar (s5 : Vec F S1x1 .f32) : Vec F S1x1 .f32 := k1_pay6 s5

end Cert.KernelIdeal.H

end
-- ==== Proof.K.Base1.lean ====
import proofs.«153310_j37245956390967_1_alg».proof.Proof.Gen.KernelIdeal.Points
import proofs.«153310_j37245956390967_1_alg».proof.Proof.Gen.KernelIdeal.Launch
import proofs.«153310_j37245956390967_1_alg».proof.Proof.K.Model
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop :=
  Scalar.cmpi .ne (Scalar.extui (Scalar.cmpi .eq (BitVec.ofNat 32 (i 1).val) 0#32)) 0#32 = 1#1
theorem hcond1_1 : ∀ t : Fin cfg1.N, cond1_1 (grid1.coords t) ↔ t.val % 4 = 0 :=
  (by decide +kernel : ∀ t : Fin grid1.N, cond1_1 (grid1.coords t) ↔ t.val % 4 = 0)

abbrev cond1_2 (i : grid1.Coords) : Prop :=
  Scalar.cmpi .ne (Scalar.extui (Scalar.cmpi .eq (BitVec.ofNat 32 (i 1).val) 3#32)) 0#32 = 1#1
theorem hcond1_2 : ∀ t : Fin cfg1.N, cond1_2 (grid1.coords t) ↔ t.val % 4 = 3 :=
  (by decide +kernel : ∀ t : Fin grid1.N, cond1_2 (grid1.coords t) ↔ t.val % 4 = 3)

abbrev cond1_3 (i : grid1.Coords) : Prop := k1_cond4 i = 1#1
theorem hcond1_3 : ∀ t : Fin cfg1.N, cond1_3 (grid1.coords t) ↔ t.val = 11 :=
  (by decide +kernel : ∀ t : Fin grid1.N, cond1_3 (grid1.coords t) ↔ t.val = 11)

abbrev ms1_0 (t : Fin cfg1.N) : Memref sig .tc .vmem S4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x768 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x768 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x768 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x768 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x512 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S512x256 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x256 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S16x256 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x1 .f32 := win1_17.stage (cfg1.slots t 17)
abbrev hs1_17 (t : Fin cfg1.N) : (ms1_17 t).IsWhole := hstage1_17 ((cfg1.slots t 17).cast nbuf1_17)
abbrev scM1_0 : Memref sig .tc .vmem S16x256 .f32 := Memref.whole cc1_scratch0
abbrev scM1_1 : Memref sig .tc .vmem S16x256 .f32 := Memref.whole cc1_scratch1
abbrev scM1_2 : Memref sig .tc .vmem S16x256 .f32 := Memref.whole cc1_scratch2
abbrev scM1_3 : Memref sig .tc .vmem S1x16 .f32 := Memref.whole cc1_scratch3
abbrev scM1_4 : Memref sig .tc .vmem S1x16 .f32 := Memref.whole cc1_scratch4
abbrev scM1_5 : Memref sig .tc .vmem S1x1 .f32 := Memref.whole cc1_scratch5

theorem liveAt1_in : ∀ (w : Fin 18), w.val < 16 → ∀ t : Fin cfg1.N, cfg1.idle w (grid1.coords t) = false := by decide +kernel
theorem idleAt1_16 : ∀ t : Fin cfg1.N, t.val ≠ 11 → cfg1.idle 16 (grid1.coords t) = true := by decide +kernel
theorem idleAt1_17 : ∀ t : Fin cfg1.N, t.val ≠ 11 → cfg1.idle 17 (grid1.coords t) = true := by decide +kernel
theorem liveAt1_16 : ∀ t : Fin cfg1.N, t.val = 11 → cfg1.idle 16 (grid1.coords t) = false := by decide +kernel
theorem liveAt1_17 : ∀ t : Fin cfg1.N, t.val = 11 → cfg1.idle 17 (grid1.coords t) = false := by decide +kernel
theorem noFlush1_16 : ∀ t : Fin cfg1.N, t.val ≠ 11 → (cfg1.win 16).flush t = false := by decide +kernel
theorem noFlush1_17 : ∀ t : Fin cfg1.N, t.val ≠ 11 → (cfg1.win 17).flush t = false := by decide +kernel

def withStg0 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem withStg0_mono (c : Dev nD) {P Q : sProp 𝕄} (h : P ⊢ Q) : withStg0 (F := F) c P ⊢ withStg0 c Q := by
  unfold withStg0
  iintro ⟨H0, H1, H2, H3, H4, H5, H6, H7, H8, H9, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply h; iexact HP

theorem PhiA1_eq (c : Dev nD) :
    (Pipeline.ΦA spec1 c : sProp 𝕄)
      = iprop(withStg0 c iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ (∃ r, prngReg c r)) := by
  unfold Pipeline.ΦA withStg0; rw [scopedRest1_eq]; simp only [scM1_0, scM1_1, scM1_2, scM1_3, scM1_4, scM1_5, owns_whole]; try rfl

theorem zeros2 : (![0, 0] : Fin 2 → Nat) = fun _ => 0 := funext fun a => by fin_cases a <;> rfl

-- The last store through the whole-shape rectangle is what the buffer then reads.
theorem read_writes_unit {κ : Kind} {sp : Space} {S : Shape} {e : EltTy} {off : Fin S.rank → Nat} (hz : off = fun _ => 0)
    (v : View sig κ sp S e) (f : v.ty.Contents (Elt F)) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon v f _ (fun y => ⟨_, List.mem_cons.mpr (Or.inl rfl), View.mem_set_unit_zero hz inb y⟩),
    View.canon_cons_unit_zero hz]

-- A load of a whole rank-two array through the whole-shape rectangle reads the array,
theorem ld_whole {α : EltTy → Type} {e : EltTy} {a b : ℕ} (inb : ∀ x, (![0, 0] : Fin 2 → ℕ) x + (![a, b] : Fin 2 → ℕ) x ≤ (![a, b] : Fin 2 → ℕ) x)
    (X : (⟨2, ![a, b]⟩ : Shape).Idx → α e) : View.ld X (Rect.unit (s := ⟨2, ![a, b]⟩) ![0, 0] ![a, b] inb) = X :=
  View.ld_unit_zero (S := ⟨2, ![a, b]⟩) zeros2 inb X

-- and the same load after one store through that rectangle reads the stored payload.
theorem readCov_whole {κ : Kind} {sp : Space} {e : EltTy} {a b : ℕ} (v : View sig κ sp ⟨2, ![a, b]⟩ e)
    (inb : ∀ x, (![0, 0] : Fin 2 → ℕ) x + (![a, b] : Fin 2 → ℕ) x ≤ (![a, b] : Fin 2 → ℕ) x) (p : (⟨2, ![a, b]⟩ : Shape).Idx → Elt F e) :
    v.readCov [(⟨Rect.unit (s := ⟨2, ![a, b]⟩) ![0, 0] ![a, b] inb, p⟩ : View.Piece (Elt F) ⟨2, ![a, b]⟩ e)]
      (Rect.unit (s := ⟨2, ![a, b]⟩) ![0, 0] ![a, b] inb).toLoadRect = p :=
  View.readCov_unit_zero (S := ⟨2, ![a, b]⟩) v zeros2 inb p

-- The body's contract at point `i`: the sixteen operands are kept, the six carried buffers go from `S` to
-- `post kb vb w S`, and the two result buffers from `o16`, `o17` to `r16 o16`, `r17 o17` of the new carried state.
def Body1 (i : grid1.Coords) (post : Vec F S4096x256 .bf16 → Vec F S4096x256 .bf16 → Wts F → St F → St F)
    (r16 : Vec F S16x256 .f32 → St F → Vec F S16x256 .f32) (r17 : Vec F S1x1 .f32 → St F → Vec F S1x1 .f32) : Prop :=
  ∀ (c : Dev nD) (E : Set ℕ) (arg2 : Memref sig .tc .vmem S4096x256 .bf16) (harg2 : arg2.IsWhole) (arg3 : Memref sig .tc .vmem S4096x256 .bf16) (harg3 : arg3.IsWhole) (arg4 : Memref sig .tc .vmem S16x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x768 .f32) (harg8 : arg8.IsWhole) (arg9 : Memref sig .tc .vmem S256x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S16x256 .f32) (harg18 : arg18.IsWhole) (arg19 : Memref sig .tc .vmem S1x1 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S16x256 .f32) (harg22 : arg22.IsWhole) (arg23 : Memref sig .tc .vmem S1x16 .f32) (harg23 : arg23.IsWhole) (arg24 : Memref sig .tc .vmem S1x16 .f32) (harg24 : arg24.IsWhole) (arg25 : Memref sig .tc .vmem S1x1 .f32) (harg25 : arg25.IsWhole)
    (kb vb : Vec F S4096x256 .bf16) (w : Wts F) (S : St F) (o16 : Vec F S16x256 .f32) (o17 : Vec F S1x1 .f32) (K : PUnit → sProp 𝕄),
    iprop(owns (c : Thread nD τ) arg2 fullShare kb
        ∗ owns (c : Thread nD τ) arg3 fullShare vb
        ∗ owns (c : Thread nD τ) arg4 fullShare w.w2
        ∗ owns (c : Thread nD τ) arg5 fullShare w.w3
        ∗ owns (c : Thread nD τ) arg6 fullShare w.w4
        ∗ owns (c : Thread nD τ) arg7 fullShare w.w5
        ∗ owns (c : Thread nD τ) arg8 fullShare w.w6
        ∗ owns (c : Thread nD τ) arg9 fullShare w.w7
        ∗ owns (c : Thread nD τ) arg10 fullShare w.w8
        ∗ owns (c : Thread nD τ) arg11 fullShare w.w9
        ∗ owns (c : Thread nD τ) arg12 fullShare w.w10
        ∗ owns (c : Thread nD τ) arg13 fullShare w.w11
        ∗ owns (c : Thread nD τ) arg14 fullShare w.w12
        ∗ owns (c : Thread nD τ) arg15 fullShare w.w13
        ∗ owns (c : Thread nD τ) arg16 fullShare w.w14
        ∗ owns (c : Thread nD τ) arg17 fullShare w.w15
        ∗ owns (c : Thread nD τ) arg18 fullShare o16
        ∗ owns (c : Thread nD τ) arg19 fullShare o17
        ∗ owns (c : Thread nD τ) arg20 fullShare S.s0
        ∗ owns (c : Thread nD τ) arg21 fullShare S.s1
        ∗ owns (c : Thread nD τ) arg22 fullShare S.s2
        ∗ owns (c : Thread nD τ) arg23 fullShare S.s3
        ∗ owns (c : Thread nD τ) arg24 fullShare S.s4
        ∗ owns (c : Thread nD τ) arg25 fullShare S.s5
        ∗ (iprop(owns (c : Thread nD τ) arg2 fullShare kb
            ∗ owns (c : Thread nD τ) arg3 fullShare vb
            ∗ owns (c : Thread nD τ) arg4 fullShare w.w2
            ∗ owns (c : Thread nD τ) arg5 fullShare w.w3
            ∗ owns (c : Thread nD τ) arg6 fullShare w.w4
            ∗ owns (c : Thread nD τ) arg7 fullShare w.w5
            ∗ owns (c : Thread nD τ) arg8 fullShare w.w6
            ∗ owns (c : Thread nD τ) arg9 fullShare w.w7
            ∗ owns (c : Thread nD τ) arg10 fullShare w.w8
            ∗ owns (c : Thread nD τ) arg11 fullShare w.w9
            ∗ owns (c : Thread nD τ) arg12 fullShare w.w10
            ∗ owns (c : Thread nD τ) arg13 fullShare w.w11
            ∗ owns (c : Thread nD τ) arg14 fullShare w.w12
            ∗ owns (c : Thread nD τ) arg15 fullShare w.w13
            ∗ owns (c : Thread nD τ) arg16 fullShare w.w14
            ∗ owns (c : Thread nD τ) arg17 fullShare w.w15
            ∗ owns (c : Thread nD τ) arg18 fullShare (r16 o16 (post kb vb w S))
            ∗ owns (c : Thread nD τ) arg19 fullShare (r17 o17 (post kb vb w S))
            ∗ owns (c : Thread nD τ) arg20 fullShare (post kb vb w S).s0
            ∗ owns (c : Thread nD τ) arg21 fullShare (post kb vb w S).s1
            ∗ owns (c : Thread nD τ) arg22 fullShare (post kb vb w S).s2
            ∗ owns (c : Thread nD τ) arg23 fullShare (post kb vb w S).s3
            ∗ owns (c : Thread nD τ) arg24 fullShare (post kb vb w S).s4
            ∗ owns (c : Thread nD τ) arg25 fullShare (post kb vb w S).s5) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K

end Cert.KernelIdeal.H

end
-- ==== Proof.K.R1RunA.lean ====
import proofs.«153310_j37245956390967_1_alg».proof.Proof.K.Base1

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
-- At the very first point the carried buffers are overwritten before they are read: whatever they held, they end at `stepA`.
theorem sound_kernel1_A (i : grid1.Coords)
    (hc0 : cond1_0 i) (hc1 : cond1_1 i) (hc2 : ¬cond1_2 i) (hc3 : ¬cond1_3 i) :
    Body1 (F := F) i (fun kb vb w _ => stepA kb vb w) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.KernelIdeal.H

end
-- ==== Proof.K.R1RunB.lean ====
import proofs.«153310_j37245956390967_1_alg».proof.Proof.K.Base1

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
-- The first tile of a later iteration: queries recomputed from the slots, accumulators restarted, the tile added.
theorem sound_kernel1_B (i : grid1.Coords)
    (hc0 : ¬cond1_0 i) (hc1 : cond1_1 i) (hc2 : ¬cond1_2 i) (hc3 : ¬cond1_3 i) :
    Body1 (F := F) i (fun kb vb w S => stepB kb vb w S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.KernelIdeal.H

end
-- ==== Proof.K.R1RunC.lean ====
import proofs.«153310_j37245956390967_1_alg».proof.Proof.K.Base1

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
-- A middle tile: only the three accumulators move.
theorem sound_kernel1_C (i : grid1.Coords)
    (hc0 : ¬cond1_0 i) (hc1 : ¬cond1_1 i) (hc2 : ¬cond1_2 i) (hc3 : ¬cond1_3 i) :
    Body1 (F := F) i (fun kb vb _ S => stepC kb vb S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.KernelIdeal.H

end
-- ==== Proof.K.R1RunD.lean ====
import proofs.«153310_j37245956390967_1_alg».proof.Proof.K.Base1

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
-- The last tile of an iteration that is not the last: the tile added, then the slots updated and the variance total raised.
theorem sound_kernel1_D (i : grid1.Coords)
    (hc0 : ¬cond1_0 i) (hc1 : ¬cond1_1 i) (hc2 : cond1_2 i) (hc3 : ¬cond1_3 i) :
    Body1 (F := F) i (fun kb vb w S => stepD kb vb w S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.KernelIdeal.H

end
-- ==== Proof.K.R1RunE.lean ====
import proofs.«153310_j37245956390967_1_alg».proof.Proof.K.Base1

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
-- The very last point: as at any last tile, and the two results are written from the new slots and variance total.
theorem sound_kernel1_E (i : grid1.Coords)
    (hc0 : ¬cond1_0 i) (hc1 : ¬cond1_1 i) (hc2 : cond1_2 i) (hc3 : cond1_3 i) :
    Body1 (F := F) i (fun kb vb w S => stepD kb vb w S) (fun _ T => T.s0) fun _ T => outVar T.s5 := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.KernelIdeal.H

end
-- ==== Proof.K.R1Frame.lean ====
import proofs.«153310_j37245956390967_1_alg».proof.Proof.K.R1RunA
import proofs.«153310_j37245956390967_1_alg».proof.Proof.K.R1RunB
import proofs.«153310_j37245956390967_1_alg».proof.Proof.K.R1RunC
import proofs.«153310_j37245956390967_1_alg».proof.Proof.K.R1RunD
import proofs.«153310_j37245956390967_1_alg».proof.Proof.K.R1RunE
import Idealize.ShloMosaic.Lib.Pipeline.RegionsLoop

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def wts1 (c : Dev nD) (t : Fin cfg1.N) : Wts F where
  w2 := iblk1 V c 2 t
  w3 := iblk1 V c 3 t
  w4 := iblk1 V c 4 t
  w5 := iblk1 V c 5 t
  w6 := iblk1 V c 6 t
  w7 := iblk1 V c 7 t
  w8 := iblk1 V c 8 t
  w9 := iblk1 V c 9 t
  w10 := iblk1 V c 10 t
  w11 := iblk1 V c 11 t
  w12 := iblk1 V c 12 t
  w13 := iblk1 V c 13 t
  w14 := iblk1 V c 14 t
  w15 := iblk1 V c 15 t

def stAt1 (c : Dev nD) : (n : ℕ) → n < cfg1.N → St F
  | 0, hn => stepA (iblk1 V c 0 ⟨0, hn⟩) (iblk1 V c 1 ⟨0, hn⟩) (wts1 V c ⟨0, hn⟩)
  | n + 1, hn =>
    if (n + 1) % 4 = 0 then stepB (iblk1 V c 0 ⟨n + 1, hn⟩) (iblk1 V c 1 ⟨n + 1, hn⟩) (wts1 V c ⟨n + 1, hn⟩) (stAt1 c n (Nat.lt_of_succ_lt hn))
    else if (n + 1) % 4 = 3 then stepD (iblk1 V c 0 ⟨n + 1, hn⟩) (iblk1 V c 1 ⟨n + 1, hn⟩) (wts1 V c ⟨n + 1, hn⟩) (stAt1 c n (Nat.lt_of_succ_lt hn))
    else stepC (iblk1 V c 0 ⟨n + 1, hn⟩) (iblk1 V c 1 ⟨n + 1, hn⟩) (stAt1 c n (Nat.lt_of_succ_lt hn))

def ownsSt (c : Dev nD) (S : St F) : sProp 𝕄 :=
  iprop(owns (c : Thread nD τ) scM1_0 fullShare S.s0 ∗ owns (c : Thread nD τ) scM1_1 fullShare S.s1 ∗ owns (c : Thread nD τ) scM1_2 fullShare S.s2 ∗ owns (c : Thread nD τ) scM1_3 fullShare S.s3 ∗ owns (c : Thread nD τ) scM1_4 fullShare S.s4 ∗ owns (c : Thread nD τ) scM1_5 fullShare S.s5)

def PhiS1 (c : Dev nD) : (n : ℕ) → n ≤ cfg1.N → sProp 𝕄
  | 0, _ => Pipeline.ΦA spec1 c
  | n + 1, hn => iprop(withStg0 c (ownsSt c (stAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_pos (c : Dev nD) (n : ℕ) (h : n ≤ cfg1.N) (hz : n ≠ 0) :
    PhiS1 V c n h = iprop(withStg0 c (ownsSt c (stAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => (stAt1 V c t.val t.isLt).s0
    | ⟨17, _⟩ => outVar (stAt1 V c t.val t.isLt).s5
    | ⟨_ + 18, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

-- The recurrence, unfolded once.
theorem stAt1_eq (c : Dev nD) (t : Fin cfg1.N) :
    stAt1 V c t.val t.isLt =
      if t.val = 0 then stepA (iblk1 V c 0 t) (iblk1 V c 1 t) (wts1 V c t)
      else if t.val % 4 = 0 then stepB (iblk1 V c 0 t) (iblk1 V c 1 t) (wts1 V c t) (stAt1 V c (t.val - 1) (Nat.lt_of_le_of_lt (Nat.sub_le _ _) t.isLt))
      else if t.val % 4 = 3 then stepD (iblk1 V c 0 t) (iblk1 V c 1 t) (wts1 V c t) (stAt1 V c (t.val - 1) (Nat.lt_of_le_of_lt (Nat.sub_le _ _) t.isLt))
      else stepC (iblk1 V c 0 t) (iblk1 V c 1 t) (stAt1 V c (t.val - 1) (Nat.lt_of_le_of_lt (Nat.sub_le _ _) t.isLt)) := by
  obtain ⟨n, hn⟩ := t
  cases n <;> rfl

theorem PhiS1_castSucc (c : Dev nD) (t : Fin cfg1.N) :
    (dat1 V c).Φ t.castSucc = PhiS1 V c t.val (Nat.le_of_lt t.isLt) := by
  dsimp only [dat1]; simp only [Fin.coe_castSucc]

-- Windows below 16 are inputs, live at every point, and the body leaves their blocks in place.
theorem before1_in (c : Dev nD) (w : Fin cfg1.W) (hw : w.val < 16) (t : Fin cfg1.N) (d) : (dat1 V c).before w t d = (dat1 V c).fetched w t d := by
  fin_cases w <;> first
    | exact absurd hw (by decide)
    | exact (dat1 V c).before_in_eq_fetched _ rfl (fun _ => rfl) (fun _ _ _ => rfl) (fun _ => rfl) t d

theorem leaves1_in (c : Dev nD) (w : Fin cfg1.W) (hw : w.val < 16) (t : Fin cfg1.N) :
    (dat1 V c).leavesExact w t = owns (c : Thread nD τ) ((cfg1.win w).stage (cfg1.slots t w)) fullShare ((dat1 V c).after w t) := by
  unfold Dat.leavesExact; rw [liveAt1_in w hw t]

theorem after1_16 (c : Dev nD) (t : Fin cfg1.N) : (dat1 V c).after 16 t = (stAt1 V c t.val t.isLt).s0 := rfl
theorem after1_17 (c : Dev nD) (t : Fin cfg1.N) : (dat1 V c).after 17 t = outVar (stAt1 V c t.val t.isLt).s5 := rfl

def winsPre1 (c : Dev nD) (t : Fin cfg1.N) : sProp 𝕄 :=
  iprop((dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t)

-- Away from the last point the two result windows come back with the contents they came with.
theorem leaves1_idle (c : Dev nD) (t : Fin cfg1.N) (hl : t.val ≠ 11) :
    (∀ d, owns (c : Thread nD τ) (ms1_16 t) fullShare ((dat1 V c).before 16 t d) ⊢ (dat1 V c).leavesExact 16 t)
      ∧ ∀ d, owns (c : Thread nD τ) (ms1_17 t) fullShare ((dat1 V c).before 17 t d) ⊢ (dat1 V c).leavesExact 17 t := by
  rw [Dat.leavesExact_idle (dat1 V c) 16 t (idleAt1_16 t hl) (noFlush1_16 t hl), Dat.leavesExact_idle (dat1 V c) 17 t (idleAt1_17 t hl) (noFlush1_17 t hl)]
  exact ⟨fun d => by iintro H; iexists _; iexact H, fun d => by iintro H; iexists _; iexact H⟩

-- At the last point the two result windows hold `s0` and `outVar s5` of the carried contents.
theorem leaves1_last (c : Dev nD) (t : Fin cfg1.N) (hl : t.val = 11) :
    (dat1 V c).leavesExact 16 t = owns (c : Thread nD τ) (ms1_16 t) fullShare (stAt1 V c t.val t.isLt).s0
      ∧ (dat1 V c).leavesExact 17 t = owns (c : Thread nD τ) (ms1_17 t) fullShare (outVar (stAt1 V c t.val t.isLt).s5) := by
  unfold Dat.leavesExact; rw [liveAt1_16 t hl]; exact ⟨rfl, rfl⟩

-- A body contract run at carried contents `S` gives the region's post; what it does not name is framed.
theorem frame_body1 (c : Dev nD) (t : Fin cfg1.N) {post r16 r17} (h : Body1 (F := F) (grid1.coords t) post r16 r17) (S : St F)
    (hS : stAt1 V c t.val t.isLt = post (iblk1 V c 0 t) (iblk1 V c 1 t) (wts1 V c t) S)
    (h16 : ∀ d, owns (c : Thread nD τ) (ms1_16 t) fullShare (r16 ((dat1 V c).before 16 t d) (stAt1 V c t.val t.isLt)) ⊢ (dat1 V c).leavesExact 16 t)
    (h17 : ∀ d, owns (c : Thread nD τ) (ms1_17 t) fullShare (r17 ((dat1 V c).before 17 t d) (stAt1 V c t.val t.isLt)) ⊢ (dat1 V c).leavesExact 17 t) :
    iprop((withStg0 c (ownsSt c S) ∗ (∃ r, prngReg c r)) ∗ winsPre1 V c t) ⊢ wp frame (wpE (defs₀ (F := F)) Variants.none c none) Set.univ (bodyAt1 t) (fun _ => bodyPost1 V c t) := by
  rw [hS] at h16 h17
  unfold winsPre1 bodyPost1 bodyAt1
  simp (disch := decide) only [before1_in V, leaves1_in V]
  rw [show (dat1 V c).owesAt () t.succ = (dat1 V c).owesAt () t.castSucc from rfl,
    show (dat1 V c).Φ t.succ = iprop(withStg0 c (ownsSt c (stAt1 V c t.val t.isLt)) ∗ (∃ r, prngReg c r)) from rfl, hS]
  unfold withStg0 ownsSt
  iintro ⟨⟨⟨G0, G1, G2, G3, G4, G5, G6, G7, G8, G9, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (h c Set.univ _ _ _ _ _ _ _ _ _ _ _ _ _ _ _ _ _ _ _ _ _ _ _ _ _ _ _ _ _ _ _ _ _ _ _ _ _ _ _ _ _ _ _ _ _ _ _ _ (iblk1 V c 0 t) (iblk1 V c 1 t) (wts1 V c t) S _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iframe
  iintro ⟨H0, H1, H2, H3, H4, H5, H6, H7, H8, H9, H10, H11, H12, H13, H14, H15, H16, H17, S0, S1, S2, S3, S4, S5⟩
  iframe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (h16 d16); iexact H16
  iapply (h17 d17); iexact H17

-- The body at any point: its position picks one of the five control cases, and with it the contract and the carried contents.
theorem sound_body1 (c : Dev nD) (t : Fin cfg1.N) :
    iprop((dat1 V c).Φ t.castSucc ∗ winsPre1 V c t) ⊢ wp frame (wpE (defs₀ (F := F)) Variants.none c none) Set.univ (bodyAt1 t) (fun _ => bodyPost1 V c t) := by
  rw [PhiS1_castSucc V c t]
  by_cases hl : t.val = 11
  · rw [PhiS1_pos V c _ _ (by omega)]
    exact frame_body1 V c t (sound_kernel1_E _ (fun h => absurd ((hcond1_0 t).mp h) (by omega)) (fun h => absurd ((hcond1_1 t).mp h) (by omega)) ((hcond1_2 t).mpr (by omega)) ((hcond1_3 t).mpr hl)) _
      ((stAt1_eq V c t).trans ((if_neg (by omega)).trans ((if_neg (by omega)).trans (if_pos (by omega)))))
      (fun _ => .of_eq (leaves1_last V c t hl).1.symm) (fun _ => .of_eq (leaves1_last V c t hl).2.symm)
  obtain ⟨i16, i17⟩ := leaves1_idle V c t hl
  by_cases hz : t.val = 0
  · rw [PhiS1_zero V c _ _ hz, PhiA1_eq]
    unfold withStg0
    iintro ⟨⟨⟨G0, G1, G2, G3, G4, G5, G6, G7, G8, G9, ⟨%e0, S0⟩, ⟨%e1, S1⟩, ⟨%e2, S2⟩, ⟨%e3, S3⟩, ⟨%e4, S4⟩, ⟨%e5, S5⟩⟩, Hg⟩, HW⟩
    iapply (frame_body1 V c t (sound_kernel1_A _ ((hcond1_0 t).mpr hz) ((hcond1_1 t).mpr (by omega)) (fun h => absurd ((hcond1_2 t).mp h) (by omega)) (fun h => absurd ((hcond1_3 t).mp h) (by omega))) ⟨e0, e1, e2, e3, e4, e5⟩ ((stAt1_eq V c t).trans (if_pos hz)) i16 i17)
    unfold withStg0 ownsSt
    iframe
  rw [PhiS1_pos V c _ _ hz]
  by_cases h0 : t.val % 4 = 0
  · exact frame_body1 V c t (sound_kernel1_B _ (fun h => hz ((hcond1_0 t).mp h)) ((hcond1_1 t).mpr h0) (fun h => absurd ((hcond1_2 t).mp h) (by omega)) (fun h => hl ((hcond1_3 t).mp h))) _
      ((stAt1_eq V c t).trans ((if_neg hz).trans (if_pos h0))) i16 i17
  by_cases h3 : t.val % 4 = 3
  · exact frame_body1 V c t (sound_kernel1_D _ (fun h => hz ((hcond1_0 t).mp h)) (fun h => h0 ((hcond1_1 t).mp h)) ((hcond1_2 t).mpr h3) (fun h => hl ((hcond1_3 t).mp h))) _
      ((stAt1_eq V c t).trans ((if_neg hz).trans ((if_neg h0).trans (if_pos h3)))) i16 i17
  exact frame_body1 V c t (sound_kernel1_C _ (fun h => hz ((hcond1_0 t).mp h)) (fun h => h0 ((hcond1_1 t).mp h)) (fun h => h3 ((hcond1_2 t).mp h)) (fun h => hl ((hcond1_3 t).mp h))) _
    ((stAt1_eq V c t).trans ((if_neg hz).trans ((if_neg h0).trans (if_neg h3)))) i16 i17

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

-- Past the first point the invariant implies the entry invariant: the carried contents are forgotten.
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine sep_mono_left (withStg0_mono c ?_)
  unfold ownsSt
  iintro ⟨S0, S1, S2, S3, S4, S5⟩
  isplitl [S0]; · iexists _; iexact S0
  isplitl [S1]; · iexists _; iexact S1
  isplitl [S2]; · iexists _; iexact S2
  isplitl [S3]; · iexists _; iexact S3
  isplitl [S4]; · iexists _; iexact S4
  iexists _; iexact S5

theorem hout1 (c : Dev nD) : (dat1 V c).Φ (Fin.last cfg1.N) ⊢ Pipeline.ΦA spec1 c :=
  Phi_out1 V c _ (by rw [Fin.val_last]; have : cfg1.N = 12 := N_1; omega)

end Cert.KernelIdeal.H

end
-- ==== Proof.K.Vals.lean ====
import proofs.«153310_j37245956390967_1_alg».proof.Proof.K.R0
import proofs.«153310_j37245956390967_1_alg».proof.Proof.K.R1Frame
import Idealize.ShloMosaic.Lib.Pipeline.FrameSuffix

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

abbrev W4 : Dev nD → Valuation τ sig (Elt F) := fun c => StableHlo.after hostOps2 (W3 m c)

end Cert.KernelIdeal.H

end
-- ==== Proof.K.Run.lean ====
import proofs.«153310_j37245956390967_1_alg».proof.Proof.K.R0
import proofs.«153310_j37245956390967_1_alg».proof.Proof.K.R1Frame
import proofs.«153310_j37245956390967_1_alg».proof.Proof.K.Vals
import proofs.«153310_j37245956390967_1_alg».proof.Proof.Gen.KernelIdeal.Launch
import proofs.«153310_j37245956390967_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An input window's array leaves the first region as it entered. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    exact (W3_arr m c w).trans (((dat1 (V2 m) c).arrAt_in w (hb w rfl) _).trans (A_eq1 (V2 m) c w))
  · exact W3_of_ne m c b fun w e => h ⟨w, e⟩

/-- `b` is unscoped, neither list of written references holds it, and neither region has it as a result array. -/
abbrev Kept (b : Ref sig .tc) : Prop :=
  ¬ (Proc.devRef .tc b : DevRef τ sig).isScoped ∧ b ∉ hostOps2_W ∧ b ∉ hostOps0_W
    ∧ (∀ w, Pipeline.arrRef spec1 w = b → (cfg1.win w).isOut = false)
    ∧ ∀ w, Pipeline.arrRef spec0 w = b → (cfg0.win w).isOut = false

/-- A kept reference ends as launched: each of the four items leaves it alone. -/
theorem W4_arg (c : Dev nD) (b : Ref sig .tc) (hb : Kept b) : W4 m c (Proc.devRef .tc b) = m ((c : Thread nD τ).loc b) :=
  (StableHlo.after_of_writes_sub hostOps2 _ hostOps2_writes hb.2.1).trans <|
    (W3_keep m c b hb.2.2.2.1).trans <| (W2_keep m c b hb.2.2.2.2).trans <|
      (StableHlo.after_of_writes_sub hostOps0 _ hostOps0_writes hb.2.2.1).trans rfl

theorem W4_main_v18_0 (c : Dev nD) : W4 m c (Proc.devRef .tc main_v18_0) = (dat1 (V2 m) c).arrAt 16 cfg1.N :=
  (StableHlo.after_of_writes_sub hostOps2 _ hostOps2_writes (by decide)).trans (W3_arr m c 16)
theorem W3_main_v18_1 (c : Dev nD) : W3 m c (Proc.devRef .tc main_v18_1) = (dat1 (V2 m) c).arrAt 17 cfg1.N :=
  W3_arr m c 17

theorem W4_main_v19 (c : Dev nD) : W4 m c (Proc.devRef .tc main_v19)
    = fun i => (rfl : main_v18_1.ty.elt = main_v19.ty.elt) ▸ shapeCast main_v19.ty.shape (W3 m c (Proc.devRef .tc main_v18_1)) shapeCasts_S1x1_S_ i := by
  dsimp only [W4, hostOps2]; after_results

theorem W4_main_v19' (c : Dev nD) : W4 m c (Proc.devRef .tc main_v19)
    = shapeCast main_v19.ty.shape (W3 m c (Proc.devRef .tc main_v18_1)) shapeCasts_S1x1_S_ :=
  (W4_main_v19 m c).trans rfl

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := hout1 (V2 m) c
    unfold Pipeline.ΦA at h
    rw [Pipeline.ownSems0_none, show (pdats m 1 c).Φ (Fin.last _) = (dat1 (V2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- A final memory that holds every buffer at the last boundary's contents has a kept reference as launched. -/
theorem arg_end (c : Dev nD) (μ : (ℓ : Loc nD τ sig) → Buf (Elt F) ℓ)
    (h : ∀ b ∈ Pipeline.ucRefs τ sig, μ (((c : Thread nD τ)).1, b) = W4 m c b) (b : Ref sig .tc) (hb : Kept b) :
    μ ((c.tc : Thread nD τ).loc b) = m ((c.tc : Thread nD τ).loc b) :=
  (h _ (mem_uc b hb.1)).trans (W4_arg m c b hb)

theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by and_intros <;> exact arg_end m c r.2.mem (h c) _ (by decide)) (run_all m ρ)

end Cert.KernelIdeal.H

end
-- ==== Proof.KB.R0.lean ====
import proofs.«153310_j37245956390967_1_alg».proof.Proof.Gen.Kernel.Skeleton
import proofs.«153310_j37245956390967_1_alg».proof.Proof.Gen.Kernel.Points
import proofs.«153310_j37245956390967_1_alg».proof.Proof.Gen.Kernel.Launch
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S4096x768 := Rect.unit (s := S4096x768) ![0, 0] S4096x768.size inb_S4096x768_S4096x768_0_0
abbrev r0_g : Rect S1x768 := Rect.unit (s := S1x768) ![0, 0] S1x768.size inb_S1x768_S1x768_0_0
abbrev r0_w : Rect S768x256 := Rect.unit (s := S768x256) ![0, 0] S768x256.size inb_S768x256_S768x256_0_0
abbrev r0_o : Rect S4096x256 := Rect.unit (s := S4096x256) ![0, 0] S4096x256.size inb_S4096x256_S4096x256_0_0

theorem zeros0 : (![0, 0] : Fin 2 → Nat) = fun _ => 0 := funext fun a => by fin_cases a <;> rfl

def out0_5 (x0 : Vec F S4096x768 .f32) (x1 x2 : Vec F S1x768 .f32) (x3 : Vec F S768x256 .f32) : Vec F S4096x256 .bf16 :=
  View.canon [⟨r0_o, k0_pay2 (View.ld x0 r0_x) (View.ld x1 r0_g) (View.ld x2 r0_g) (View.ld x3 r0_w)⟩]

def out0_6 (x0 : Vec F S4096x768 .f32) (x1 x2 : Vec F S1x768 .f32) (x4 : Vec F S768x256 .f32) : Vec F S4096x256 .bf16 :=
  View.canon [⟨r0_o, k0_pay3 (View.ld x0 r0_x) (View.ld x1 r0_g) (View.ld x2 r0_g) (View.ld x4 r0_w)⟩]

/-- A piece over the whole index set is the whole vector, and reading the whole of a vector gives it back. -/
theorem out0_eq (pay : Vec F S4096x768 .f32 → Vec F S1x768 .f32 → Vec F S1x768 .f32 → Vec F S768x256 .f32 → Vec F S4096x256 .bf16)
    (x0 : Vec F S4096x768 .f32) (x1 x2 : Vec F S1x768 .f32) (x3 : Vec F S768x256 .f32) :
    View.canon [⟨r0_o, pay (View.ld x0 r0_x) (View.ld x1 r0_g) (View.ld x2 r0_g) (View.ld x3 r0_w)⟩] = pay x0 x1 x2 x3 := by
  rw [View.canon_unit_zero (S := S4096x256) zeros0 inb_S4096x256_S4096x256_0_0,
    View.ld_unit_zero (S := S4096x768) zeros0 inb_S4096x768_S4096x768_0_0,
    View.ld_unit_zero (S := S1x768) zeros0 inb_S1x768_S1x768_0_0,
    View.ld_unit_zero (S := S1x768) zeros0 inb_S1x768_S1x768_0_0,
    View.ld_unit_zero (S := S768x256) zeros0 inb_S768x256_S768x256_0_0]
theorem out0_5_eq (x0 : Vec F S4096x768 .f32) (x1 x2 : Vec F S1x768 .f32) (x3 : Vec F S768x256 .f32) :
    out0_5 x0 x1 x2 x3 = k0_pay2 x0 x1 x2 x3 := out0_eq k0_pay2 x0 x1 x2 x3
theorem out0_6_eq (x0 : Vec F S4096x768 .f32) (x1 x2 : Vec F S1x768 .f32) (x4 : Vec F S768x256 .f32) :
    out0_6 x0 x1 x2 x4 = k0_pay3 x0 x1 x2 x4 := out0_eq k0_pay3 x0 x1 x2 x4

theorem cover0_o (p : Vec F S4096x256 .bf16) (y : S4096x256.Idx) :
    ∃ pc ∈ ([⟨r0_o, p⟩] : List (View.Piece (Elt F) S4096x256 .bf16)), y ∈ pc.1.set :=
  ⟨_, List.mem_singleton_self _, View.mem_set_unit_zero zeros0 inb_S4096x256_S4096x256_0_0 y⟩

set_option maxHeartbeats 1000000 in

theorem sound_kernel0 (c : Dev nD) (E : Set ℕ) (i : grid0.Coords)
    (arg1 : Memref sig .tc .vmem S4096x768 .f32) (harg1 : arg1.IsWhole) (arg2 : Memref sig .tc .vmem S1x768 .f32) (harg2 : arg2.IsWhole)
    (arg3 : Memref sig .tc .vmem S1x768 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S4096x256 .bf16) (harg6 : arg6.IsWhole)
    (arg7 : Memref sig .tc .vmem S4096x256 .bf16) (harg7 : arg7.IsWhole)
    (x0 : Vec F S4096x768 .f32) (x1 x2 : Vec F S1x768 .f32) (x3 x4 : Vec F S768x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3)
            ∗ owns (c : Thread nD τ) arg7 fullShare (out0_6 x0 x1 x2 x4)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 4 t)
    | ⟨_ + 7, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]
theorem after0_6 (c : Dev nD) (t : Fin cfg0.N) :
    (dat0 V c).after 6 t = out0_6 (iblk0 V c 0 t) (iblk0 V c 1 t) (iblk0 V c 2 t) (iblk0 V c 4 t) := by dsimp only [dat0]

/-- For an input window the contents before the body at a point are the contents after it: the body leaves an input as it was. -/
theorem before0 (c : Dev nD) : ∀ w : Fin cfg0.W, (cfg0.win w).isOut = false → ∀ (t : Fin cfg0.N) (d),
    (dat0 V c).before w t d = (dat0 V c).after w t
  | ⟨0, _⟩, _, t, d | ⟨1, _⟩, _, t, d | ⟨2, _⟩, _, t, d | ⟨3, _⟩, _, t, d | ⟨4, _⟩, _, t, d =>
    ((dat0 V c).before_in_eq_fetched _ rfl (fun _ => rfl) (fun _ _ _ => rfl) (fun _ => rfl) t d).trans rfl
  | ⟨5, _⟩, h, _, _ | ⟨6, _⟩, h, _, _ => absurd h.symm Bool.false_ne_true
  | ⟨_ + 7, h⟩, _, _, _ => absurd h (Nat.not_lt.2 (Nat.le_add_left _ _))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c 0 rfl, before0 V c 1 rfl, before0 V c 2 rfl, before0 V c 3 rfl, before0 V c 4 rfl]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.KB.Model.lean ====
import proofs.«153310_j37245956390967_1_alg».proof.Proof.Gen.Kernel.Skeleton

noncomputable section

namespace Cert.Kernel.H

open Idealize.ShloMosaic Idealize.ShloMosaic.TcCoe
open Cert.Kernel Cert.Kernel.Gen

variable {F : FTy → Type} [FloatOps F]

-- The fourteen small operands a grid point sees whole.
structure Wts (F : FTy → Type) where
  w2 : Vec F S16x256 .f32
  w3 : Vec F S256x256 .f32
  w4 : Vec F S1x256 .f32
  w5 : Vec F S1x256 .f32
  w6 : Vec F S256x768 .f32
  w7 : Vec F S256x768 .f32
  w8 : Vec F S1x768 .f32
  w9 : Vec F S1x768 .f32
  w10 : Vec F S1x256 .f32
  w11 : Vec F S1x256 .f32
  w12 : Vec F S256x512 .f32
  w13 : Vec F S1x512 .f32
  w14 : Vec F S512x256 .f32
  w15 : Vec F S1x256 .f32

-- What is carried from one grid point to the next: slots, queries, three accumulators, the variance total.
structure St (F : FTy → Type) where
  s0 : Vec F S16x256 .f32
  s1 : Vec F S16x256 .f32
  s2 : Vec F S16x256 .f32
  s3 : Vec F S1x16 .f32
  s4 : Vec F S1x16 .f32
  s5 : Vec F S1x1 .f32

-- An iteration starts: queries from the slots, accumulators zeroed.
def resetSt (w : Wts F) (s0 : Vec F S16x256 .f32) (s5 : Vec F S1x1 .f32) : St F where
  s0 := s0
  s1 := k1_pay7 s0 w.w4 w.w5 w.w3
  s2 := k1_pay18 (k1_pay8 (F := F))
  s3 := k1_pay19 (F := F)
  s4 := k1_pay20 (F := F)
  s5 := s5

-- One tile of keys and values added into the accumulators.
def tileSt (kb vb : Vec F S4096x256 .bf16) (S : St F) : St F where
  s0 := S.s0
  s1 := S.s1
  s2 := k1_pay3 (k1_pay21 vb) (k1_pay22 kb S.s1) S.s2
  s3 := k1_pay1 (k1_pay23 kb S.s1 S.s3)
  s4 := k1_pay2 (k1_pay22 kb S.s1) S.s4
  s5 := S.s5

-- An iteration ends: the slots updated from the accumulators, its variance added to the total.
def finSt (w : Wts F) (T : St F) : St F where
  s0 := k1_pay4
    (k1_pay13 T.s0 (k1_pay11 T.s3 T.s2 T.s0 w.w6 w.w8 w.w7 w.w9) (k1_pay12 T.s3 T.s2 T.s0 w.w6 w.w8 w.w7 w.w9))
    (k1_pay14 T.s0 (k1_pay11 T.s3 T.s2 T.s0 w.w6 w.w8 w.w7 w.w9) (k1_pay12 T.s3 T.s2 T.s0 w.w6 w.w8 w.w7 w.w9) w.w10 w.w11 w.w12 w.w13)
    (k1_pay15 w.w14) w.w15
  s1 := T.s1
  s2 := T.s2
  s3 := T.s3
  s4 := T.s4
  s5 := k1_pay5 T.s3 T.s4 T.s5

def stepA (kb vb : Vec F S4096x256 .bf16) (w : Wts F) : St F :=
  tileSt kb vb (resetSt w (k1_pay16 w.w2) (k1_pay17 (F := F)))

def stepB (kb vb : Vec F S4096x256 .bf16) (w : Wts F) (S : St F) : St F :=
  tileSt kb vb (resetSt w S.s0 S.s5)

def stepC (kb vb : Vec F S4096x256 .bf16) (S : St F) : St F := tileSt kb vb S

def stepD (kb vb : Vec F S4096x256 .bf16) (w : Wts F) (S : St F) : St F := finSt w (tileSt kb vb S)

def outVar (s5 : Vec F S1x1 .f32) : Vec F S1x1 .f32 := k1_pay6 s5

end Cert.Kernel.H

end
-- ==== Proof.KB.Base1.lean ====
import proofs.«153310_j37245956390967_1_alg».proof.Proof.Gen.Kernel.Points
import proofs.«153310_j37245956390967_1_alg».proof.Proof.Gen.Kernel.Launch
import proofs.«153310_j37245956390967_1_alg».proof.Proof.KB.Model
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop :=
  Scalar.cmpi .ne (Scalar.extui (Scalar.cmpi .eq (BitVec.ofNat 32 (i 1).val) 0#32)) 0#32 = 1#1
theorem hcond1_1 : ∀ t : Fin cfg1.N, cond1_1 (grid1.coords t) ↔ t.val % 4 = 0 :=
  (by decide +kernel : ∀ t : Fin grid1.N, cond1_1 (grid1.coords t) ↔ t.val % 4 = 0)

abbrev cond1_2 (i : grid1.Coords) : Prop :=
  Scalar.cmpi .ne (Scalar.extui (Scalar.cmpi .eq (BitVec.ofNat 32 (i 1).val) 3#32)) 0#32 = 1#1
theorem hcond1_2 : ∀ t : Fin cfg1.N, cond1_2 (grid1.coords t) ↔ t.val % 4 = 3 :=
  (by decide +kernel : ∀ t : Fin grid1.N, cond1_2 (grid1.coords t) ↔ t.val % 4 = 3)

abbrev cond1_3 (i : grid1.Coords) : Prop := k1_cond4 i = 1#1
theorem hcond1_3 : ∀ t : Fin cfg1.N, cond1_3 (grid1.coords t) ↔ t.val = 11 :=
  (by decide +kernel : ∀ t : Fin grid1.N, cond1_3 (grid1.coords t) ↔ t.val = 11)

abbrev ms1_0 (t : Fin cfg1.N) : Memref sig .tc .vmem S4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x768 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x768 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x768 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x768 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x512 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S512x256 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x256 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S16x256 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x1 .f32 := win1_17.stage (cfg1.slots t 17)
abbrev hs1_17 (t : Fin cfg1.N) : (ms1_17 t).IsWhole := hstage1_17 ((cfg1.slots t 17).cast nbuf1_17)
abbrev scM1_0 : Memref sig .tc .vmem S16x256 .f32 := Memref.whole cc1_scratch0
abbrev scM1_1 : Memref sig .tc .vmem S16x256 .f32 := Memref.whole cc1_scratch1
abbrev scM1_2 : Memref sig .tc .vmem S16x256 .f32 := Memref.whole cc1_scratch2
abbrev scM1_3 : Memref sig .tc .vmem S1x16 .f32 := Memref.whole cc1_scratch3
abbrev scM1_4 : Memref sig .tc .vmem S1x16 .f32 := Memref.whole cc1_scratch4
abbrev scM1_5 : Memref sig .tc .vmem S1x1 .f32 := Memref.whole cc1_scratch5

theorem liveAt1_in : ∀ (w : Fin 18), w.val < 16 → ∀ t : Fin cfg1.N, cfg1.idle w (grid1.coords t) = false := by decide +kernel
theorem idleAt1_16 : ∀ t : Fin cfg1.N, t.val ≠ 11 → cfg1.idle 16 (grid1.coords t) = true := by decide +kernel
theorem idleAt1_17 : ∀ t : Fin cfg1.N, t.val ≠ 11 → cfg1.idle 17 (grid1.coords t) = true := by decide +kernel
theorem liveAt1_16 : ∀ t : Fin cfg1.N, t.val = 11 → cfg1.idle 16 (grid1.coords t) = false := by decide +kernel
theorem liveAt1_17 : ∀ t : Fin cfg1.N, t.val = 11 → cfg1.idle 17 (grid1.coords t) = false := by decide +kernel
theorem noFlush1_16 : ∀ t : Fin cfg1.N, t.val ≠ 11 → (cfg1.win 16).flush t = false := by decide +kernel
theorem noFlush1_17 : ∀ t : Fin cfg1.N, t.val ≠ 11 → (cfg1.win 17).flush t = false := by decide +kernel

def withStg0 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem withStg0_mono (c : Dev nD) {P Q : sProp 𝕄} (h : P ⊢ Q) : withStg0 (F := F) c P ⊢ withStg0 c Q := by
  unfold withStg0
  iintro ⟨H0, H1, H2, H3, H4, H5, H6, H7, H8, H9, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply h; iexact HP

theorem PhiA1_eq (c : Dev nD) :
    (Pipeline.ΦA spec1 c : sProp 𝕄)
      = iprop(withStg0 c iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ (∃ r, prngReg c r)) := by
  unfold Pipeline.ΦA withStg0; rw [scopedRest1_eq]; simp only [scM1_0, scM1_1, scM1_2, scM1_3, scM1_4, scM1_5, owns_whole]; try rfl

theorem zeros2 : (![0, 0] : Fin 2 → Nat) = fun _ => 0 := funext fun a => by fin_cases a <;> rfl

-- The last store through the whole-shape rectangle is what the buffer then reads.
theorem read_writes_unit {κ : Kind} {sp : Space} {S : Shape} {e : EltTy} {off : Fin S.rank → Nat} (hz : off = fun _ => 0)
    (v : View sig κ sp S e) (f : v.ty.Contents (Elt F)) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon v f _ (fun y => ⟨_, List.mem_cons.mpr (Or.inl rfl), View.mem_set_unit_zero hz inb y⟩),
    View.canon_cons_unit_zero hz]

-- A load of a whole rank-two array through the whole-shape rectangle reads the array,
theorem ld_whole {α : EltTy → Type} {e : EltTy} {a b : ℕ} (inb : ∀ x, (![0, 0] : Fin 2 → ℕ) x + (![a, b] : Fin 2 → ℕ) x ≤ (![a, b] : Fin 2 → ℕ) x)
    (X : (⟨2, ![a, b]⟩ : Shape).Idx → α e) : View.ld X (Rect.unit (s := ⟨2, ![a, b]⟩) ![0, 0] ![a, b] inb) = X :=
  View.ld_unit_zero (S := ⟨2, ![a, b]⟩) zeros2 inb X

-- and the same load after one store through that rectangle reads the stored payload.
theorem readCov_whole {κ : Kind} {sp : Space} {e : EltTy} {a b : ℕ} (v : View sig κ sp ⟨2, ![a, b]⟩ e)
    (inb : ∀ x, (![0, 0] : Fin 2 → ℕ) x + (![a, b] : Fin 2 → ℕ) x ≤ (![a, b] : Fin 2 → ℕ) x) (p : (⟨2, ![a, b]⟩ : Shape).Idx → Elt F e) :
    v.readCov [(⟨Rect.unit (s := ⟨2, ![a, b]⟩) ![0, 0] ![a, b] inb, p⟩ : View.Piece (Elt F) ⟨2, ![a, b]⟩ e)]
      (Rect.unit (s := ⟨2, ![a, b]⟩) ![0, 0] ![a, b] inb).toLoadRect = p :=
  View.readCov_unit_zero (S := ⟨2, ![a, b]⟩) v zeros2 inb p

-- The body's contract at point `i`: the sixteen operands are kept, the six carried buffers go from `S` to
-- `post kb vb w S`, and the two result buffers from `o16`, `o17` to `r16 o16`, `r17 o17` of the new carried state.
def Body1 (i : grid1.Coords) (post : Vec F S4096x256 .bf16 → Vec F S4096x256 .bf16 → Wts F → St F → St F)
    (r16 : Vec F S16x256 .f32 → St F → Vec F S16x256 .f32) (r17 : Vec F S1x1 .f32 → St F → Vec F S1x1 .f32) : Prop :=
  ∀ (c : Dev nD) (E : Set ℕ) (arg2 : Memref sig .tc .vmem S4096x256 .bf16) (harg2 : arg2.IsWhole) (arg3 : Memref sig .tc .vmem S4096x256 .bf16) (harg3 : arg3.IsWhole) (arg4 : Memref sig .tc .vmem S16x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x768 .f32) (harg8 : arg8.IsWhole) (arg9 : Memref sig .tc .vmem S256x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S512x256 .f32) (harg16 : arg16.IsWhole) (arg17 : Memref sig .tc .vmem S1x256 .f32) (harg17 : arg17.IsWhole) (arg18 : Memref sig .tc .vmem S16x256 .f32) (harg18 : arg18.IsWhole) (arg19 : Memref sig .tc .vmem S1x1 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S16x256 .f32) (harg22 : arg22.IsWhole) (arg23 : Memref sig .tc .vmem S1x16 .f32) (harg23 : arg23.IsWhole) (arg24 : Memref sig .tc .vmem S1x16 .f32) (harg24 : arg24.IsWhole) (arg25 : Memref sig .tc .vmem S1x1 .f32) (harg25 : arg25.IsWhole)
    (kb vb : Vec F S4096x256 .bf16) (w : Wts F) (S : St F) (o16 : Vec F S16x256 .f32) (o17 : Vec F S1x1 .f32) (K : PUnit → sProp 𝕄),
    iprop(owns (c : Thread nD τ) arg2 fullShare kb
        ∗ owns (c : Thread nD τ) arg3 fullShare vb
        ∗ owns (c : Thread nD τ) arg4 fullShare w.w2
        ∗ owns (c : Thread nD τ) arg5 fullShare w.w3
        ∗ owns (c : Thread nD τ) arg6 fullShare w.w4
        ∗ owns (c : Thread nD τ) arg7 fullShare w.w5
        ∗ owns (c : Thread nD τ) arg8 fullShare w.w6
        ∗ owns (c : Thread nD τ) arg9 fullShare w.w7
        ∗ owns (c : Thread nD τ) arg10 fullShare w.w8
        ∗ owns (c : Thread nD τ) arg11 fullShare w.w9
        ∗ owns (c : Thread nD τ) arg12 fullShare w.w10
        ∗ owns (c : Thread nD τ) arg13 fullShare w.w11
        ∗ owns (c : Thread nD τ) arg14 fullShare w.w12
        ∗ owns (c : Thread nD τ) arg15 fullShare w.w13
        ∗ owns (c : Thread nD τ) arg16 fullShare w.w14
        ∗ owns (c : Thread nD τ) arg17 fullShare w.w15
        ∗ owns (c : Thread nD τ) arg18 fullShare o16
        ∗ owns (c : Thread nD τ) arg19 fullShare o17
        ∗ owns (c : Thread nD τ) arg20 fullShare S.s0
        ∗ owns (c : Thread nD τ) arg21 fullShare S.s1
        ∗ owns (c : Thread nD τ) arg22 fullShare S.s2
        ∗ owns (c : Thread nD τ) arg23 fullShare S.s3
        ∗ owns (c : Thread nD τ) arg24 fullShare S.s4
        ∗ owns (c : Thread nD τ) arg25 fullShare S.s5
        ∗ (iprop(owns (c : Thread nD τ) arg2 fullShare kb
            ∗ owns (c : Thread nD τ) arg3 fullShare vb
            ∗ owns (c : Thread nD τ) arg4 fullShare w.w2
            ∗ owns (c : Thread nD τ) arg5 fullShare w.w3
            ∗ owns (c : Thread nD τ) arg6 fullShare w.w4
            ∗ owns (c : Thread nD τ) arg7 fullShare w.w5
            ∗ owns (c : Thread nD τ) arg8 fullShare w.w6
            ∗ owns (c : Thread nD τ) arg9 fullShare w.w7
            ∗ owns (c : Thread nD τ) arg10 fullShare w.w8
            ∗ owns (c : Thread nD τ) arg11 fullShare w.w9
            ∗ owns (c : Thread nD τ) arg12 fullShare w.w10
            ∗ owns (c : Thread nD τ) arg13 fullShare w.w11
            ∗ owns (c : Thread nD τ) arg14 fullShare w.w12
            ∗ owns (c : Thread nD τ) arg15 fullShare w.w13
            ∗ owns (c : Thread nD τ) arg16 fullShare w.w14
            ∗ owns (c : Thread nD τ) arg17 fullShare w.w15
            ∗ owns (c : Thread nD τ) arg18 fullShare (r16 o16 (post kb vb w S))
            ∗ owns (c : Thread nD τ) arg19 fullShare (r17 o17 (post kb vb w S))
            ∗ owns (c : Thread nD τ) arg20 fullShare (post kb vb w S).s0
            ∗ owns (c : Thread nD τ) arg21 fullShare (post kb vb w S).s1
            ∗ owns (c : Thread nD τ) arg22 fullShare (post kb vb w S).s2
            ∗ owns (c : Thread nD τ) arg23 fullShare (post kb vb w S).s3
            ∗ owns (c : Thread nD τ) arg24 fullShare (post kb vb w S).s4
            ∗ owns (c : Thread nD τ) arg25 fullShare (post kb vb w S).s5) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K

end Cert.Kernel.H

end
-- ==== Proof.KB.R1RunA.lean ====
import proofs.«153310_j37245956390967_1_alg».proof.Proof.KB.Base1

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
-- At the very first point the carried buffers are overwritten before they are read: whatever they held, they end at `stepA`.
theorem sound_kernel1_A (i : grid1.Coords)
    (hc0 : cond1_0 i) (hc1 : cond1_1 i) (hc2 : ¬cond1_2 i) (hc3 : ¬cond1_3 i) :
    Body1 (F := F) i (fun kb vb w _ => stepA kb vb w) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.Kernel.H

end
-- ==== Proof.KB.R1RunB.lean ====
import proofs.«153310_j37245956390967_1_alg».proof.Proof.KB.Base1

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
-- The first tile of a later iteration: queries recomputed from the slots, accumulators restarted, the tile added.
theorem sound_kernel1_B (i : grid1.Coords)
    (hc0 : ¬cond1_0 i) (hc1 : cond1_1 i) (hc2 : ¬cond1_2 i) (hc3 : ¬cond1_3 i) :
    Body1 (F := F) i (fun kb vb w S => stepB kb vb w S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.Kernel.H

end
-- ==== Proof.KB.R1RunC.lean ====
import proofs.«153310_j37245956390967_1_alg».proof.Proof.KB.Base1

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
-- A middle tile: only the three accumulators move.
theorem sound_kernel1_C (i : grid1.Coords)
    (hc0 : ¬cond1_0 i) (hc1 : ¬cond1_1 i) (hc2 : ¬cond1_2 i) (hc3 : ¬cond1_3 i) :
    Body1 (F := F) i (fun kb vb _ S => stepC kb vb S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.Kernel.H

end
-- ==== Proof.KB.R1RunD.lean ====
import proofs.«153310_j37245956390967_1_alg».proof.Proof.KB.Base1

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
-- The last tile of an iteration that is not the last: the tile added, then the slots updated and the variance total raised.
theorem sound_kernel1_D (i : grid1.Coords)
    (hc0 : ¬cond1_0 i) (hc1 : ¬cond1_1 i) (hc2 : cond1_2 i) (hc3 : ¬cond1_3 i) :
    Body1 (F := F) i (fun kb vb w S => stepD kb vb w S) (fun o _ => o) fun o _ => o := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.Kernel.H

end
-- ==== Proof.KB.R1RunE.lean ====
import proofs.«153310_j37245956390967_1_alg».proof.Proof.KB.Base1

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
-- The very last point: as at any last tile, and the two results are written from the new slots and variance total.
theorem sound_kernel1_E (i : grid1.Coords)
    (hc0 : ¬cond1_0 i) (hc1 : ¬cond1_1 i) (hc2 : cond1_2 i) (hc3 : cond1_3 i) :
    Body1 (F := F) i (fun kb vb w S => stepD kb vb w S) (fun _ T => T.s0) fun _ T => outVar T.s5 := by
  unfold Body1
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 kb vb w S o16 o17 K
  dsimp only
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg14.eq_unread hf14; obtain rfl := harg15.eq_unread hf15; obtain rfl := harg16.eq_unread hf16; obtain rfl := harg17.eq_unread hf17
  obtain rfl := harg18.eq_unread hf18; obtain rfl := harg19.eq_unread hf19; obtain rfl := harg20.eq_unread hf20; obtain rfl := harg21.eq_unread hf21
  obtain rfl := harg22.eq_unread hf22; obtain rfl := harg23.eq_unread hf23; obtain rfl := harg24.eq_unread hf24; obtain rfl := harg25.eq_unread hf25
  sl_exec (disch := first | exact hc0 | exact hc1 | exact hc2 | exact hc3)
  sl_step
  iapply Hk
  isplitl [H2]; iexists _; isplitr; swap; iexact H2; ipureintro; rotate_left
  isplitl [H3]; iexists _; isplitr; swap; iexact H3; ipureintro; rotate_left
  isplitl [H4]; iexists _; isplitr; swap; iexact H4; ipureintro; rotate_left
  isplitl [H5]; iexists _; isplitr; swap; iexact H5; ipureintro; rotate_left
  isplitl [H6]; iexists _; isplitr; swap; iexact H6; ipureintro; rotate_left
  isplitl [H7]; iexists _; isplitr; swap; iexact H7; ipureintro; rotate_left
  isplitl [H8]; iexists _; isplitr; swap; iexact H8; ipureintro; rotate_left
  isplitl [H9]; iexists _; isplitr; swap; iexact H9; ipureintro; rotate_left
  isplitl [H10]; iexists _; isplitr; swap; iexact H10; ipureintro; rotate_left
  isplitl [H11]; iexists _; isplitr; swap; iexact H11; ipureintro; rotate_left
  isplitl [H12]; iexists _; isplitr; swap; iexact H12; ipureintro; rotate_left
  isplitl [H13]; iexists _; isplitr; swap; iexact H13; ipureintro; rotate_left
  isplitl [H14]; iexists _; isplitr; swap; iexact H14; ipureintro; rotate_left
  isplitl [H15]; iexists _; isplitr; swap; iexact H15; ipureintro; rotate_left
  isplitl [H16]; iexists _; isplitr; swap; iexact H16; ipureintro; rotate_left
  isplitl [H17]; iexists _; isplitr; swap; iexact H17; ipureintro; rotate_left
  isplitl [H18]; iexists _; isplitr; swap; iexact H18; ipureintro; rotate_left
  isplitl [H19]; iexists _; isplitr; swap; iexact H19; ipureintro; rotate_left
  isplitl [H20]; iexists _; isplitr; swap; iexact H20; ipureintro; rotate_left
  isplitl [H21]; iexists _; isplitr; swap; iexact H21; ipureintro; rotate_left
  isplitl [H22]; iexists _; isplitr; swap; iexact H22; ipureintro; rotate_left
  isplitl [H23]; iexists _; isplitr; swap; iexact H23; ipureintro; rotate_left
  isplitl [H24]; iexists _; isplitr; swap; iexact H24; ipureintro; rotate_left
  iexists _; isplitr; swap; iexact H25; ipureintro
  all_goals first
    | (sl_unfold_run_names; rw [read_writes_unit zeros2]
       simp only [stepA, stepB, stepC, stepD, resetSt, finSt, tileSt, outVar, View.readAt_eq_ld, Memref.IsWhole.read_unread, ld_whole, readCov_whole])
    | assumption

end Cert.Kernel.H

end
-- ==== Proof.KB.R1Frame.lean ====
import proofs.«153310_j37245956390967_1_alg».proof.Proof.KB.R1RunA
import proofs.«153310_j37245956390967_1_alg».proof.Proof.KB.R1RunB
import proofs.«153310_j37245956390967_1_alg».proof.Proof.KB.R1RunC
import proofs.«153310_j37245956390967_1_alg».proof.Proof.KB.R1RunD
import proofs.«153310_j37245956390967_1_alg».proof.Proof.KB.R1RunE
import Idealize.ShloMosaic.Lib.Pipeline.RegionsLoop

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def wts1 (c : Dev nD) (t : Fin cfg1.N) : Wts F where
  w2 := iblk1 V c 2 t
  w3 := iblk1 V c 3 t
  w4 := iblk1 V c 4 t
  w5 := iblk1 V c 5 t
  w6 := iblk1 V c 6 t
  w7 := iblk1 V c 7 t
  w8 := iblk1 V c 8 t
  w9 := iblk1 V c 9 t
  w10 := iblk1 V c 10 t
  w11 := iblk1 V c 11 t
  w12 := iblk1 V c 12 t
  w13 := iblk1 V c 13 t
  w14 := iblk1 V c 14 t
  w15 := iblk1 V c 15 t

def stAt1 (c : Dev nD) : (n : ℕ) → n < cfg1.N → St F
  | 0, hn => stepA (iblk1 V c 0 ⟨0, hn⟩) (iblk1 V c 1 ⟨0, hn⟩) (wts1 V c ⟨0, hn⟩)
  | n + 1, hn =>
    if (n + 1) % 4 = 0 then stepB (iblk1 V c 0 ⟨n + 1, hn⟩) (iblk1 V c 1 ⟨n + 1, hn⟩) (wts1 V c ⟨n + 1, hn⟩) (stAt1 c n (Nat.lt_of_succ_lt hn))
    else if (n + 1) % 4 = 3 then stepD (iblk1 V c 0 ⟨n + 1, hn⟩) (iblk1 V c 1 ⟨n + 1, hn⟩) (wts1 V c ⟨n + 1, hn⟩) (stAt1 c n (Nat.lt_of_succ_lt hn))
    else stepC (iblk1 V c 0 ⟨n + 1, hn⟩) (iblk1 V c 1 ⟨n + 1, hn⟩) (stAt1 c n (Nat.lt_of_succ_lt hn))

def ownsSt (c : Dev nD) (S : St F) : sProp 𝕄 :=
  iprop(owns (c : Thread nD τ) scM1_0 fullShare S.s0 ∗ owns (c : Thread nD τ) scM1_1 fullShare S.s1 ∗ owns (c : Thread nD τ) scM1_2 fullShare S.s2 ∗ owns (c : Thread nD τ) scM1_3 fullShare S.s3 ∗ owns (c : Thread nD τ) scM1_4 fullShare S.s4 ∗ owns (c : Thread nD τ) scM1_5 fullShare S.s5)

def PhiS1 (c : Dev nD) : (n : ℕ) → n ≤ cfg1.N → sProp 𝕄
  | 0, _ => Pipeline.ΦA spec1 c
  | n + 1, hn => iprop(withStg0 c (ownsSt c (stAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_pos (c : Dev nD) (n : ℕ) (h : n ≤ cfg1.N) (hz : n ≠ 0) :
    PhiS1 V c n h = iprop(withStg0 c (ownsSt c (stAt1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => (stAt1 V c t.val t.isLt).s0
    | ⟨17, _⟩ => outVar (stAt1 V c t.val t.isLt).s5
    | ⟨_ + 18, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

-- The recurrence, unfolded once.
theorem stAt1_eq (c : Dev nD) (t : Fin cfg1.N) :
    stAt1 V c t.val t.isLt =
      if t.val = 0 then stepA (iblk1 V c 0 t) (iblk1 V c 1 t) (wts1 V c t)
      else if t.val % 4 = 0 then stepB (iblk1 V c 0 t) (iblk1 V c 1 t) (wts1 V c t) (stAt1 V c (t.val - 1) (Nat.lt_of_le_of_lt (Nat.sub_le _ _) t.isLt))
      else if t.val % 4 = 3 then stepD (iblk1 V c 0 t) (iblk1 V c 1 t) (wts1 V c t) (stAt1 V c (t.val - 1) (Nat.lt_of_le_of_lt (Nat.sub_le _ _) t.isLt))
      else stepC (iblk1 V c 0 t) (iblk1 V c 1 t) (stAt1 V c (t.val - 1) (Nat.lt_of_le_of_lt (Nat.sub_le _ _) t.isLt)) := by
  obtain ⟨n, hn⟩ := t
  cases n <;> rfl

theorem PhiS1_castSucc (c : Dev nD) (t : Fin cfg1.N) :
    (dat1 V c).Φ t.castSucc = PhiS1 V c t.val (Nat.le_of_lt t.isLt) := by
  dsimp only [dat1]; simp only [Fin.coe_castSucc]

-- Windows below 16 are inputs, live at every point, and the body leaves their blocks in place.
theorem before1_in (c : Dev nD) (w : Fin cfg1.W) (hw : w.val < 16) (t : Fin cfg1.N) (d) : (dat1 V c).before w t d = (dat1 V c).fetched w t d := by
  fin_cases w <;> first
    | exact absurd hw (by decide)
    | exact (dat1 V c).before_in_eq_fetched _ rfl (fun _ => rfl) (fun _ _ _ => rfl) (fun _ => rfl) t d

theorem leaves1_in (c : Dev nD) (w : Fin cfg1.W) (hw : w.val < 16) (t : Fin cfg1.N) :
    (dat1 V c).leavesExact w t = owns (c : Thread nD τ) ((cfg1.win w).stage (cfg1.slots t w)) fullShare ((dat1 V c).after w t) := by
  unfold Dat.leavesExact; rw [liveAt1_in w hw t]

theorem after1_16 (c : Dev nD) (t : Fin cfg1.N) : (dat1 V c).after 16 t = (stAt1 V c t.val t.isLt).s0 := rfl
theorem after1_17 (c : Dev nD) (t : Fin cfg1.N) : (dat1 V c).after 17 t = outVar (stAt1 V c t.val t.isLt).s5 := rfl

def winsPre1 (c : Dev nD) (t : Fin cfg1.N) : sProp 𝕄 :=
  iprop((dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t)

-- Away from the last point the two result windows come back with the contents they came with.
theorem leaves1_idle (c : Dev nD) (t : Fin cfg1.N) (hl : t.val ≠ 11) :
    (∀ d, owns (c : Thread nD τ) (ms1_16 t) fullShare ((dat1 V c).before 16 t d) ⊢ (dat1 V c).leavesExact 16 t)
      ∧ ∀ d, owns (c : Thread nD τ) (ms1_17 t) fullShare ((dat1 V c).before 17 t d) ⊢ (dat1 V c).leavesExact 17 t := by
  rw [Dat.leavesExact_idle (dat1 V c) 16 t (idleAt1_16 t hl) (noFlush1_16 t hl), Dat.leavesExact_idle (dat1 V c) 17 t (idleAt1_17 t hl) (noFlush1_17 t hl)]
  exact ⟨fun d => by iintro H; iexists _; iexact H, fun d => by iintro H; iexists _; iexact H⟩

-- At the last point the two result windows hold `s0` and `outVar s5` of the carried contents.
theorem leaves1_last (c : Dev nD) (t : Fin cfg1.N) (hl : t.val = 11) :
    (dat1 V c).leavesExact 16 t = owns (c : Thread nD τ) (ms1_16 t) fullShare (stAt1 V c t.val t.isLt).s0
      ∧ (dat1 V c).leavesExact 17 t = owns (c : Thread nD τ) (ms1_17 t) fullShare (outVar (stAt1 V c t.val t.isLt).s5) := by
  unfold Dat.leavesExact; rw [liveAt1_16 t hl]; exact ⟨rfl, rfl⟩

-- A body contract run at carried contents `S` gives the region's post; what it does not name is framed.
theorem frame_body1 (c : Dev nD) (t : Fin cfg1.N) {post r16 r17} (h : Body1 (F := F) (grid1.coords t) post r16 r17) (S : St F)
    (hS : stAt1 V c t.val t.isLt = post (iblk1 V c 0 t) (iblk1 V c 1 t) (wts1 V c t) S)
    (h16 : ∀ d, owns (c : Thread nD τ) (ms1_16 t) fullShare (r16 ((dat1 V c).before 16 t d) (stAt1 V c t.val t.isLt)) ⊢ (dat1 V c).leavesExact 16 t)
    (h17 : ∀ d, owns (c : Thread nD τ) (ms1_17 t) fullShare (r17 ((dat1 V c).before 17 t d) (stAt1 V c t.val t.isLt)) ⊢ (dat1 V c).leavesExact 17 t) :
    iprop((withStg0 c (ownsSt c S) ∗ (∃ r, prngReg c r)) ∗ winsPre1 V c t) ⊢ wp frame (wpE (defs₀ (F := F)) Variants.none c none) Set.univ (bodyAt1 t) (fun _ => bodyPost1 V c t) := by
  rw [hS] at h16 h17
  unfold winsPre1 bodyPost1 bodyAt1
  simp (disch := decide) only [before1_in V, leaves1_in V]
  rw [show (dat1 V c).owesAt () t.succ = (dat1 V c).owesAt () t.castSucc from rfl,
    show (dat1 V c).Φ t.succ = iprop(withStg0 c (ownsSt c (stAt1 V c t.val t.isLt)) ∗ (∃ r, prngReg c r)) from rfl, hS]
  unfold withStg0 ownsSt
  iintro ⟨⟨⟨G0, G1, G2, G3, G4, G5, G6, G7, G8, G9, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (h c Set.univ _ _ _ _ _ _ _ _ _ _ _ _ _ _ _ _ _ _ _ _ _ _ _ _ _ _ _ _ _ _ _ _ _ _ _ _ _ _ _ _ _ _ _ _ _ _ _ _ (iblk1 V c 0 t) (iblk1 V c 1 t) (wts1 V c t) S _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iframe
  iintro ⟨H0, H1, H2, H3, H4, H5, H6, H7, H8, H9, H10, H11, H12, H13, H14, H15, H16, H17, S0, S1, S2, S3, S4, S5⟩
  iframe
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (h16 d16); iexact H16
  iapply (h17 d17); iexact H17

-- The body at any point: its position picks one of the five control cases, and with it the contract and the carried contents.
theorem sound_body1 (c : Dev nD) (t : Fin cfg1.N) :
    iprop((dat1 V c).Φ t.castSucc ∗ winsPre1 V c t) ⊢ wp frame (wpE (defs₀ (F := F)) Variants.none c none) Set.univ (bodyAt1 t) (fun _ => bodyPost1 V c t) := by
  rw [PhiS1_castSucc V c t]
  by_cases hl : t.val = 11
  · rw [PhiS1_pos V c _ _ (by omega)]
    exact frame_body1 V c t (sound_kernel1_E _ (fun h => absurd ((hcond1_0 t).mp h) (by omega)) (fun h => absurd ((hcond1_1 t).mp h) (by omega)) ((hcond1_2 t).mpr (by omega)) ((hcond1_3 t).mpr hl)) _
      ((stAt1_eq V c t).trans ((if_neg (by omega)).trans ((if_neg (by omega)).trans (if_pos (by omega)))))
      (fun _ => .of_eq (leaves1_last V c t hl).1.symm) (fun _ => .of_eq (leaves1_last V c t hl).2.symm)
  obtain ⟨i16, i17⟩ := leaves1_idle V c t hl
  by_cases hz : t.val = 0
  · rw [PhiS1_zero V c _ _ hz, PhiA1_eq]
    unfold withStg0
    iintro ⟨⟨⟨G0, G1, G2, G3, G4, G5, G6, G7, G8, G9, ⟨%e0, S0⟩, ⟨%e1, S1⟩, ⟨%e2, S2⟩, ⟨%e3, S3⟩, ⟨%e4, S4⟩, ⟨%e5, S5⟩⟩, Hg⟩, HW⟩
    iapply (frame_body1 V c t (sound_kernel1_A _ ((hcond1_0 t).mpr hz) ((hcond1_1 t).mpr (by omega)) (fun h => absurd ((hcond1_2 t).mp h) (by omega)) (fun h => absurd ((hcond1_3 t).mp h) (by omega))) ⟨e0, e1, e2, e3, e4, e5⟩ ((stAt1_eq V c t).trans (if_pos hz)) i16 i17)
    unfold withStg0 ownsSt
    iframe
  rw [PhiS1_pos V c _ _ hz]
  by_cases h0 : t.val % 4 = 0
  · exact frame_body1 V c t (sound_kernel1_B _ (fun h => hz ((hcond1_0 t).mp h)) ((hcond1_1 t).mpr h0) (fun h => absurd ((hcond1_2 t).mp h) (by omega)) (fun h => hl ((hcond1_3 t).mp h))) _
      ((stAt1_eq V c t).trans ((if_neg hz).trans (if_pos h0))) i16 i17
  by_cases h3 : t.val % 4 = 3
  · exact frame_body1 V c t (sound_kernel1_D _ (fun h => hz ((hcond1_0 t).mp h)) (fun h => h0 ((hcond1_1 t).mp h)) ((hcond1_2 t).mpr h3) (fun h => hl ((hcond1_3 t).mp h))) _
      ((stAt1_eq V c t).trans ((if_neg hz).trans ((if_neg h0).trans (if_pos h3)))) i16 i17
  exact frame_body1 V c t (sound_kernel1_C _ (fun h => hz ((hcond1_0 t).mp h)) (fun h => h0 ((hcond1_1 t).mp h)) (fun h => h3 ((hcond1_2 t).mp h)) (fun h => hl ((hcond1_3 t).mp h))) _
    ((stAt1_eq V c t).trans ((if_neg hz).trans ((if_neg h0).trans (if_neg h3)))) i16 i17

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

-- Past the first point the invariant implies the entry invariant: the carried contents are forgotten.
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine sep_mono_left (withStg0_mono c ?_)
  unfold ownsSt
  iintro ⟨S0, S1, S2, S3, S4, S5⟩
  isplitl [S0]; · iexists _; iexact S0
  isplitl [S1]; · iexists _; iexact S1
  isplitl [S2]; · iexists _; iexact S2
  isplitl [S3]; · iexists _; iexact S3
  isplitl [S4]; · iexists _; iexact S4
  iexists _; iexact S5

theorem hout1 (c : Dev nD) : (dat1 V c).Φ (Fin.last cfg1.N) ⊢ Pipeline.ΦA spec1 c :=
  Phi_out1 V c _ (by rw [Fin.val_last]; have : cfg1.N = 12 := N_1; omega)

end Cert.Kernel.H

end
-- ==== Proof.KB.Vals.lean ====
import proofs.«153310_j37245956390967_1_alg».proof.Proof.KB.R0
import proofs.«153310_j37245956390967_1_alg».proof.Proof.KB.R1Frame
import Idealize.ShloMosaic.Lib.Pipeline.FrameSuffix

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

abbrev W4 : Dev nD → Valuation τ sig (Elt F) := fun c => StableHlo.after hostOps2 (W3 m c)

end Cert.Kernel.H

end
-- ==== Proof.KB.Run.lean ====
import proofs.«153310_j37245956390967_1_alg».proof.Proof.KB.R0
import proofs.«153310_j37245956390967_1_alg».proof.Proof.KB.R1Frame
import proofs.«153310_j37245956390967_1_alg».proof.Proof.KB.Vals
import proofs.«153310_j37245956390967_1_alg».proof.Proof.Gen.Kernel.Launch
import proofs.«153310_j37245956390967_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An input window's array leaves the first region as it entered. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    exact (W3_arr m c w).trans (((dat1 (V2 m) c).arrAt_in w (hb w rfl) _).trans (A_eq1 (V2 m) c w))
  · exact W3_of_ne m c b fun w e => h ⟨w, e⟩

/-- `b` is unscoped, neither list of written references holds it, and neither region has it as a result array. -/
abbrev Kept (b : Ref sig .tc) : Prop :=
  ¬ (Proc.devRef .tc b : DevRef τ sig).isScoped ∧ b ∉ hostOps2_W ∧ b ∉ hostOps0_W
    ∧ (∀ w, Pipeline.arrRef spec1 w = b → (cfg1.win w).isOut = false)
    ∧ ∀ w, Pipeline.arrRef spec0 w = b → (cfg0.win w).isOut = false

/-- A kept reference ends as launched: each of the four items leaves it alone. -/
theorem W4_arg (c : Dev nD) (b : Ref sig .tc) (hb : Kept b) : W4 m c (Proc.devRef .tc b) = m ((c : Thread nD τ).loc b) :=
  (StableHlo.after_of_writes_sub hostOps2 _ hostOps2_writes hb.2.1).trans <|
    (W3_keep m c b hb.2.2.2.1).trans <| (W2_keep m c b hb.2.2.2.2).trans <|
      (StableHlo.after_of_writes_sub hostOps0 _ hostOps0_writes hb.2.2.1).trans rfl

theorem W4_main_v18_0 (c : Dev nD) : W4 m c (Proc.devRef .tc main_v18_0) = (dat1 (V2 m) c).arrAt 16 cfg1.N :=
  (StableHlo.after_of_writes_sub hostOps2 _ hostOps2_writes (by decide)).trans (W3_arr m c 16)
theorem W3_main_v18_1 (c : Dev nD) : W3 m c (Proc.devRef .tc main_v18_1) = (dat1 (V2 m) c).arrAt 17 cfg1.N :=
  W3_arr m c 17

theorem W4_main_v19 (c : Dev nD) : W4 m c (Proc.devRef .tc main_v19)
    = fun i => (rfl : main_v18_1.ty.elt = main_v19.ty.elt) ▸ shapeCast main_v19.ty.shape (W3 m c (Proc.devRef .tc main_v18_1)) shapeCasts_S1x1_S_ i := by
  dsimp only [W4, hostOps2]; after_results

theorem W4_main_v19' (c : Dev nD) : W4 m c (Proc.devRef .tc main_v19)
    = shapeCast main_v19.ty.shape (W3 m c (Proc.devRef .tc main_v18_1)) shapeCasts_S1x1_S_ :=
  (W4_main_v19 m c).trans rfl

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m) c
    unfold Pipeline.ΦA at h
    rw [show (pdats m 1 c).Φ 0 = (dat1 (V2 m) c).Φ 0 from rfl]
    iintro ⟨Hp, -, Hr⟩
    iapply h
    isplitl [Hr]; · iexact Hr
    iexact Hp
  hout c := by
    have h := hout1 (V2 m) c
    unfold Pipeline.ΦA at h
    rw [Pipeline.ownSems0_none, show (pdats m 1 c).Φ (Fin.last _) = (dat1 (V2 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- A final memory that holds every buffer at the last boundary's contents has a kept reference as launched. -/
theorem arg_end (c : Dev nD) (μ : (ℓ : Loc nD τ sig) → Buf (Elt F) ℓ)
    (h : ∀ b ∈ Pipeline.ucRefs τ sig, μ (((c : Thread nD τ)).1, b) = W4 m c b) (b : Ref sig .tc) (hb : Kept b) :
    μ ((c.tc : Thread nD τ).loc b) = m ((c.tc : Thread nD τ).loc b) :=
  (h _ (mem_uc b hb.1)).trans (W4_arg m c b hb)

theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by and_intros <;> exact arg_end m c r.2.mem (h c) _ (by decide)) (run_all m ρ)

end Cert.Kernel.H

end
-- ==== Proof.S.Spec.lean ====
import Idealize.ShloMosaic.PureOps.Ideal
import Mathlib.Algebra.BigOperators.Fin

noncomputable section

namespace Cert.Spec

open Idealize.ShloMosaic

abbrev E := EReal

def c768 : E := Ideal.ofBits .f32 0x44400000#32
def c256 : E := Ideal.ofBits .f32 0x43800000#32
def epsLN : E := Ideal.ofBits .f32 0x3727C5AC#32
def epsAttn : E := Ideal.ofBits .f32 0x322BCC77#32
def cScale : E := Ideal.ofBits .f32 0x3D800000#32
def cOne : E := Ideal.ofBits .f32 0x3F800000#32
def cZero : E := Ideal.ofBits .f32 0x00000000#32
def cNegInf : E := Ideal.ofBits .f32 0xFF800000#32
def cInvN : E := Ideal.ofBits .f32 0x3A800000#32
def cNKm1 : E := Ideal.ofBits .f32 0x487FFFC0#32
def cNK : E := Ideal.ofBits .f32 0x48800000#32
def cThree : E := Ideal.ofBits .f32 0x40400000#32

-- An extended real that is a real number.
def IsR (x : E) : Prop := ∃ r : ℝ, x = (r : E)

-- The nineteen argument arrays, read at coordinates.
structure Inp where
  X : Fin 16384 → Fin 768 → E
  lnw : Fin 768 → E
  lnb : Fin 768 → E
  lsw : Fin 256 → E
  lsb : Fin 256 → E
  lmw : Fin 256 → E
  lmb : Fin 256 → E
  s0 : Fin 16 → Fin 256 → E
  Wq : Fin 256 → Fin 256 → E
  Wk : Fin 256 → Fin 768 → E
  Wv : Fin 256 → Fin 768 → E
  Wih : Fin 768 → Fin 256 → E
  Whh : Fin 768 → Fin 256 → E
  bih : Fin 768 → E
  bhh : Fin 768 → E
  W1 : Fin 512 → Fin 256 → E
  b1 : Fin 512 → E
  W2 : Fin 256 → Fin 512 → E
  b2 : Fin 256 → E

def Inp.Real (I : Inp) : Prop :=
  (∀ n d, IsR (I.X n d)) ∧ (∀ d, IsR (I.lnw d)) ∧ (∀ d, IsR (I.lnb d)) ∧ (∀ d, IsR (I.lsw d)) ∧ (∀ d, IsR (I.lsb d))
  ∧ (∀ d, IsR (I.lmw d)) ∧ (∀ d, IsR (I.lmb d)) ∧ (∀ k h, IsR (I.s0 k h)) ∧ (∀ i j, IsR (I.Wq i j)) ∧ (∀ i j, IsR (I.Wk i j))
  ∧ (∀ i j, IsR (I.Wv i j)) ∧ (∀ i j, IsR (I.Wih i j)) ∧ (∀ i j, IsR (I.Whh i j)) ∧ (∀ i, IsR (I.bih i)) ∧ (∀ i, IsR (I.bhh i))
  ∧ (∀ i j, IsR (I.W1 i j)) ∧ (∀ i, IsR (I.b1 i)) ∧ (∀ i j, IsR (I.W2 i j)) ∧ (∀ i, IsR (I.b2 i))

variable {D : ℕ}

def mean (cD : E) (x : Fin D → E) : E := Ideal.div (∑ d, x d) cD

-- Layer norm of one row: centred, scaled by the reciprocal root of variance plus epsilon, then weight and bias.
def lnRow (cD : E) (x w b : Fin D → E) : Fin D → E := fun d =>
  (x d - mean cD x) * Ideal.rsqrt (mean cD (fun d' => (x d' - mean cD x) * (x d' - mean cD x)) + epsLN) * w d + b d

def smax {n : ℕ} (f : Fin n → E) : E := max cNegInf (Finset.univ.fold max cNegInf f)

variable (I : Inp)

def xln : Fin 16384 → Fin 768 → E := fun n => lnRow c768 (I.X n) I.lnw I.lnb

def keys : Fin 16384 → Fin 256 → E := fun n h => ∑ d, xln I n d * I.Wk h d
def vals : Fin 16384 → Fin 256 → E := fun n h => ∑ d, xln I n d * I.Wv h d

def qry (s : Fin 16 → Fin 256 → E) : Fin 16 → Fin 256 → E := fun k h =>
  (∑ j, lnRow c256 (s k) I.lsw I.lsb j * I.Wq h j) * cScale

def score (s : Fin 16 → Fin 256 → E) : Fin 16384 → Fin 16 → E := fun n k => ∑ h, keys I n h * qry I s k h
-- Softmax over the sixteen slots of a token's scores, plus epsilon.
def attn (s : Fin 16 → Fin 256 → E) : Fin 16384 → Fin 16 → E := fun n k =>
  Ideal.div (Ideal.exp (score I s n k - smax (score I s n)))
    (∑ k', Ideal.exp (score I s n k' - smax (score I s n))) + epsAttn

def colsum (s : Fin 16 → Fin 256 → E) : Fin 16 → E := fun k => ∑ n, attn I s n k
def sumsq (s : Fin 16 → Fin 256 → E) : Fin 16 → E := fun k => ∑ n, attn I s n k * attn I s n k
def numer (s : Fin 16 → Fin 256 → E) : Fin 16 → Fin 256 → E := fun k h => ∑ n, attn I s n k * vals I n h

-- The attention-weighted mean of the values, slot by slot.
def upd (s : Fin 16 → Fin 256 → E) : Fin 16 → Fin 256 → E := fun k h => Ideal.div (numer I s k h) (colsum I s k)

-- The variance of the column-normalised attention over all tokens and slots.
def varOf (s : Fin 16 → Fin 256 → E) : E :=
  Ideal.div ((∑ k, Ideal.div (sumsq I s k) (colsum I s k * colsum I s k)) - cInvN) cNKm1

def gi (s : Fin 16 → Fin 256 → E) : Fin 16 → Fin 768 → E := fun k j => (∑ h, upd I s k h * I.Wih j h) + I.bih j
def gh (s : Fin 16 → Fin 256 → E) : Fin 16 → Fin 768 → E := fun k j => (∑ h, s k h * I.Whh j h) + I.bhh j
def at0 (j : Fin 256) : Fin 768 := ⟨j.val, by omega⟩
def at1 (j : Fin 256) : Fin 768 := ⟨256 + j.val, by omega⟩
def at2 (j : Fin 256) : Fin 768 := ⟨512 + j.val, by omega⟩
def gateR (s : Fin 16 → Fin 256 → E) : Fin 16 → Fin 256 → E := fun k j => Ideal.logistic (gi I s k (at0 j) + gh I s k (at0 j))
def gateZ (s : Fin 16 → Fin 256 → E) : Fin 16 → Fin 256 → E := fun k j => Ideal.logistic (gi I s k (at1 j) + gh I s k (at1 j))
def cand (s : Fin 16 → Fin 256 → E) : Fin 16 → Fin 256 → E := fun k j => Ideal.tanh (gi I s k (at2 j) + gateR I s k j * gh I s k (at2 j))

-- The gated recurrent cell: the three gates read the three thirds of the 768 columns.
def gru (s : Fin 16 → Fin 256 → E) : Fin 16 → Fin 256 → E := fun k j => (cOne - gateZ I s k j) * cand I s k j + gateZ I s k j * s k j

def hid (s : Fin 16 → Fin 256 → E) : Fin 16 → Fin 512 → E := fun k i =>
  max ((∑ j, lnRow c256 (gru I s k) I.lmw I.lmb j * I.W1 i j) + I.b1 i) cZero
-- One iteration: the cell's output plus a two-layer perceptron of its layer norm.
def nextSlots (s : Fin 16 → Fin 256 → E) : Fin 16 → Fin 256 → E := fun k h =>
  gru I s k h + ((∑ i, hid I s k i * I.W2 h i) + I.b2 h)

def slots1 : Fin 16 → Fin 256 → E := nextSlots I I.s0
def slots2 : Fin 16 → Fin 256 → E := nextSlots I (slots1 I)
def slots3 : Fin 16 → Fin 256 → E := nextSlots I (slots2 I)

-- The mean over the three iterations of the attention variance.
def varMean : E := Ideal.div (((cZero + varOf I I.s0) + varOf I (slots1 I)) + varOf I (slots2 I)) cThree

end Cert.Spec

end
-- ==== Proof.K.WOf.lean ====
import proofs.«153310_j37245956390967_1_alg».proof.Proof.K.Model
import proofs.«153310_j37245956390967_1_alg».proof.Proof.S.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

def WOf (w : Wts Ideal) (I : Inp) : Prop :=
  (∀ k h, w.w2 (ix2 k h) = I.s0 k h) ∧ (∀ (j h : Fin 256), w.w3 (ix2 j h) = I.Wq h j)
  ∧ (∀ j : Fin 256, w.w4 (ix2 (0 : Fin 1) j) = I.lsw j) ∧ (∀ j : Fin 256, w.w5 (ix2 (0 : Fin 1) j) = I.lsb j)
  ∧ (∀ (h : Fin 256) (j : Fin 768), w.w6 (ix2 h j) = I.Wih j h) ∧ (∀ (h : Fin 256) (j : Fin 768), w.w7 (ix2 h j) = I.Whh j h)
  ∧ (∀ j : Fin 768, w.w8 (ix2 (0 : Fin 1) j) = I.bih j) ∧ (∀ j : Fin 768, w.w9 (ix2 (0 : Fin 1) j) = I.bhh j)
  ∧ (∀ j : Fin 256, w.w10 (ix2 (0 : Fin 1) j) = I.lmw j) ∧ (∀ j : Fin 256, w.w11 (ix2 (0 : Fin 1) j) = I.lmb j)
  ∧ (∀ (j : Fin 256) (i : Fin 512), w.w12 (ix2 j i) = I.W1 i j) ∧ (∀ i : Fin 512, w.w13 (ix2 (0 : Fin 1) i) = I.b1 i)
  ∧ (∀ (i : Fin 512) (h : Fin 256), w.w14 (ix2 i h) = I.W2 h i) ∧ (∀ h : Fin 256, w.w15 (ix2 (0 : Fin 1) h) = I.b2 h)

def rowOf (j : Fin 4) (r : Fin 4096) : Fin 16384 := ⟨4096 * j.val + r.val, by omega⟩

end Cert.KernelIdeal.HV

end
-- ==== Proof.K.Val0Arr.lean ====
import proofs.«153310_j37245956390967_1_alg».proof.Proof.K.R0
import Idealize.ShloMosaic.Lib.ValueIdx
import Idealize.ShloMosaic.Lib.Pipeline.Value

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H

variable {F : FTy → Type} [FloatOps F]
variable (V : (c : Dev nD) → (b : Ref sig .tc) → Buf (Elt F) ((c : Thread nD τ).loc b)) (c : Dev nD)

theorem v0a_index : ∀ t : Fin cfg0.N, (win0_5.index t (0 : Fin 2) = t.val ∧ win0_5.index t (1 : Fin 2) = 0)
    ∧ win0_6.index t (0 : Fin 2) = t.val ∧ win0_6.index t (1 : Fin 2) = 0 :=
  (by decide +kernel : ∀ t : Fin grid0.N, _)

def v0a_tile (n : Fin 16384) : Fin cfg0.N := ⟨n.val / 4096, by rw [show cfg0.N = 4 from N_0]; have := n.isLt; omega⟩
def v0a_row (n : Fin 16384) : Fin 4096 := ⟨n.val % 4096, Nat.mod_lt _ (by decide)⟩

theorem v0a_split (t : Fin cfg0.N) (r : Fin 4096) (n : Fin 16384) (hn : n.val = 4096 * t.val + r.val) :
    v0a_tile n = t ∧ v0a_row n = r := by
  have := r.isLt
  exact ⟨Fin.ext (by show n.val / 4096 = t.val; omega), Fin.ext (by show n.val % 4096 = r.val; omega)⟩

-- The whole array that tiles P make up: row n is row (n mod 4096) of tile (n div 4096).
def v0a_G (P : Fin cfg0.N → Vec F S4096x256 .bf16) : S16384x256.Idx → Elt F .bf16 :=
  fun i => P (v0a_tile (i 0)) (ix2 (v0a_row (i 0)) (i 1))

theorem v0a_G_at (P : Fin cfg0.N → Vec F S4096x256 .bf16) (t : Fin cfg0.N) (r : Fin 4096) (h : Fin 256) (n : Fin 16384)
    (hn : n.val = 4096 * t.val + r.val) : v0a_G P (ix2 n h) = P t (ix2 r h) := by
  obtain ⟨ht, hr⟩ := v0a_split t r n hn
  show P (v0a_tile n) (ix2 (v0a_row n) h) = _
  rw [ht, hr]

-- Through an embedding that shifts rows by 4096 t and keeps columns, tile t is read back out of the whole.
theorem v0a_G_emb (P : Fin cfg0.N → Vec F S4096x256 .bf16) (t : Fin cfg0.N) (e : S4096x256.Idx → S16384x256.Idx)
    (h0 : ∀ j, (e j 0).val = 4096 * t.val + (j 0).val) (h1 : ∀ j, e j 1 = j 1) (j : S4096x256.Idx) :
    P t j = v0a_G P (e j) := by
  obtain ⟨ht, hr⟩ := v0a_split t (j 0) (e j 0) (h0 j)
  show _ = P (v0a_tile (e j 0)) (ix2 (v0a_row (e j 0)) (e j 1))
  rw [ht, hr, h1]
  exact congrArg (P t) (eq_ix2 j)

-- 4096 ⌊n / 4096⌋ ≤ n < 4096 ⌊n / 4096⌋ + 4096, and every column is below 256.
theorem v0a_in_tile (i : S16384x256.Idx) (x : Fin 2 → ℕ) (e0 : x 0 = (v0a_tile (i 0)).val) (e1 : x 1 = 0) (a : Fin 2) :
    x a * S4096x256.size a ≤ (i a).val ∧ (i a).val < x a * S4096x256.size a + S4096x256.size a := by
  have hq : (v0a_tile (i 0)).val = (i 0).val / 4096 := rfl
  have h0 : (i 0).val < 16384 := (i 0).isLt
  have h1 : (i 1).val < 256 := (i 1).isLt
  match a with
  | ⟨0, _⟩ =>
    show x 0 * 4096 ≤ (i 0).val ∧ (i 0).val < x 0 * 4096 + 4096
    rw [e0, hq]; omega
  | ⟨1, _⟩ =>
    show x 1 * 256 ≤ (i 1).val ∧ (i 1).val < x 1 * 256 + 256
    rw [e1]; omega

def v0a_P5 (t : Fin cfg0.N) : Vec F S4096x256 .bf16 :=
  k0_pay2 (iblk0 V c 0 t) (iblk0 V c 1 t) (iblk0 V c 2 t) (iblk0 V c 3 t)
def v0a_P6 (t : Fin cfg0.N) : Vec F S4096x256 .bf16 :=
  k0_pay3 (iblk0 V c 0 t) (iblk0 V c 1 t) (iblk0 V c 2 t) (iblk0 V c 4 t)

theorem v0a_final5 : (dat0 V c).arrAt 5 cfg0.N = v0a_G (v0a_P5 V c) := by
  refine (dat0 V c).arrAt_eq_of_cover 5 (v0a_G (v0a_P5 V c)) (fun t _ => ?_) fun i => ⟨v0a_tile (i 0), flush0_5 _, ?_⟩
  · show (cfg0.win 5).cut (grid0.coords t) ((dat0 V c).after 5 t) = _
    rw [after0_5, out0_5_eq]
    obtain ⟨e0, e1⟩ := (v0a_index t).1
    funext j
    rw [View.read_apply]
    exact v0a_G_emb (v0a_P5 V c) t ((cfg0.win 5).blk t).view.emb
      (fun j => by show win0_5.index t (0 : Fin 2) * 4096 + 1 * (j 0).val = _; rw [e0]; omega)
      (fun j => Fin.ext (by show win0_5.index t (1 : Fin 2) * 256 + 1 * (j 1).val = (j 1).val; rw [e1]; omega)) j
  · obtain ⟨e0, e1⟩ := (v0a_index (v0a_tile (i 0))).1
    show i ∈ ((View.whole main_v17_0).slice (win0_5.rect (v0a_tile (i 0)))).set
    rw [View.set_slice_whole, Rect.mem_set_unit]
    exact v0a_in_tile i (win0_5.index (v0a_tile (i 0))) e0 e1

theorem v0a_final6 : (dat0 V c).arrAt 6 cfg0.N = v0a_G (v0a_P6 V c) := by
  refine (dat0 V c).arrAt_eq_of_cover 6 (v0a_G (v0a_P6 V c)) (fun t _ => ?_) fun i => ⟨v0a_tile (i 0), flush0_6 _, ?_⟩
  · show (cfg0.win 6).cut (grid0.coords t) ((dat0 V c).after 6 t) = _
    rw [after0_6, out0_6_eq]
    obtain ⟨e0, e1⟩ := (v0a_index t).2
    funext j
    rw [View.read_apply]
    exact v0a_G_emb (v0a_P6 V c) t ((cfg0.win 6).blk t).view.emb
      (fun j => by show win0_6.index t (0 : Fin 2) * 4096 + 1 * (j 0).val = _; rw [e0]; omega)
      (fun j => Fin.ext (by show win0_6.index t (1 : Fin 2) * 256 + 1 * (j 1).val = (j 1).val; rw [e1]; omega)) j
  · obtain ⟨e0, e1⟩ := (v0a_index (v0a_tile (i 0))).2
    show i ∈ ((View.whole main_v17_1).slice (win0_6.rect (v0a_tile (i 0)))).set
    rw [View.set_slice_whole, Rect.mem_set_unit]
    exact v0a_in_tile i (win0_6.index (v0a_tile (i 0))) e0 e1

theorem v0a_arr5 (t : Fin cfg0.N) (r : Fin 4096) (h : Fin 256) (n : Fin 16384) (hn : n.val = 4096 * t.val + r.val) :
    (dat0 V c).arrAt 5 cfg0.N (ix2 n h)
      = k0_pay2 (iblk0 V c 0 t) (iblk0 V c 1 t) (iblk0 V c 2 t) (iblk0 V c 3 t) (ix2 r h) := by
  rw [v0a_final5]
  exact v0a_G_at (v0a_P5 V c) t r h n hn

theorem v0a_arr6 (t : Fin cfg0.N) (r : Fin 4096) (h : Fin 256) (n : Fin 16384) (hn : n.val = 4096 * t.val + r.val) :
    (dat0 V c).arrAt 6 cfg0.N (ix2 n h)
      = k0_pay3 (iblk0 V c 0 t) (iblk0 V c 1 t) (iblk0 V c 2 t) (iblk0 V c 4 t) (ix2 r h) := by
  rw [v0a_final6]
  exact v0a_G_at (v0a_P6 V c) t r h n hn

end Cert.KernelIdeal.HV

end
-- ==== Proof.K.Ops.lean ====
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HV

open Idealize.ShloMosaic Idealize.ShloMosaic.TcCoe Idealize.ShloMosaic.ValueIdx

section Rank2
variable {a b : ℕ} {α : Type}

-- Putting coordinate c back on the reduced second axis of row r gives (r, c).
theorem lift_lane (h : (⟨2, ![a, b]⟩ : Shape).Reduces [1] ⟨1, ![a]⟩) (r : Fin a) (c : Fin b) :
    h.lift (ix1 r) c = ix2 r c := by
  funext ax; apply Fin.ext
  match ax with
  | ⟨0, _⟩ => rfl
  | ⟨1, _⟩ => rfl

-- Putting coordinate r back on the reduced first axis of column c gives (r, c).
theorem lift_row (h : (⟨2, ![a, b]⟩ : Shape).Reduces [0] ⟨1, ![b]⟩) (c : Fin b) (r : Fin a) :
    h.lift (ix1 c) r = ix2 r c := by
  funext ax; apply Fin.ext
  match ax with
  | ⟨0, _⟩ => rfl
  | ⟨1, _⟩ => rfl

-- A sum along the second axis, read at a row, is the sum of that row's entries.
theorem laneSum_apply (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ x 0x00000000#32 h hφ hacc (ix1 r) = ∑ c : Fin b, x (ix2 r c) :=
  (Ideal.multiReduction_add_single x _ h hφ hacc (ix1 r)).trans
    (Finset.sum_congr rfl fun c _ => congrArg x (lift_lane h r c))

-- A sum along the first axis, read at a column, is the sum of that column's entries.
theorem colSum_apply (x : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ x 0x00000000#32 h hφ hacc (ix1 c) = ∑ r : Fin a, x (ix2 r c) :=
  (Ideal.multiReduction_add_single x _ h hφ hacc (ix1 c)).trans
    (Finset.sum_congr rfl fun r _ => congrArg x (lift_row h c r))

-- A maximum along the second axis from −∞, read at a row, is the running maximum of that row's entries.
theorem laneMax_apply (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ x 0xFF800000#32 h hφ hacc (ix1 r)
      = (Finset.univ : Finset (Fin b)).fold max (Ideal.ofBits .f32 0xFF800000#32) (fun c => x (ix2 r c)) :=
  (Ideal.multiReduction_maximumf_single x _ h hφ hacc (ix1 r)).trans
    (congrArg (fun f => (Finset.univ : Finset (Fin b)).fold max (Ideal.ofBits .f32 0xFF800000#32) f)
      (funext fun c => congrArg x (lift_lane h r c)))

-- Row-major positions agree: r = r * 1 + 0.
theorem column_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

-- A one-column matrix spread along the second axis reads, at (r, c), its entry r.
theorem spread_apply (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Rank2

section Products
variable {sl sr so : Shape} {m k n : ℕ} {φ₁ φ₂ : FTy}

-- A product contracting one axis of extent k into the zero accumulator is the sum over that axis's coordinate.
theorem matmul_sum (D : DotDims sl sr so) (hr : D.contr.rank = 1) (hs : D.contr.size ⟨0, by omega⟩ = k)
    (prec : Option ContractPrecision) (A : FVec Ideal sl φ₁) (B : FVec Ideal sr φ₂) (j : so.Idx)
    (l : Fin k → sl.Idx) (r : Fin k → sr.Idx)
    (hl : ∀ (q : D.contr.Idx) (c : Fin k), (q ⟨0, by omega⟩).val = c.val → D.lhsIdx j q = l c)
    (hr' : ∀ (q : D.contr.Idx) (c : Fin k), (q ⟨0, by omega⟩).val = c.val → D.rhsIdx j q = r c) :
    matmul D prec A B (constant (F := Ideal) so .f32 0x00000000#32) j = ∑ c : Fin k, A (l c) * B (r c) := by
  show FloatOps.matmul D prec A B _ j = _
  rw [Ideal.matmul_constant_zero_apply, ← Equiv.sum_comp (contrEquiv1 D k hr hs).symm]
  exact Finset.sum_congr rfl fun c _ => by
    have hc := contrEquiv1_symm_val D k hr hs c
    rw [hl _ c hc, hr' _ c hc]

-- Rows by columns: entry (p, q) is the sum over c of A (p, c) * B (c, q).
theorem matmul_rc_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (p : Fin m) (q : Fin n) :
    matmul (⟨[1], [0], [0], [1], [], [], w⟩ : DotDims _ _ _) prec A B (constant (F := Ideal) ⟨2, ![m, n]⟩ .f32 0x00000000#32) (ix2 p q)
      = ∑ c : Fin k, A (ix2 p c) * B (ix2 c q) := by
  refine matmul_sum (D := ⟨[1], [0], [0], [1], [], [], w⟩) rfl rfl prec A B (ix2 p q) (fun c => ix2 p c) (fun c => ix2 c q)
    (fun x c hx => ?_) (fun x c hx => ?_)
  · funext ax; apply Fin.ext
    match ax with
    | ⟨0, _⟩ => simp [DotDims.lhsIdx]; rfl
    | ⟨1, _⟩ => simp [DotDims.lhsIdx]; exact hx
  · funext ax; apply Fin.ext
    match ax with
    | ⟨0, _⟩ => simp [DotDims.rhsIdx]; exact hx
    | ⟨1, _⟩ => simp [DotDims.rhsIdx]; rfl

-- Both operands contracted along their first axis: entry (p, q) is the sum over c of A (c, p) * B (c, q).
theorem matmul_tn_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (p : Fin m) (q : Fin n) :
    matmul (⟨[0], [0], [1], [1], [], [], w⟩ : DotDims _ _ _) prec A B (constant (F := Ideal) ⟨2, ![m, n]⟩ .f32 0x00000000#32) (ix2 p q)
      = ∑ c : Fin k, A (ix2 c p) * B (ix2 c q) := by
  refine matmul_sum (D := ⟨[0], [0], [1], [1], [], [], w⟩) rfl rfl prec A B (ix2 p q) (fun c => ix2 c p) (fun c => ix2 c q)
    (fun x c hx => ?_) (fun x c hx => ?_)
  · funext ax; apply Fin.ext
    match ax with
    | ⟨0, _⟩ => simp [DotDims.lhsIdx]; exact hx
    | ⟨1, _⟩ => simp [DotDims.lhsIdx]; rfl
  · funext ax; apply Fin.ext
    match ax with
    | ⟨0, _⟩ => simp [DotDims.rhsIdx]; exact hx
    | ⟨1, _⟩ => simp [DotDims.rhsIdx]; rfl

end Products

section Pointwise
variable {s : Shape} {φ : FTy} (v : FVec Ideal s φ) (i : s.Idx)

theorem rsqrt_apply : rsqrt v i = Ideal.rsqrt (v i) := rfl
theorem exp_apply : exp v i = Ideal.exp (v i) := rfl
theorem tanh_apply : tanh v i = Ideal.tanh (v i) := rfl
theorem logistic_apply : logistic v i = Ideal.logistic (v i) := rfl

end Pointwise

end Cert.KernelIdeal.HV

end
-- ==== Proof.K.Val0.lean ====
import proofs.«153310_j37245956390967_1_alg».proof.Proof.K.Vals
import proofs.«153310_j37245956390967_1_alg».proof.Proof.K.WOf
import proofs.«153310_j37245956390967_1_alg».proof.Proof.K.Val0Arr
import proofs.«153310_j37245956390967_1_alg».proof.Proof.K.Ops

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

-- The normalised tile at (r, d): the layer norm of row r with the one-row scale and shift.
theorem v0_pay1_apply (x : Vec Ideal S4096x768 .f32) (g s : Vec Ideal S1x768 .f32) (r : Fin 4096) (d : Fin 768) :
    k0_pay1 x g s (ix2 r d)
      = lnRow c768 (fun d' => x (ix2 r d')) (fun d' => g (ix2 (0 : Fin 1) d')) (fun d' => s (ix2 (0 : Fin 1) d')) d := by
  unfold k0_pay1
  simp only [truncf_apply, addf_apply, mulf_apply, subf_apply, divf_apply, rsqrt_apply, broadcast_apply,
    shapeCast_self, spread_apply, broadcastTo_1b_ab_apply, column_apply]
  rw [laneSum_apply (a := 4096) (b := 768) x, laneSum_apply (a := 4096) (b := 768)]
  simp only [mulf_apply, subf_apply, divf_apply, broadcast_apply, spread_apply, column_apply]
  rw [laneSum_apply (a := 4096) (b := 768) x]
  rfl

theorem v0_matmul_apply (A : FVec Ideal S4096x768 .bf16) (B : FVec Ideal S768x256 .bf16) (r : Fin 4096) (h : Fin 256) :
    matmul dot_S4096x768_S768x256_S4096x256_1_0_0_1_n_n none A B (constant (F := Ideal) S4096x256 .f32 0x00000000#32) (ix2 r h)
      = ∑ d : Fin 768, A (ix2 r d) * B (ix2 d h) :=
  matmul_rc_apply _ none A B r h

-- The stored tile at (r, h): the normalised row r against column h of the weights.
theorem v0_pay2_apply (x : Vec Ideal S4096x768 .f32) (g s : Vec Ideal S1x768 .f32) (w : Vec Ideal S768x256 .f32)
    (r : Fin 4096) (h : Fin 256) :
    k0_pay2 x g s w (ix2 r h)
      = ∑ d : Fin 768, lnRow c768 (fun d' => x (ix2 r d')) (fun d' => g (ix2 (0 : Fin 1) d')) (fun d' => s (ix2 (0 : Fin 1) d')) d
          * w (ix2 d h) := by
  unfold k0_pay2
  simp only [truncf_apply]
  rw [v0_matmul_apply]
  refine Finset.sum_congr rfl fun d _ => ?_
  rw [v0_pay1_apply, truncf_apply, shapeCast_self]

section Inputs
variable (m : (ℓ : Loc nD τ sig) → Buf (Elt Ideal) ℓ) (c : Dev nD)

theorem v0_idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem v0_V1_arg0 : V1 m c main_arg0 = m ((c.tc : Thread nD τ).loc main_arg0) := by
  show StableHlo.after hostOps0 (fun b => m (c, b)) (Proc.devRef .tc main_arg0) = _
  after_results
theorem v0_V1_v7 : (V1 m c main_v7 : S1x768.Idx → EReal)
    = broadcastInDim S1x768 ![1] bcast_S768_S1x768_1 (m ((c.tc : Thread nD τ).loc main_arg1)) := by
  show StableHlo.after hostOps0 (fun b => m (c, b)) (Proc.devRef .tc main_v7) = _
  after_results
theorem v0_V1_v8 : (V1 m c main_v8 : S1x768.Idx → EReal)
    = broadcastInDim S1x768 ![1] bcast_S768_S1x768_1 (m ((c.tc : Thread nD τ).loc main_arg2)) := by
  show StableHlo.after hostOps0 (fun b => m (c, b)) (Proc.devRef .tc main_v8) = _
  after_results
theorem v0_V1_v0 : (V1 m c main_v0 : S768x256.Idx → EReal)
    = transpose S768x256 [1, 0] (m ((c.tc : Thread nD τ).loc main_arg9)) transposes_S256x768_S768x256_1_0 := by
  show StableHlo.after hostOps0 (fun b => m (c, b)) (Proc.devRef .tc main_v0) = _
  after_results
theorem v0_V1_v1 : (V1 m c main_v1 : S768x256.Idx → EReal)
    = transpose S768x256 [1, 0] (m ((c.tc : Thread nD τ).loc main_arg10)) transposes_S256x768_S768x256_1_0 := by
  show StableHlo.after hostOps0 (fun b => m (c, b)) (Proc.devRef .tc main_v1) = _
  after_results

-- A vector as a one-row matrix reads, at (0, d), its entry d.
theorem v0_oneRow_apply (x : S768.Idx → EReal) (u : Fin 1) (d : Fin 768) :
    broadcastInDim S1x768 ![1] bcast_S768_S1x768_1 x (ix2 u d) = x (ix1 d) :=
  broadcastInDim_apply _ _ x (ix2 u d) (ix1 d) fun a => match a with
    | ⟨0, _⟩ => by
      show d.val = if (768 : ℕ) = 1 then 0 else d.val
      rw [if_neg (by decide)]

theorem v0_blk0 (t : Fin cfg0.N) (r : Fin 4096) (d : Fin 768) (n : Fin 16384) (hn : n.val = 4096 * t.val + r.val) :
    (iblk0 (V1 m) c 0 t : Vec Ideal S4096x768 .f32) (ix2 r d) = m ((c.tc : Thread nD τ).loc main_arg0) (ix2 n d) := by
  obtain ⟨e0, e1, -⟩ := v0_idx_in t
  unfold iblk0
  rw [View.read_apply]
  show V1 m c main_arg0 _ = _
  rw [v0_V1_arg0]
  congr 1
  funext a; apply Fin.ext
  match a with
  | ⟨0, _⟩ => show win0_0.index t (0 : Fin 2) * 4096 + 1 * r.val = n.val; omega
  | ⟨1, _⟩ => show win0_0.index t (1 : Fin 2) * 768 + 1 * d.val = d.val; omega
theorem v0_blk1 (t : Fin cfg0.N) (d : Fin 768) :
    (iblk0 (V1 m) c 1 t : Vec Ideal S1x768 .f32) (ix2 (0 : Fin 1) d) = m ((c.tc : Thread nD τ).loc main_arg1) (ix1 d) := by
  obtain ⟨-, -, e0, e1, -⟩ := v0_idx_in t
  unfold iblk0
  rw [View.read_apply]
  show (V1 m c main_v7 : S1x768.Idx → EReal) _ = _
  rw [v0_V1_v7]
  have he : ((cfg0.win 1).blk t).view.emb (ix2 (0 : Fin 1) d) = (ix2 (0 : Fin 1) d : S1x768.Idx) := by
    funext a; apply Fin.ext
    match a with
    | ⟨0, _⟩ => show win0_1.index t (0 : Fin 2) * 1 + 1 * 0 = 0; omega
    | ⟨1, _⟩ => show win0_1.index t (1 : Fin 2) * 768 + 1 * d.val = d.val; omega
  rw [he, v0_oneRow_apply]
theorem v0_blk2 (t : Fin cfg0.N) (d : Fin 768) :
    (iblk0 (V1 m) c 2 t : Vec Ideal S1x768 .f32) (ix2 (0 : Fin 1) d) = m ((c.tc : Thread nD τ).loc main_arg2) (ix1 d) := by
  obtain ⟨-, -, -, -, e0, e1, -⟩ := v0_idx_in t
  unfold iblk0
  rw [View.read_apply]
  show (V1 m c main_v8 : S1x768.Idx → EReal) _ = _
  rw [v0_V1_v8]
  have he : ((cfg0.win 2).blk t).view.emb (ix2 (0 : Fin 1) d) = (ix2 (0 : Fin 1) d : S1x768.Idx) := by
    funext a; apply Fin.ext
    match a with
    | ⟨0, _⟩ => show win0_2.index t (0 : Fin 2) * 1 + 1 * 0 = 0; omega
    | ⟨1, _⟩ => show win0_2.index t (1 : Fin 2) * 768 + 1 * d.val = d.val; omega
  rw [he, v0_oneRow_apply]
theorem v0_blk3 (t : Fin cfg0.N) (d : Fin 768) (h : Fin 256) :
    (iblk0 (V1 m) c 3 t : Vec Ideal S768x256 .f32) (ix2 d h) = m ((c.tc : Thread nD τ).loc main_arg9) (ix2 h d) := by
  obtain ⟨-, -, -, -, -, -, e0, e1, -⟩ := v0_idx_in t
  unfold iblk0
  rw [View.read_apply]
  show (V1 m c main_v0 : S768x256.Idx → EReal) _ = _
  rw [v0_V1_v0]
  have he : ((cfg0.win 3).blk t).view.emb (ix2 d h) = (ix2 d h : S768x256.Idx) := by
    funext a; apply Fin.ext
    match a with
    | ⟨0, _⟩ => show win0_3.index t (0 : Fin 2) * 768 + 1 * d.val = d.val; omega
    | ⟨1, _⟩ => show win0_3.index t (1 : Fin 2) * 256 + 1 * h.val = h.val; omega
  rw [he]
  exact transpose_ix2_apply _ _ d h
theorem v0_blk4 (t : Fin cfg0.N) (d : Fin 768) (h : Fin 256) :
    (iblk0 (V1 m) c 4 t : Vec Ideal S768x256 .f32) (ix2 d h) = m ((c.tc : Thread nD τ).loc main_arg10) (ix2 h d) := by
  obtain ⟨-, -, -, -, -, -, -, -, e0, e1⟩ := v0_idx_in t
  unfold iblk0
  rw [View.read_apply]
  show (V1 m c main_v1 : S768x256.Idx → EReal) _ = _
  rw [v0_V1_v1]
  have he : ((cfg0.win 4).blk t).view.emb (ix2 d h) = (ix2 d h : S768x256.Idx) := by
    funext a; apply Fin.ext
    match a with
    | ⟨0, _⟩ => show win0_4.index t (0 : Fin 2) * 768 + 1 * d.val = d.val; omega
    | ⟨1, _⟩ => show win0_4.index t (1 : Fin 2) * 256 + 1 * h.val = h.val; omega
  rw [he]
  exact transpose_ix2_apply _ _ d h
end Inputs

variable (m : (ℓ : Loc nD τ sig) → Buf (Elt Ideal) ℓ) (c : Dev nD)

def inpOf : Inp where
  X := fun p q => m ((c.tc : Thread nD τ).loc main_arg0) (ix2 p q)
  lnw := fun d => m ((c.tc : Thread nD τ).loc main_arg1) (ix1 d)
  lnb := fun d => m ((c.tc : Thread nD τ).loc main_arg2) (ix1 d)
  lsw := fun d => m ((c.tc : Thread nD τ).loc main_arg3) (ix1 d)
  lsb := fun d => m ((c.tc : Thread nD τ).loc main_arg4) (ix1 d)
  lmw := fun d => m ((c.tc : Thread nD τ).loc main_arg5) (ix1 d)
  lmb := fun d => m ((c.tc : Thread nD τ).loc main_arg6) (ix1 d)
  s0 := fun p q => m ((c.tc : Thread nD τ).loc main_arg7) (ix2 p q)
  Wq := fun p q => m ((c.tc : Thread nD τ).loc main_arg8) (ix2 p q)
  Wk := fun p q => m ((c.tc : Thread nD τ).loc main_arg9) (ix2 p q)
  Wv := fun p q => m ((c.tc : Thread nD τ).loc main_arg10) (ix2 p q)
  Wih := fun p q => m ((c.tc : Thread nD τ).loc main_arg11) (ix2 p q)
  Whh := fun p q => m ((c.tc : Thread nD τ).loc main_arg12) (ix2 p q)
  bih := fun d => m ((c.tc : Thread nD τ).loc main_arg13) (ix1 d)
  bhh := fun d => m ((c.tc : Thread nD τ).loc main_arg14) (ix1 d)
  W1 := fun p q => m ((c.tc : Thread nD τ).loc main_arg15) (ix2 p q)
  b1 := fun d => m ((c.tc : Thread nD τ).loc main_arg16) (ix1 d)
  W2 := fun p q => m ((c.tc : Thread nD τ).loc main_arg17) (ix2 p q)
  b2 := fun d => m ((c.tc : Thread nD τ).loc main_arg18) (ix1 d)

theorem v0_row_split (n : Fin 16384) : ∃ (t : Fin cfg0.N) (r : Fin 4096), n.val = 4096 * t.val + r.val := by
  have hN : cfg0.N = 4 := N_0
  exact ⟨⟨n.val / 4096, by rw [hN]; omega⟩, ⟨n.val % 4096, Nat.mod_lt _ (by decide)⟩, by
    show n.val = 4096 * (n.val / 4096) + n.val % 4096
    omega⟩

-- What a point stores at row r, against a weight block that reads as M: the specification's normalised row times M's column.
theorem v0_kv (t : Fin cfg0.N) (r : Fin 4096) (n : Fin 16384) (hn : n.val = 4096 * t.val + r.val) (h : Fin 256)
    (W : Vec Ideal S768x256 .f32) (M : Fin 256 → Fin 768 → E) (hW : ∀ d, W (ix2 d h) = M h d) :
    k0_pay2 (iblk0 (V1 m) c 0 t) (iblk0 (V1 m) c 1 t) (iblk0 (V1 m) c 2 t) W (ix2 r h)
      = ∑ d, xln (inpOf m c) n d * M h d := by
  rw [v0_pay2_apply]
  refine Finset.sum_congr rfl fun d _ => ?_
  rw [hW, show (fun d' => (iblk0 (V1 m) c 0 t : Vec Ideal S4096x768 .f32) (ix2 r d')) = (inpOf m c).X n from
      funext fun d' => v0_blk0 m c t r d' n hn,
    show (fun d' => (iblk0 (V1 m) c 1 t : Vec Ideal S1x768 .f32) (ix2 (0 : Fin 1) d')) = (inpOf m c).lnw from
      funext (v0_blk1 m c t),
    show (fun d' => (iblk0 (V1 m) c 2 t : Vec Ideal S1x768 .f32) (ix2 (0 : Fin 1) d')) = (inpOf m c).lnb from
      funext (v0_blk2 m c t)]
  rfl

theorem keys_arr (n : Fin 16384) (h : Fin 256) : (dat0 (V1 m) c).arrAt 5 cfg0.N (ix2 n h) = keys (inpOf m c) n h := by
  obtain ⟨t, r, hn⟩ := v0_row_split n
  exact (v0a_arr5 (V1 m) c t r h n hn).trans
    (v0_kv m c t r n hn h (iblk0 (V1 m) c 3 t) (inpOf m c).Wk fun d => v0_blk3 m c t d h)

theorem vals_arr (n : Fin 16384) (h : Fin 256) : (dat0 (V1 m) c).arrAt 6 cfg0.N (ix2 n h) = vals (inpOf m c) n h := by
  obtain ⟨t, r, hn⟩ := v0_row_split n
  exact (v0a_arr6 (V1 m) c t r h n hn).trans
    (v0_kv m c t r n hn h (iblk0 (V1 m) c 4 t) (inpOf m c).Wv fun d => v0_blk4 m c t d h)

end Cert.KernelIdeal.HV

end
-- ==== Proof.K.Val1.lean ====
import proofs.«153310_j37245956390967_1_alg».proof.Proof.K.Val0

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

variable (m : (ℓ : Loc nD τ sig) → Buf (Elt Ideal) ℓ) (c : Dev nD)

theorem v1_idx_tiles : ∀ t : Fin cfg1.N, win1_0.index t 0 = t.val % 4 ∧ win1_0.index t 1 = 0 ∧ win1_1.index t 0 = t.val % 4 ∧ win1_1.index t 1 = 0 :=
  (by decide +kernel : ∀ t : Fin grid1.N, _)

theorem v1_idx_small : ∀ w : Fin cfg1.W, 2 ≤ w.val → ∀ (t : Fin cfg1.N) (a : Fin (cfg1.win w).shape.rank), (cfg1.win w).index t a = 0 := by
  decide +kernel

-- At index zero on every axis, index times size plus a coordinate is that coordinate.
theorem v1_blk {α : Type} (w : Fin cfg1.W) (hw : 2 ≤ w.val) (t : Fin cfg1.N) (X : (cfg1.win w).shape.Idx → α)
    (y : ((cfg1.win w).xblock (cfg1.grid.coords t)).Idx) {y' : (cfg1.win w).shape.Idx} (hy : ∀ a, (y a : ℕ) = y' a) :
    X (((cfg1.win w).rect t).emb y) = X y' :=
  congrArg X (funext fun a => Fin.ext (((cfg1.win w).rect_emb_val_of_index_zero t a (v1_idx_small w hw t a) y).trans (hy a)))

-- Read at (p, q), the transpose of x is x at (q, p).
theorem v1_tr {α : Type} {a b : ℕ} {f : (⟨2, ![b, a]⟩ : Shape).Idx → α} {x : (⟨2, ![a, b]⟩ : Shape).Idx → α} {h}
    (e : f = transpose ⟨2, ![b, a]⟩ [1, 0] x h) (p : Fin b) (q : Fin a) : f (ix2 p q) = x (ix2 q p) :=
  (congrFun e _).trans (transpose_ix2_apply x h p q)

-- Read at (0, q), the vector x as one row is x at q.
theorem v1_row {α : Type} {n : ℕ} {f : (⟨2, ![1, n]⟩ : Shape).Idx → α} {x : (⟨1, ![n]⟩ : Shape).Idx → α} {h}
    (e : f = broadcastInDim ⟨2, ![1, n]⟩ ![1] h x) (hn : n ≠ 1) (q : Fin n) : f (ix2 (0 : Fin 1) q) = x (ix1 q) :=
  (congrFun e _).trans (broadcastInDim_apply _ h x _ (ix1 q) fun a => match a with | ⟨0, _⟩ => (if_neg hn).symm)

-- A buffer the first kernel does not write keeps its contents:
theorem v1_V2_of_ne (b : Ref sig .tc) (hb : ∀ w, Pipeline.arrRef spec0 w ≠ b) : V2 m c b = V1 m c b :=
  Pipeline.withArrays_of_ne spec0 c _ _ b hb

-- the initial slots as given, each weight matrix transposed, each vector as one row.
theorem v1_host :
    V2 m c main_arg7 = W0 m c main_arg7
    ∧ (V2 m c main_v2 : S256x256.Idx → EReal) = transpose S256x256 [1, 0] (W0 m c main_arg8) transposes_S256x256_S256x256_1_0
    ∧ (V2 m c main_v3 : S256x768.Idx → EReal) = transpose S256x768 [1, 0] (W0 m c main_arg11) transposes_S768x256_S256x768_1_0
    ∧ (V2 m c main_v4 : S256x768.Idx → EReal) = transpose S256x768 [1, 0] (W0 m c main_arg12) transposes_S768x256_S256x768_1_0
    ∧ (V2 m c main_v5 : S256x512.Idx → EReal) = transpose S256x512 [1, 0] (W0 m c main_arg15) transposes_S512x256_S256x512_1_0
    ∧ (V2 m c main_v6 : S512x256.Idx → EReal) = transpose S512x256 [1, 0] (W0 m c main_arg17) transposes_S256x512_S512x256_1_0
    ∧ (V2 m c main_v9 : S1x256.Idx → EReal) = broadcastInDim S1x256 ![1] bcast_S256_S1x256_1 (W0 m c main_arg3)
    ∧ (V2 m c main_v10 : S1x256.Idx → EReal) = broadcastInDim S1x256 ![1] bcast_S256_S1x256_1 (W0 m c main_arg4)
    ∧ (V2 m c main_v11 : S1x256.Idx → EReal) = broadcastInDim S1x256 ![1] bcast_S256_S1x256_1 (W0 m c main_arg5)
    ∧ (V2 m c main_v12 : S1x256.Idx → EReal) = broadcastInDim S1x256 ![1] bcast_S256_S1x256_1 (W0 m c main_arg6)
    ∧ (V2 m c main_v13 : S1x768.Idx → EReal) = broadcastInDim S1x768 ![1] bcast_S768_S1x768_1 (W0 m c main_arg13)
    ∧ (V2 m c main_v14 : S1x768.Idx → EReal) = broadcastInDim S1x768 ![1] bcast_S768_S1x768_1 (W0 m c main_arg14)
    ∧ (V2 m c main_v15 : S1x512.Idx → EReal) = broadcastInDim S1x512 ![1] bcast_S512_S1x512_1 (W0 m c main_arg16)
    ∧ (V2 m c main_v16 : S1x256.Idx → EReal) = broadcastInDim S1x256 ![1] bcast_S256_S1x256_1 (W0 m c main_arg18) := by
  and_intros <;>
    (refine (v1_V2_of_ne m c _ (by decide)).trans ?_
     show StableHlo.after hostOps0 (W0 m c) (Proc.devRef .tc _) = _
     after_results)

-- Row r of block t mod 4, 4096 rows a block, is row 4096 (t mod 4) + r of the array.
theorem iblk1_keys (t : Fin cfg1.N) (r : Fin 4096) (h : Fin 256) :
    iblk1 (V2 m) c 0 t (ix2 r h) = keys (inpOf m c) (rowOf ⟨t.val % 4, Nat.mod_lt _ (by decide)⟩ r) h := by
  obtain ⟨e0, e1, -, -⟩ := v1_idx_tiles t
  refine (congrArg (V2 m c main_v17_0) (funext fun a => Fin.ext ?_)).trans
    ((congrFun (Pipeline.withArrays_arr spec0 winFacts0.arr_inj c _ _ 5) _).trans (keys_arr m c _ h))
  match a with
  | ⟨0, _⟩ => show win1_0.index t 0 * 4096 + 1 * r.val = 4096 * (t.val % 4) + r.val; rw [e0]; omega
  | ⟨1, _⟩ => show win1_0.index t 1 * 256 + 1 * h.val = h.val; rw [e1]; omega
theorem iblk1_vals (t : Fin cfg1.N) (r : Fin 4096) (h : Fin 256) :
    iblk1 (V2 m) c 1 t (ix2 r h) = vals (inpOf m c) (rowOf ⟨t.val % 4, Nat.mod_lt _ (by decide)⟩ r) h := by
  obtain ⟨-, -, e0, e1⟩ := v1_idx_tiles t
  refine (congrArg (V2 m c main_v17_1) (funext fun a => Fin.ext ?_)).trans
    ((congrFun (Pipeline.withArrays_arr spec0 winFacts0.arr_inj c _ _ 6) _).trans (vals_arr m c _ h))
  match a with
  | ⟨0, _⟩ => show win1_1.index t 0 * 4096 + 1 * r.val = 4096 * (t.val % 4) + r.val; rw [e0]; omega
  | ⟨1, _⟩ => show win1_1.index t 1 * 256 + 1 * h.val = h.val; rw [e1]; omega

theorem wof_V2 (t : Fin cfg1.N) : WOf (wts1 (V2 m) c t) (inpOf m c) := by
  obtain ⟨e7, e2, e3, e4, e5, e6, e9, e10, e11, e12, e13, e14, e15, e16⟩ := v1_host m c
  generalize V2 m = V at *
  exact ⟨fun k h => (v1_blk 2 (by decide) t (V c main_arg7) (ix2 k h) fun _ => rfl).trans (congrFun e7 _),
    fun j h => (v1_blk 3 (by decide) t (V c main_v2) (ix2 j h) fun _ => rfl).trans (v1_tr e2 j h),
    fun j => (v1_blk 4 (by decide) t (V c main_v9) (ix2 0 j) fun _ => rfl).trans (v1_row e9 (by decide) j),
    fun j => (v1_blk 5 (by decide) t (V c main_v10) (ix2 0 j) fun _ => rfl).trans (v1_row e10 (by decide) j),
    fun h j => (v1_blk 6 (by decide) t (V c main_v3) (ix2 h j) fun _ => rfl).trans (v1_tr e3 h j),
    fun h j => (v1_blk 7 (by decide) t (V c main_v4) (ix2 h j) fun _ => rfl).trans (v1_tr e4 h j),
    fun j => (v1_blk 8 (by decide) t (V c main_v13) (ix2 0 j) fun _ => rfl).trans (v1_row e13 (by decide) j),
    fun j => (v1_blk 9 (by decide) t (V c main_v14) (ix2 0 j) fun _ => rfl).trans (v1_row e14 (by decide) j),
    fun j => (v1_blk 10 (by decide) t (V c main_v11) (ix2 0 j) fun _ => rfl).trans (v1_row e11 (by decide) j),
    fun j => (v1_blk 11 (by decide) t (V c main_v12) (ix2 0 j) fun _ => rfl).trans (v1_row e12 (by decide) j),
    fun j i => (v1_blk 12 (by decide) t (V c main_v5) (ix2 j i) fun _ => rfl).trans (v1_tr e5 j i),
    fun i => (v1_blk 13 (by decide) t (V c main_v15) (ix2 0 i) fun _ => rfl).trans (v1_row e15 (by decide) i),
    fun i h => (v1_blk 14 (by decide) t (V c main_v6) (ix2 i h) fun _ => rfl).trans (v1_tr e6 i h),
    fun h => (v1_blk 15 (by decide) t (V c main_v16) (ix2 0 h) fun _ => rfl).trans (v1_row e16 (by decide) h)⟩

end Cert.KernelIdeal.HV

end
-- ==== Proof.K.Val1Out.lean ====
import proofs.«153310_j37245956390967_1_alg».proof.Proof.K.R1Frame
import proofs.«153310_j37245956390967_1_alg».proof.Proof.K.WOf
import Idealize.ShloMosaic.Lib.Pipeline.Value

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec
open Idealize.ShloMosaic.Pipeline (Dat)

variable (c : Dev nD)

def v1o_tLast : Fin cfg1.N := ⟨11, by rw [show cfg1.N = 12 from N_1]; decide⟩

theorem v1o_flush16_last : (cfg1.win 16).flush v1o_tLast = true := (flush1_16 v1o_tLast).2 rfl
theorem v1o_flush17_last : (cfg1.win 17).flush v1o_tLast = true := (flush1_17 v1o_tLast).2 rfl

theorem v1o_flush16_only (t : Fin cfg1.N) (h : (cfg1.win 16).flush t = true) : t = v1o_tLast := by
  have h1 := (flush1_16 t).1 h
  have h2 : t.val < 12 := lt_of_lt_of_eq t.isLt N_1
  apply Fin.ext; show t.val = 11; omega

theorem v1o_flush17_only (t : Fin cfg1.N) (h : (cfg1.win 17).flush t = true) : t = v1o_tLast := by
  have h1 := (flush1_17 t).1 h
  have h2 : t.val < 12 := lt_of_lt_of_eq t.isLt N_1
  apply Fin.ext; show t.val = 11; omega

theorem v1o_idx_out : win1_16.index v1o_tLast 0 = 0 ∧ win1_16.index v1o_tLast 1 = 0 ∧ win1_17.index v1o_tLast 0 = 0 ∧ win1_17.index v1o_tLast 1 = 0 := by
  decide +kernel

theorem out16_arr (V : (c : Dev nD) → (b : Ref sig .tc) → Buf (Elt Ideal) ((c : Thread nD τ).loc b)) (k : Fin 16) (h : Fin 256) :
    (dat1 V c).arrAt 16 cfg1.N (ix2 k h) = (stAt1 V c 11 (by rw [show cfg1.N = 12 from N_1]; decide)).s0 (ix2 k h) := by
  have hd : ∀ t t' : Fin cfg1.N, (cfg1.win 16).flush t = true → (cfg1.win 16).flush t' = true → t ≠ t' →
      Disjoint ((cfg1.win 16).blk t).view.set ((cfg1.win 16).blk t').view.set :=
    fun t t' h h' hne => absurd ((v1o_flush16_only t h).trans (v1o_flush16_only t' h').symm) hne
  have key := (dat1 V c).arrAt_emb_eq_flushed 16 hd v1o_tLast v1o_flush16_last (ix2 k h)
  obtain ⟨e0, e1, -, -⟩ := v1o_idx_out
  have e : ((cfg1.win 16).blk v1o_tLast).view.emb (ix2 k h) = ix2 k h := by
    funext a; apply Fin.ext
    match a with
    | ⟨0, _⟩ => show win1_16.index v1o_tLast 0 * 16 + 1 * k.val = k.val; rw [e0]; omega
    | ⟨1, _⟩ => show win1_16.index v1o_tLast 1 * 256 + 1 * h.val = h.val; rw [e1]; omega
  rw [e] at key
  rw [key]
  show (dat1 V c).after 16 v1o_tLast _ = _
  rw [after1_16]
  exact congrArg _ (funext fun a => Fin.ext (by match a with | ⟨0, _⟩ => rfl | ⟨1, _⟩ => rfl))
theorem out17_arr (V : (c : Dev nD) → (b : Ref sig .tc) → Buf (Elt Ideal) ((c : Thread nD τ).loc b)) :
    (dat1 V c).arrAt 17 cfg1.N (ix2 (0 : Fin 1) (0 : Fin 1)) = (outVar (stAt1 V c 11 (by rw [show cfg1.N = 12 from N_1]; decide)).s5) (ix2 (0 : Fin 1) (0 : Fin 1)) := by
  have hd : ∀ t t' : Fin cfg1.N, (cfg1.win 17).flush t = true → (cfg1.win 17).flush t' = true → t ≠ t' →
      Disjoint ((cfg1.win 17).blk t).view.set ((cfg1.win 17).blk t').view.set :=
    fun t t' h h' hne => absurd ((v1o_flush17_only t h).trans (v1o_flush17_only t' h').symm) hne
  have key := (dat1 V c).arrAt_emb_eq_flushed 17 hd v1o_tLast v1o_flush17_last (ix2 (0 : Fin 1) (0 : Fin 1))
  obtain ⟨-, -, e0, e1⟩ := v1o_idx_out
  have e : ((cfg1.win 17).blk v1o_tLast).view.emb (ix2 (0 : Fin 1) (0 : Fin 1)) = ix2 (0 : Fin 1) (0 : Fin 1) := by
    funext a; apply Fin.ext
    match a with
    | ⟨0, _⟩ => show win1_17.index v1o_tLast 0 * 1 + 1 * 0 = 0; rw [e0]
    | ⟨1, _⟩ => show win1_17.index v1o_tLast 1 * 1 + 1 * 0 = 0; rw [e1]
  rw [e] at key
  rw [key]
  show (dat1 V c).after 17 v1o_tLast _ = _
  rw [after1_17]
  exact congrArg _ (funext fun a => Fin.ext (by match a with | ⟨0, _⟩ => rfl | ⟨1, _⟩ => rfl))

end Cert.KernelIdeal.HV

end
-- ==== Proof.K.ValTile.lean ====
import proofs.«153310_j37245956390967_1_alg».proof.Proof.K.WOf
import proofs.«153310_j37245956390967_1_alg».proof.Proof.K.Ops

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

theorem tile_mm_16x256_256x256 (A : FVec Ideal S16x256 .bf16) (B : FVec Ideal S256x256 .bf16) (k : Fin 16) (h : Fin 256) :
    matmul dot_S16x256_S256x256_S16x256_1_0_0_1_n_n none A B (constant S16x256 .f32 0x00000000#32) (ix2 k h)
      = ∑ c : Fin 256, A (ix2 k c) * B (ix2 c h) :=
  matmul_rc_apply _ none A B k h

theorem tile_mm_4096x256_256x16 (A : FVec Ideal S4096x256 .bf16) (B : FVec Ideal S256x16 .bf16) (r : Fin 4096) (k : Fin 16) :
    matmul dot_S4096x256_S256x16_S4096x16_1_0_0_1_n_n none A B (constant S4096x16 .f32 0x00000000#32) (ix2 r k)
      = ∑ c : Fin 256, A (ix2 r c) * B (ix2 c k) :=
  matmul_rc_apply _ none A B r k

theorem tile_mm_4096x16_4096x256 (A : FVec Ideal S4096x16 .bf16) (B : FVec Ideal S4096x256 .bf16) (k : Fin 16) (h : Fin 256) :
    matmul dot_S4096x16_S4096x256_S16x256_0_0_1_1_n_n none A B (constant S16x256 .f32 0x00000000#32) (ix2 k h)
      = ∑ r : Fin 4096, A (ix2 r k) * B (ix2 r h) :=
  matmul_tn_apply _ none A B k h

-- The queries at an index: the layer norm of the slots' row against the weights' column, scaled.
theorem tile_pay7_apply (x : Vec Ideal S16x256 .f32) (w4 w5 : Vec Ideal S1x256 .f32) (w3 : Vec Ideal S256x256 .f32)
    (k : Fin 16) (h : Fin 256) :
    k1_pay7 x w4 w5 w3 (ix2 k h)
      = (∑ j : Fin 256, lnRow c256 (fun d => x (ix2 k d)) (fun d => w4 (ix2 (0 : Fin 1) d)) (fun d => w5 (ix2 (0 : Fin 1) d)) j
          * w3 (ix2 j h)) * cScale := by
  unfold k1_pay7
  simp only [shapeCast_self, mulf_apply, addf_apply, subf_apply, divf_apply, broadcast_apply, truncf_apply, rsqrt_apply,
    tile_mm_16x256_256x256, spread_apply, broadcastTo_1b_ab_apply, column_apply]
  rw [laneSum_apply (a := 16) (b := 256) x, laneSum_apply (a := 16) (b := 256)]
  simp only [mulf_apply, subf_apply, divf_apply, broadcast_apply, spread_apply, column_apply]
  rw [laneSum_apply (a := 16) (b := 256) x]
  rfl

def tile_attnRow (f : Fin 16 → E) (k : Fin 16) : E :=
  Ideal.div (Ideal.exp (f k - smax f)) (∑ k', Ideal.exp (f k' - smax f)) + epsAttn

-- One row's attention from its sixteen scores, the scores being keys row · queries row.
theorem tile_pay22_apply (kb : Vec Ideal S4096x256 .bf16) (q : Vec Ideal S16x256 .f32) (r : Fin 4096) (k : Fin 16) :
    k1_pay22 kb q (ix2 r k) = tile_attnRow (fun k' => ∑ h : Fin 256, kb (ix2 r h) * q (ix2 k' h)) k := by
  unfold k1_pay22
  have hT : ∀ (c : Fin 256) (k' : Fin 16),
      transpose S256x16 [1, 0] (truncf (F := Ideal) .bf16 q bitsLt_bf16_f32) transposes_S16x256_p1_0_S256x16 (ix2 c k')
        = q (ix2 k' c) := fun c k' => transpose_ix2_apply _ _ c k'
  generalize transpose S256x16 [1, 0] (truncf (F := Ideal) .bf16 q bitsLt_bf16_f32) transposes_S16x256_p1_0_S256x16 = T at hT ⊢
  simp only [shapeCast_self, addf_apply, subf_apply, divf_apply, broadcast_apply, exp_apply, maximumf_apply,
    tile_mm_4096x256_256x16, hT, spread_apply, column_apply]
  rw [laneMax_apply (a := 4096) (b := 16), laneSum_apply (a := 4096) (b := 16)]
  simp only [subf_apply, broadcast_apply, exp_apply, maximumf_apply,
    tile_mm_4096x256_256x16, hT, spread_apply, column_apply]
  rw [laneMax_apply (a := 4096) (b := 16)]
  simp only [tile_mm_4096x256_256x16, hT]
  rfl

theorem tile_pay23_apply (kb : Vec Ideal S4096x256 .bf16) (q : Vec Ideal S16x256 .f32) (acc : Vec Ideal S1x16 .f32) (k : Fin 16) :
    k1_pay1 (k1_pay23 kb q acc) (ix2 (0 : Fin 1) k) = acc (ix2 (0 : Fin 1) k) + ∑ r : Fin 4096, k1_pay22 kb q (ix2 r k) := by
  unfold k1_pay1 k1_pay23
  simp only [shapeCast_self, addf_apply, shapeCast_a_1a_apply]
  rw [colSum_apply (a := 4096) (b := 16)]

theorem tile_pay2_apply (v : FVec Ideal S4096x16 .f32) (acc : Vec Ideal S1x16 .f32) (k : Fin 16) :
    k1_pay2 v acc (ix2 (0 : Fin 1) k) = acc (ix2 (0 : Fin 1) k) + ∑ r : Fin 4096, v (ix2 r k) * v (ix2 r k) := by
  unfold k1_pay2
  simp only [shapeCast_self, addf_apply, shapeCast_a_1a_apply]
  rw [colSum_apply (a := 4096) (b := 16)]
  simp only [mulf_apply]

theorem tile_pay3_apply (vb : FVec Ideal S4096x256 .bf16) (v : FVec Ideal S4096x16 .f32) (acc : Vec Ideal S16x256 .f32)
    (k : Fin 16) (h : Fin 256) :
    k1_pay3 vb v acc (ix2 k h) = acc (ix2 k h) + ∑ r : Fin 4096, v (ix2 r k) * vb (ix2 r h) := by
  unfold k1_pay3
  simp only [shapeCast_self, addf_apply, tile_mm_4096x16_4096x256, truncf_apply]

-- With the tile's key rows and the queries the specification's, the payload is the specification's attention.
theorem tile_pay22_attn (I : Inp) (j : Fin 4) (kb : Vec Ideal S4096x256 .bf16) (q : Vec Ideal S16x256 .f32)
    (s : Fin 16 → Fin 256 → E) (hk : ∀ r h, kb (ix2 r h) = keys I (rowOf j r) h) (hq : ∀ k h, q (ix2 k h) = qry I s k h)
    (r : Fin 4096) (k : Fin 16) : k1_pay22 kb q (ix2 r k) = attn I s (rowOf j r) k := by
  rw [tile_pay22_apply]
  show _ = tile_attnRow (score I s (rowOf j r)) k
  refine congrArg (fun f => tile_attnRow f k) (funext fun k' => ?_)
  exact Finset.sum_congr rfl fun h _ => by rw [hk, hq]

variable (I : Inp)

theorem resetSt_apply (w : Wts Ideal) (hw : WOf w I) (x0 : Vec Ideal S16x256 .f32) (x5 : Vec Ideal S1x1 .f32)
    (s : Fin 16 → Fin 256 → E) (hs : ∀ k h, x0 (ix2 k h) = s k h) :
    (∀ k h, (resetSt w x0 x5).s0 (ix2 k h) = s k h) ∧ (∀ k h, (resetSt w x0 x5).s1 (ix2 k h) = qry I s k h)
    ∧ (∀ k h, (resetSt w x0 x5).s2 (ix2 k h) = cZero) ∧ (∀ k : Fin 16, (resetSt w x0 x5).s3 (ix2 (0 : Fin 1) k) = cZero)
    ∧ (∀ k : Fin 16, (resetSt w x0 x5).s4 (ix2 (0 : Fin 1) k) = cZero) ∧ (resetSt w x0 x5).s5 = x5 := by
  obtain ⟨_, hw3, hw4, hw5, _⟩ := hw
  refine ⟨hs, fun k h => ?_, fun k h => ?_, fun k => ?_, fun k => ?_, rfl⟩
  · show k1_pay7 x0 w.w4 w.w5 w.w3 (ix2 k h) = qry I s k h
    rw [tile_pay7_apply, show (fun d => x0 (ix2 k d)) = s k from funext (hs k),
      show (fun d => w.w4 (ix2 (0 : Fin 1) d)) = I.lsw from funext hw4,
      show (fun d => w.w5 (ix2 (0 : Fin 1) d)) = I.lsb from funext hw5]
    unfold qry
    exact congrArg (· * cScale) (Finset.sum_congr rfl fun j _ => by rw [hw3])
  all_goals
    simp only [resetSt, k1_pay18, k1_pay8, k1_pay19, k1_pay20, shapeCast_self, broadcast_apply]
    rfl

theorem init_apply (w : Wts Ideal) (hw : WOf w I) :
    (∀ k h, (k1_pay16 (F := Ideal) w.w2) (ix2 k h) = I.s0 k h) ∧ (k1_pay17 (F := Ideal)) (ix2 (0 : Fin 1) (0 : Fin 1)) = cZero := by
  refine ⟨fun k h => ?_, ?_⟩
  · unfold k1_pay16
    simp only [shapeCast_self]
    exact hw.1 k h
  · unfold k1_pay17
    simp only [shapeCast_self, broadcast_apply]
    rfl

-- Tile j added: each accumulator grows by the tile's rows' share of the specification's sum.
theorem tileSt_apply (j : Fin 4) (kb vb : Vec Ideal S4096x256 .bf16) (S : St Ideal) (s : Fin 16 → Fin 256 → E)
    (hk : ∀ r h, kb (ix2 r h) = keys I (rowOf j r) h) (hv : ∀ r h, vb (ix2 r h) = vals I (rowOf j r) h)
    (hq : ∀ k h, S.s1 (ix2 k h) = qry I s k h) :
    (tileSt kb vb S).s0 = S.s0 ∧ (tileSt kb vb S).s1 = S.s1 ∧ (tileSt kb vb S).s5 = S.s5
    ∧ (∀ k h, (tileSt kb vb S).s2 (ix2 k h) = S.s2 (ix2 k h) + ∑ r : Fin 4096, attn I s (rowOf j r) k * vals I (rowOf j r) h)
    ∧ (∀ k : Fin 16, (tileSt kb vb S).s3 (ix2 (0 : Fin 1) k) = S.s3 (ix2 (0 : Fin 1) k) + ∑ r : Fin 4096, attn I s (rowOf j r) k)
    ∧ (∀ k : Fin 16, (tileSt kb vb S).s4 (ix2 (0 : Fin 1) k) = S.s4 (ix2 (0 : Fin 1) k) + ∑ r : Fin 4096, attn I s (rowOf j r) k * attn I s (rowOf j r) k) := by
  have ha := tile_pay22_attn I j kb S.s1 s hk hq
  refine ⟨rfl, rfl, rfl, fun k h => ?_, fun k => ?_, fun k => ?_⟩
  · show k1_pay3 (k1_pay21 vb) (k1_pay22 kb S.s1) S.s2 (ix2 k h) = _
    rw [tile_pay3_apply]
    refine congrArg (S.s2 (ix2 k h) + ·) (Finset.sum_congr rfl fun r _ => ?_)
    rw [ha]
    refine congrArg (attn I s (rowOf j r) k * ·) ?_
    unfold k1_pay21
    simp only [shapeCast_self]
    exact hv r h
  · show k1_pay1 (k1_pay23 kb S.s1 S.s3) (ix2 (0 : Fin 1) k) = _
    rw [tile_pay23_apply]
    exact congrArg (S.s3 (ix2 (0 : Fin 1) k) + ·) (Finset.sum_congr rfl fun r _ => ha r k)
  · show k1_pay2 (k1_pay22 kb S.s1) S.s4 (ix2 (0 : Fin 1) k) = _
    rw [tile_pay2_apply]
    exact congrArg (S.s4 (ix2 (0 : Fin 1) k) + ·) (Finset.sum_congr rfl fun r _ => by rw [ha])

end Cert.KernelIdeal.HV

end
-- ==== Proof.K.ValFin.lean ====
import proofs.«153310_j37245956390967_1_alg».proof.Proof.K.WOf
import proofs.«153310_j37245956390967_1_alg».proof.Proof.K.Ops

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

theorem fin_matmul_D768_apply {φ₁ φ₂ : FTy} (a : FVec Ideal S16x256 φ₁) (b : FVec Ideal S256x768 φ₂) (p : Fin 16) (q : Fin 768) :
    matmul dot_S16x256_S256x768_S16x768_1_0_0_1_n_n none a b (constant (F := Ideal) S16x768 .f32 0x00000000#32) (ix2 p q)
      = ∑ k : Fin 256, a (ix2 p k) * b (ix2 k q) :=
  matmul_rc_apply _ none a b p q

theorem fin_matmul_D512_apply {φ₁ φ₂ : FTy} (a : FVec Ideal S16x256 φ₁) (b : FVec Ideal S256x512 φ₂) (p : Fin 16) (q : Fin 512) :
    matmul dot_S16x256_S256x512_S16x512_1_0_0_1_n_n none a b (constant (F := Ideal) S16x512 .f32 0x00000000#32) (ix2 p q)
      = ∑ k : Fin 256, a (ix2 p k) * b (ix2 k q) :=
  matmul_rc_apply _ none a b p q

theorem fin_matmul_D256_apply {φ₁ φ₂ : FTy} (a : FVec Ideal S16x512 φ₁) (b : FVec Ideal S512x256 φ₂) (p : Fin 16) (q : Fin 256) :
    matmul dot_S16x512_S512x256_S16x256_1_0_0_1_n_n none a b (constant (F := Ideal) S16x256 .f32 0x00000000#32) (ix2 p q)
      = ∑ k : Fin 512, a (ix2 p k) * b (ix2 k q) :=
  matmul_rc_apply _ none a b p q

section Cell
variable (v59 : Vec Ideal S1x16 .f32) (v61 v65 : Vec Ideal S16x256 .f32) (v67 v76 : Vec Ideal S256x768 .f32)
  (v71 v80 : Vec Ideal S1x768 .f32) (k : Fin 16)

-- The input pre-activation: the normalised updates against the weights, plus the bias row.
theorem fin_pay9_apply (j : Fin 768) :
    k1_pay9 v59 v61 v67 v71 (ix2 k j)
      = (∑ h : Fin 256, Ideal.div (v61 (ix2 k h)) (v59 (ix2 (0 : Fin 1) k)) * v67 (ix2 h j)) + v71 (ix2 (0 : Fin 1) j) := by
  unfold k1_pay9
  simp only [shapeCast_self]
  rw [addf_apply, fin_matmul_D768_apply, broadcastTo_1b_ab_apply]
  congr 1
  refine Finset.sum_congr rfl fun h _ => ?_
  rw [truncf_apply, truncf_apply, divf_apply, spread_apply, transpose_ix2_apply]

-- The hidden pre-activation: the slots against the weights, plus the bias row.
theorem fin_pay10_apply (j : Fin 768) :
    k1_pay10 v65 v76 v80 (ix2 k j) = (∑ h : Fin 256, v65 (ix2 k h) * v76 (ix2 h j)) + v80 (ix2 (0 : Fin 1) j) := by
  unfold k1_pay10
  simp only [shapeCast_self]
  rw [addf_apply, fin_matmul_D768_apply, broadcastTo_1b_ab_apply]
  congr 1

-- The update gate reads the two pre-activations' middle thirds.
theorem fin_pay11_apply (j : Fin 256) :
    k1_pay11 v59 v61 v65 v67 v71 v76 v80 (ix2 k j)
      = Ideal.logistic (k1_pay9 v59 v61 v67 v71 (ix2 k (at1 j)) + k1_pay10 v65 v76 v80 (ix2 k (at1 j))) := by
  unfold k1_pay11
  rw [logistic_apply, addf_apply, slice2_axis1_apply 256 _ _ k j (at1 j) rfl, slice2_axis1_apply 256 _ _ k j (at1 j) rfl]

-- One minus the update gate, times the candidate built from the first and last thirds.
theorem fin_pay12_apply (j : Fin 256) :
    k1_pay12 v59 v61 v65 v67 v71 v76 v80 (ix2 k j)
      = (cOne - k1_pay11 v59 v61 v65 v67 v71 v76 v80 (ix2 k j))
        * Ideal.tanh (k1_pay9 v59 v61 v67 v71 (ix2 k (at2 j))
            + Ideal.logistic (k1_pay9 v59 v61 v67 v71 (ix2 k (at0 j)) + k1_pay10 v65 v76 v80 (ix2 k (at0 j)))
              * k1_pay10 v65 v76 v80 (ix2 k (at2 j))) := by
  unfold k1_pay12
  rw [mulf_apply, subf_apply, broadcast_apply, tanh_apply, addf_apply, mulf_apply, logistic_apply, addf_apply,
    slice2_axis1_apply 512 _ _ k j (at2 j) rfl, slice2_axis1_apply 512 _ _ k j (at2 j) rfl,
    slice2_axis1_apply 0 _ _ k j (at0 j) (Nat.zero_add _).symm, slice2_axis1_apply 0 _ _ k j (at0 j) (Nat.zero_add _).symm]
  rfl

end Cell

theorem fin_pay13_apply (v65 : Vec Ideal S16x256 .f32) (v93 v99 : FVec Ideal S16x256 .f32) (i : S16x256.Idx) :
    k1_pay13 v65 v93 v99 i = v99 i + v93 i * v65 i := rfl

-- The hidden layer: the layer norm of the cell's output row against the weights, plus the bias row, clipped at zero.
theorem fin_pay14_apply (v65 : Vec Ideal S16x256 .f32) (v93 v99 : FVec Ideal S16x256 .f32) (v120 v124 : Vec Ideal S1x256 .f32)
    (v129 : Vec Ideal S256x512 .f32) (v133 : Vec Ideal S1x512 .f32) (k : Fin 16) (i : Fin 512) :
    k1_pay14 v65 v93 v99 v120 v124 v129 v133 (ix2 k i)
      = max ((∑ j : Fin 256, lnRow c256 (fun j => k1_pay13 v65 v93 v99 (ix2 k j)) (fun j => v120 (ix2 (0 : Fin 1) j))
              (fun j => v124 (ix2 (0 : Fin 1) j)) j * v129 (ix2 j i)) + v133 (ix2 (0 : Fin 1) i)) cZero := by
  unfold k1_pay14
  simp only [shapeCast_self]
  generalize k1_pay13 v65 v93 v99 = g
  rw [truncf_apply, maximumf_apply, addf_apply, fin_matmul_D512_apply, broadcastTo_1b_ab_apply, broadcast_apply]
  simp only [truncf_apply, addf_apply, mulf_apply, subf_apply, divf_apply, rsqrt_apply, broadcast_apply,
    broadcastTo_1b_ab_apply, spread_apply, column_apply]
  rw [laneSum_apply (a := 16) (b := 256), laneSum_apply (a := 16) (b := 256)]
  simp only [mulf_apply, subf_apply, divf_apply, broadcast_apply, spread_apply, column_apply]
  first | rfl | (rw [laneSum_apply (a := 16) (b := 256)]; rfl)

theorem fin_pay15_apply (v140 : Vec Ideal S512x256 .f32) (i : S512x256.Idx) : k1_pay15 v140 i = v140 i := by
  unfold k1_pay15
  simp only [shapeCast_self]
  rfl

-- The next slots: the cell's output plus the second layer.
theorem fin_pay4_apply (v101 : FVec Ideal S16x256 .f32) (v139 : FVec Ideal S16x512 .bf16) (v142 : FVec Ideal S512x256 .bf16)
    (v144 : Vec Ideal S1x256 .f32) (k : Fin 16) (h : Fin 256) :
    k1_pay4 v101 v139 v142 v144 (ix2 k h)
      = v101 (ix2 k h) + ((∑ i : Fin 512, v139 (ix2 k i) * v142 (ix2 i h)) + v144 (ix2 (0 : Fin 1) h)) := by
  unfold k1_pay4
  simp only [shapeCast_self]
  rw [addf_apply, addf_apply, fin_matmul_D256_apply, broadcastTo_1b_ab_apply]

-- The variance total grows by the slots' sum of (sum of squares over squared column sum), less 1/1024, over 262143.
theorem fin_pay5_apply (v59 v60 : Vec Ideal S1x16 .f32) (v160 : Vec Ideal S1x1 .f32) :
    k1_pay5 v59 v60 v160 (ix2 (0 : Fin 1) (0 : Fin 1))
      = v160 (ix2 (0 : Fin 1) (0 : Fin 1))
        + Ideal.div ((∑ k : Fin 16, Ideal.div (v60 (ix2 (0 : Fin 1) k)) (v59 (ix2 (0 : Fin 1) k) * v59 (ix2 (0 : Fin 1) k))) - cInvN) cNKm1 := by
  unfold k1_pay5
  simp only [shapeCast_self]
  rw [addf_apply, divf_apply, subf_apply, broadcast_apply, broadcast_apply, shapeCast_a_1a_apply, laneSum_apply (a := 1) (b := 16)]
  rfl

theorem outVar_apply (x5 : Vec Ideal S1x1 .f32) :
    (outVar x5) (ix2 (0 : Fin 1) (0 : Fin 1)) = Ideal.div (x5 (ix2 (0 : Fin 1) (0 : Fin 1))) cThree := rfl

variable (I : Inp)

-- From accumulators holding the specification's sums, the slots become its next slots and the total grows by its variance.
theorem finSt_apply (w : Wts Ideal) (hw : WOf w I) (T : St Ideal) (s : Fin 16 → Fin 256 → E)
    (h0 : ∀ k h, T.s0 (ix2 k h) = s k h) (h2 : ∀ k h, T.s2 (ix2 k h) = numer I s k h)
    (h3 : ∀ k : Fin 16, T.s3 (ix2 (0 : Fin 1) k) = colsum I s k) (h4 : ∀ k : Fin 16, T.s4 (ix2 (0 : Fin 1) k) = sumsq I s k) :
    (∀ k h, (finSt w T).s0 (ix2 k h) = nextSlots I s k h)
    ∧ (finSt w T).s5 (ix2 (0 : Fin 1) (0 : Fin 1)) = T.s5 (ix2 (0 : Fin 1) (0 : Fin 1)) + varOf I s := by
  obtain ⟨_, _, _, _, hw6, hw7, hw8, hw9, hw10, hw11, hw12, hw13, hw14, hw15⟩ := hw
  have e0 : (finSt w T).s0 = k1_pay4
      (k1_pay13 T.s0 (k1_pay11 T.s3 T.s2 T.s0 w.w6 w.w8 w.w7 w.w9) (k1_pay12 T.s3 T.s2 T.s0 w.w6 w.w8 w.w7 w.w9))
      (k1_pay14 T.s0 (k1_pay11 T.s3 T.s2 T.s0 w.w6 w.w8 w.w7 w.w9) (k1_pay12 T.s3 T.s2 T.s0 w.w6 w.w8 w.w7 w.w9) w.w10 w.w11 w.w12 w.w13)
      (k1_pay15 w.w14) w.w15 := rfl
  have e5 : (finSt w T).s5 = k1_pay5 T.s3 T.s4 T.s5 := rfl
  rw [e0, e5]
  have hgi : ∀ k j, k1_pay9 T.s3 T.s2 w.w6 w.w8 (ix2 k j) = gi I s k j := fun k j => by
    rw [fin_pay9_apply]
    unfold gi upd
    simp only [hw8, h3, h2, hw6]
  have hgh : ∀ k j, k1_pay10 T.s0 w.w7 w.w9 (ix2 k j) = gh I s k j := fun k j => by
    rw [fin_pay10_apply]
    unfold gh
    simp only [hw9, h0, hw7]
  have hZ : ∀ k j, k1_pay11 T.s3 T.s2 T.s0 w.w6 w.w8 w.w7 w.w9 (ix2 k j) = gateZ I s k j := fun k j => by
    rw [fin_pay11_apply, hgi, hgh]; rfl
  have hN : ∀ k j, k1_pay12 T.s3 T.s2 T.s0 w.w6 w.w8 w.w7 w.w9 (ix2 k j) = (cOne - gateZ I s k j) * cand I s k j := fun k j => by
    rw [fin_pay12_apply, hZ, hgi, hgi, hgh, hgh]; rfl
  generalize k1_pay11 T.s3 T.s2 T.s0 w.w6 w.w8 w.w7 w.w9 = Z at hZ ⊢
  generalize k1_pay12 T.s3 T.s2 T.s0 w.w6 w.w8 w.w7 w.w9 = N at hN ⊢
  have hG : ∀ k j, k1_pay13 T.s0 Z N (ix2 k j) = gru I s k j := fun k j => by
    rw [fin_pay13_apply, hN, hZ, h0]; rfl
  have hH : ∀ k i, k1_pay14 T.s0 Z N w.w10 w.w11 w.w12 w.w13 (ix2 k i) = hid I s k i := fun k i => by
    rw [fin_pay14_apply, hw13, show (fun j => k1_pay13 T.s0 Z N (ix2 k j)) = gru I s k from funext (hG k),
      show (fun j => w.w10 (ix2 (0 : Fin 1) j)) = I.lmw from funext hw10,
      show (fun j => w.w11 (ix2 (0 : Fin 1) j)) = I.lmb from funext hw11]
    unfold hid
    simp only [hw12]
  refine ⟨fun k h => ?_, ?_⟩
  · rw [fin_pay4_apply, hG, hw15]
    unfold nextSlots
    simp only [hH, fin_pay15_apply, hw14]
  · rw [fin_pay5_apply]
    unfold varOf
    simp only [h4, h3]

end Cert.KernelIdeal.HV

end
-- ==== Proof.K.SumTiles.lean ====
import proofs.«153310_j37245956390967_1_alg».proof.Proof.K.WOf
import Mathlib.Algebra.BigOperators.Fin
import Mathlib.Data.Fintype.BigOperators

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

def sumT_equiv : Fin 4 × Fin 4096 ≃ Fin 16384 where
  toFun p := rowOf p.1 p.2
  invFun n := (⟨n.val / 4096, by have := n.isLt; omega⟩, ⟨n.val % 4096, by omega⟩)
  left_inv p := by
    obtain ⟨j, r⟩ := p
    have hj := j.isLt
    have hr := r.isLt
    refine Prod.ext (Fin.ext ?_) (Fin.ext ?_)
    · show (4096 * j.val + r.val) / 4096 = j.val
      omega
    · show (4096 * j.val + r.val) % 4096 = r.val
      omega
  right_inv n := by
    refine Fin.ext ?_
    show 4096 * (n.val / 4096) + n.val % 4096 = n.val
    omega

theorem sumT_equiv_apply (j : Fin 4) (r : Fin 4096) : sumT_equiv (j, r) = rowOf j r := rfl

theorem sum_rowOf {M : Type} [AddCommMonoid M] (f : Fin 16384 → M) :
    ∑ n, f n = ∑ j : Fin 4, ∑ r : Fin 4096, f (rowOf j r) := by
  rw [← Equiv.sum_comp sumT_equiv f, Fintype.sum_prod_type]
  rfl

theorem acc4 {M : Type} [AddCommMonoid M] (z : M) (f : Fin 16384 → M) :
    (((z + ∑ r : Fin 4096, f (rowOf 0 r)) + ∑ r : Fin 4096, f (rowOf 1 r)) + ∑ r : Fin 4096, f (rowOf 2 r))
      + ∑ r : Fin 4096, f (rowOf 3 r) = z + ∑ n, f n := by
  rw [sum_rowOf f, Fin.sum_univ_four]
  simp only [add_assoc]

end Cert.KernelIdeal.HV

end
-- ==== Proof.K.ValRec.lean ====
import proofs.«153310_j37245956390967_1_alg».proof.Proof.K.R1Frame
import proofs.«153310_j37245956390967_1_alg».proof.Proof.K.ValTile
import proofs.«153310_j37245956390967_1_alg».proof.Proof.K.ValFin
import proofs.«153310_j37245956390967_1_alg».proof.Proof.K.SumTiles

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

variable (V : (c : Dev nD) → (b : Ref sig .tc) → Buf (Elt Ideal) ((c : Thread nD τ).loc b)) (c : Dev nD) (I : Inp)

theorem lt11 : 11 < cfg1.N := by rw [show cfg1.N = 12 from N_1]; decide

def rec_slotsAt : ℕ → Fin 16 → Fin 256 → E
  | 0 => I.s0
  | i + 1 => nextSlots I (rec_slotsAt i)

def rec_varAt : ℕ → E
  | 0 => cZero
  | i + 1 => rec_varAt i + varOf I (rec_slotsAt I i)

def rec_tsum (f : Fin 16384 → E) (j : Fin 4) : E := ∑ r : Fin 4096, f (rowOf j r)

def rec_acc (f : Fin 16384 → E) : ℕ → E
  | 0 => cZero
  | 1 => cZero + rec_tsum f 0
  | 2 => (cZero + rec_tsum f 0) + rec_tsum f 1
  | 3 => ((cZero + rec_tsum f 0) + rec_tsum f 1) + rec_tsum f 2
  | _ + 4 => (((cZero + rec_tsum f 0) + rec_tsum f 1) + rec_tsum f 2) + rec_tsum f 3

theorem rec_acc_succ (f : Fin 16384 → E) (j : Fin 4) : rec_acc f (j.val + 1) = rec_acc f j.val + rec_tsum f j := by
  fin_cases j <;> rfl

theorem rec_acc_four (f : Fin 16384 → E) : rec_acc f 4 = ∑ n, f n := by
  rw [show rec_acc f 4 = (((cZero + rec_tsum f 0) + rec_tsum f 1) + rec_tsum f 2) + rec_tsum f 3 from rfl]
  unfold rec_tsum
  rw [acc4, show cZero = (0 : E) from Ideal.ofBits_zero_f32, zero_add]

structure rec_Inv (S : St Ideal) (i m i' : ℕ) : Prop where
  h0 : ∀ k h, S.s0 (ix2 k h) = rec_slotsAt I i' k h
  h1 : ∀ k h, S.s1 (ix2 k h) = qry I (rec_slotsAt I i) k h
  h2 : ∀ k h, S.s2 (ix2 k h) = rec_acc (fun n => attn I (rec_slotsAt I i) n k * vals I n h) m
  h3 : ∀ k : Fin 16, S.s3 (ix2 (0 : Fin 1) k) = rec_acc (fun n => attn I (rec_slotsAt I i) n k) m
  h4 : ∀ k : Fin 16, S.s4 (ix2 (0 : Fin 1) k) = rec_acc (fun n => attn I (rec_slotsAt I i) n k * attn I (rec_slotsAt I i) n k) m
  h5 : S.s5 (ix2 (0 : Fin 1) (0 : Fin 1)) = rec_varAt I i'

theorem rec_Inv.cast {S : St Ideal} {i m i' j n j' : ℕ} (h : rec_Inv I S i m i') (hi : i = j) (hm : m = n) (hi' : i' = j') : rec_Inv I S j n j' := by
  subst hi; subst hm; subst hi'; exact h

theorem rec_inv_first (w : Wts Ideal) (hw : WOf w I) (j : Fin 4) (hj : j.val = 0) (kb vb : Vec Ideal S4096x256 .bf16)
    (x0 : Vec Ideal S16x256 .f32) (x5 : Vec Ideal S1x1 .f32) (i : ℕ)
    (hx0 : ∀ k h, x0 (ix2 k h) = rec_slotsAt I i k h) (hx5 : x5 (ix2 (0 : Fin 1) (0 : Fin 1)) = rec_varAt I i)
    (hk : ∀ r h, kb (ix2 r h) = keys I (rowOf j r) h) (hv : ∀ r h, vb (ix2 r h) = vals I (rowOf j r) h) :
    rec_Inv I (tileSt kb vb (resetSt w x0 x5)) i 1 i := by
  obtain rfl : j = 0 := Fin.ext hj
  obtain ⟨r0, r1, r2, r3, r4, r5⟩ := resetSt_apply I w hw x0 x5 (rec_slotsAt I i) hx0
  obtain ⟨t0, t1, t5, t2, t3, t4⟩ := tileSt_apply I 0 kb vb (resetSt w x0 x5) (rec_slotsAt I i) hk hv r1
  refine ⟨?_, ?_, ?_, ?_, ?_, ?_⟩
  · intro k h; rw [t0]; exact r0 k h
  · intro k h; rw [t1]; exact r1 k h
  · intro k h; rw [t2 k h, r2 k h]; rfl
  · intro k; rw [t3 k, r3 k]; rfl
  · intro k; rw [t4 k, r4 k]; rfl
  · rw [t5, r5]; exact hx5

theorem rec_inv_tile (j : Fin 4) (kb vb : Vec Ideal S4096x256 .bf16) (S : St Ideal) (i : ℕ) (hS : rec_Inv I S i j.val i)
    (hk : ∀ r h, kb (ix2 r h) = keys I (rowOf j r) h) (hv : ∀ r h, vb (ix2 r h) = vals I (rowOf j r) h) :
    rec_Inv I (tileSt kb vb S) i (j.val + 1) i := by
  obtain ⟨t0, t1, t5, t2, t3, t4⟩ := tileSt_apply I j kb vb S (rec_slotsAt I i) hk hv hS.h1
  refine ⟨?_, ?_, ?_, ?_, ?_, ?_⟩
  · intro k h; rw [t0]; exact hS.h0 k h
  · intro k h; rw [t1]; exact hS.h1 k h
  · intro k h; rw [t2 k h, hS.h2 k h, rec_acc_succ]; rfl
  · intro k; rw [t3 k, hS.h3 k, rec_acc_succ]; rfl
  · intro k; rw [t4 k, hS.h4 k, rec_acc_succ]; rfl
  · rw [t5]; exact hS.h5

theorem rec_inv_last (w : Wts Ideal) (hw : WOf w I) (j : Fin 4) (hj : j.val = 3) (kb vb : Vec Ideal S4096x256 .bf16) (S : St Ideal) (i : ℕ)
    (hS : rec_Inv I S i 3 i)
    (hk : ∀ r h, kb (ix2 r h) = keys I (rowOf j r) h) (hv : ∀ r h, vb (ix2 r h) = vals I (rowOf j r) h) :
    rec_Inv I (finSt w (tileSt kb vb S)) i 4 (i + 1) := by
  have T : rec_Inv I (tileSt kb vb S) i 4 i := (rec_inv_tile I j kb vb S i (hS.cast I rfl hj.symm rfl) hk hv).cast I rfl (by omega) rfl
  obtain ⟨f0, f5⟩ := finSt_apply I w hw (tileSt kb vb S) (rec_slotsAt I i) T.h0
    (fun k h => (T.h2 k h).trans (rec_acc_four _)) (fun k => (T.h3 k).trans (rec_acc_four _)) (fun k => (T.h4 k).trans (rec_acc_four _))
  refine ⟨?_, ?_, ?_, ?_, ?_, ?_⟩
  · intro k h; exact f0 k h
  · intro k h; exact T.h1 k h
  · intro k h; exact T.h2 k h
  · intro k; exact T.h3 k
  · intro k; exact T.h4 k
  · rw [f5, T.h5]; rfl

theorem rec_inv_at
    (hK : ∀ (t : Fin cfg1.N) (r : Fin 4096) (h : Fin 256), iblk1 V c 0 t (ix2 r h) = keys I (rowOf ⟨t.val % 4, Nat.mod_lt _ (by decide)⟩ r) h)
    (hV : ∀ (t : Fin cfg1.N) (r : Fin 4096) (h : Fin 256), iblk1 V c 1 t (ix2 r h) = vals I (rowOf ⟨t.val % 4, Nat.mod_lt _ (by decide)⟩ r) h)
    (hW : ∀ t : Fin cfg1.N, WOf (wts1 V c t) I) :
    ∀ (n : ℕ) (hn : n < cfg1.N), rec_Inv I (stAt1 V c n hn) (n / 4) (n % 4 + 1) ((n + 1) / 4) := by
  intro n
  induction n with
  | zero =>
    intro hn
    have hi := init_apply I (wts1 V c ⟨0, hn⟩) (hW ⟨0, hn⟩)
    exact rec_inv_first I (wts1 V c ⟨0, hn⟩) (hW ⟨0, hn⟩) ⟨(⟨0, hn⟩ : Fin cfg1.N).val % 4, Nat.mod_lt _ (by decide)⟩ rfl
      (iblk1 V c 0 ⟨0, hn⟩) (iblk1 V c 1 ⟨0, hn⟩) _ _ 0 hi.1 hi.2 (hK ⟨0, hn⟩) (hV ⟨0, hn⟩)
  | succ n ih =>
    intro hn
    have hn' : n < cfg1.N := Nat.lt_of_succ_lt hn
    have IH := ih hn'
    by_cases h0 : (n + 1) % 4 = 0
    · rw [show stAt1 V c (n + 1) hn = stepB (iblk1 V c 0 ⟨n + 1, hn⟩) (iblk1 V c 1 ⟨n + 1, hn⟩) (wts1 V c ⟨n + 1, hn⟩) (stAt1 V c n hn') from if_pos h0]
      have IH' : rec_Inv I (stAt1 V c n hn') (n / 4) (n % 4 + 1) ((n + 1) / 4) := IH
      exact (rec_inv_first I (wts1 V c ⟨n + 1, hn⟩) (hW ⟨n + 1, hn⟩) ⟨(⟨n + 1, hn⟩ : Fin cfg1.N).val % 4, Nat.mod_lt _ (by decide)⟩ h0
        (iblk1 V c 0 ⟨n + 1, hn⟩) (iblk1 V c 1 ⟨n + 1, hn⟩) _ _ ((n + 1) / 4) IH'.h0 IH'.h5 (hK ⟨n + 1, hn⟩) (hV ⟨n + 1, hn⟩)).cast I rfl (by omega) (by omega)
    · by_cases h3 : (n + 1) % 4 = 3
      · rw [show stAt1 V c (n + 1) hn = stepD (iblk1 V c 0 ⟨n + 1, hn⟩) (iblk1 V c 1 ⟨n + 1, hn⟩) (wts1 V c ⟨n + 1, hn⟩) (stAt1 V c n hn') from (if_neg h0).trans (if_pos h3)]
        exact (rec_inv_last I (wts1 V c ⟨n + 1, hn⟩) (hW ⟨n + 1, hn⟩) ⟨(⟨n + 1, hn⟩ : Fin cfg1.N).val % 4, Nat.mod_lt _ (by decide)⟩ h3
          (iblk1 V c 0 ⟨n + 1, hn⟩) (iblk1 V c 1 ⟨n + 1, hn⟩) _ ((n + 1) / 4) (IH.cast I (by omega) (by omega) (by omega)) (hK ⟨n + 1, hn⟩) (hV ⟨n + 1, hn⟩)).cast I rfl (by omega) (by omega)
      · rw [show stAt1 V c (n + 1) hn = stepC (iblk1 V c 0 ⟨n + 1, hn⟩) (iblk1 V c 1 ⟨n + 1, hn⟩) (stAt1 V c n hn') from (if_neg h0).trans (if_neg h3)]
        exact (rec_inv_tile I ⟨(⟨n + 1, hn⟩ : Fin cfg1.N).val % 4, Nat.mod_lt _ (by decide)⟩
          (iblk1 V c 0 ⟨n + 1, hn⟩) (iblk1 V c 1 ⟨n + 1, hn⟩) _ ((n + 1) / 4) (IH.cast I (by omega) (by show n % 4 + 1 = (n + 1) % 4; omega) (by omega)) (hK ⟨n + 1, hn⟩) (hV ⟨n + 1, hn⟩)).cast I rfl rfl (by omega)

theorem stAt1_final
    (hK : ∀ (t : Fin cfg1.N) (r : Fin 4096) (h : Fin 256), iblk1 V c 0 t (ix2 r h) = keys I (rowOf ⟨t.val % 4, Nat.mod_lt _ (by decide)⟩ r) h)
    (hV : ∀ (t : Fin cfg1.N) (r : Fin 4096) (h : Fin 256), iblk1 V c 1 t (ix2 r h) = vals I (rowOf ⟨t.val % 4, Nat.mod_lt _ (by decide)⟩ r) h)
    (hW : ∀ t : Fin cfg1.N, WOf (wts1 V c t) I) :
    (∀ k h, (stAt1 V c 11 lt11).s0 (ix2 k h) = slots3 I k h)
    ∧ (outVar (stAt1 V c 11 lt11).s5) (ix2 (0 : Fin 1) (0 : Fin 1)) = varMean I := by
  have H : rec_Inv I (stAt1 V c 11 lt11) 2 4 3 := rec_inv_at V c I hK hV hW 11 lt11
  refine ⟨fun k h => H.h0 k h, ?_⟩
  rw [outVar_apply, H.h5]; rfl

end Cert.KernelIdeal.HV

end
-- ==== Proof.K.Finite.lean ====
import proofs.«153310_j37245956390967_1_alg».proof.Defs
import proofs.«153310_j37245956390967_1_alg».proof.Proof.K.Val0
import Idealize.ShloMosaic.Lib.ReduceAll

set_option maxRecDepth 16384

noncomputable section

namespace Cert.KernelIdeal.HV

open Idealize.ShloMosaic Idealize.ShloMosaic.TcCoe Idealize.ShloMosaic.ValueIdx
open Cert.KernelIdeal Cert.KernelIdeal.Gen Cert.KernelIdeal.H Cert.Spec

instance finite_subsingleton_scalar : Subsingleton (Cert.Pre_finite_inputs.S_).Idx := ⟨fun a b => funext fun d => d.elim0⟩

theorem finite_isR_of_abs_lt_top (x : EReal) (h : max x (-x) < ⊤) : IsR x := by
  induction x using EReal.rec with
  | bot => simp at h
  | coe r => exact ⟨r, rfl⟩
  | top => simp at h

theorem finite_inf_word : Ideal.ofBits .f32 0x7F800000#32 = ⊤ := by simp [Ideal.ofBits, Ideal.ieee]

theorem finite_isR_of_all {s : Shape} {axes : List (Fin s.rank)} (x : FVec Ideal s .f32)
    (bc : (Cert.Pre_finite_inputs.S_).BroadcastsInDim s (![] : Fin 0 → Fin s.rank))
    (h : s.ReducesTo axes Cert.Pre_finite_inputs.S_) (hu : 0 < (Cert.Pre_finite_inputs.S_).numel)
    (e : Host.reduce IntOp.andi (cmpf .olt (Host.absf x) (broadcastInDim s ![] bc (constant Cert.Pre_finite_inputs.S_ .f32 0x7F800000#32)))
          (constantI Cert.Pre_finite_inputs.S_ 1 1#1) h hu ix0 = 1#1) (i : s.Idx) : IsR (x i) := by
  have h1 := Host.reduce_andi_all _ _ h hu ix0 e i
  have h2 : Ideal.cmp .olt (max (x i) (-(x i))) (Ideal.ofBits .f32 0x7F800000#32) = 1#1 := h1
  rw [finite_inf_word] at h2
  apply finite_isR_of_abs_lt_top
  by_contra hn
  have h3 : BitVec.ofBool (decide (max (x i) (-(x i)) < ⊤)) = 1#1 := h2
  rw [decide_eq_false hn] at h3
  exact absurd h3 (by decide)

theorem finite_andi_ix0 {x y : IVec Cert.Pre_finite_inputs.S_ 1} (h : andi x y ix0 = 1#1) : x ix0 = 1#1 ∧ y ix0 = 1#1 :=
  IntOp.andi_eq_one.1 h

theorem finite_real_of_fn [Cert.Pre_finite_inputs.Facts] (a0 : FVec Ideal Cert.Pre_finite_inputs.S16384x768 .f32) (a1 : FVec Ideal Cert.Pre_finite_inputs.S768 .f32) (a2 : FVec Ideal Cert.Pre_finite_inputs.S768 .f32) (a3 : FVec Ideal Cert.Pre_finite_inputs.S256 .f32) (a4 : FVec Ideal Cert.Pre_finite_inputs.S256 .f32) (a5 : FVec Ideal Cert.Pre_finite_inputs.S256 .f32) (a6 : FVec Ideal Cert.Pre_finite_inputs.S256 .f32) (a7 : FVec Ideal Cert.Pre_finite_inputs.S16x256 .f32) (a8 : FVec Ideal Cert.Pre_finite_inputs.S256x256 .f32) (a9 : FVec Ideal Cert.Pre_finite_inputs.S256x768 .f32) (a10 : FVec Ideal Cert.Pre_finite_inputs.S256x768 .f32) (a11 : FVec Ideal Cert.Pre_finite_inputs.S768x256 .f32) (a12 : FVec Ideal Cert.Pre_finite_inputs.S768x256 .f32) (a13 : FVec Ideal Cert.Pre_finite_inputs.S768 .f32) (a14 : FVec Ideal Cert.Pre_finite_inputs.S768 .f32) (a15 : FVec Ideal Cert.Pre_finite_inputs.S512x256 .f32) (a16 : FVec Ideal Cert.Pre_finite_inputs.S512 .f32) (a17 : FVec Ideal Cert.Pre_finite_inputs.S256x512 .f32) (a18 : FVec Ideal Cert.Pre_finite_inputs.S256 .f32)
    (h : Cert.Pre_finite_inputs.fn (F := Ideal) a0 a1 a2 a3 a4 a5 a6 a7 a8 a9 a10 a11 a12 a13 a14 a15 a16 a17 a18 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i)) ∧ (∀ i, IsR (a7 i)) ∧ (∀ i, IsR (a8 i)) ∧ (∀ i, IsR (a9 i)) ∧ (∀ i, IsR (a10 i)) ∧ (∀ i, IsR (a11 i)) ∧ (∀ i, IsR (a12 i)) ∧ (∀ i, IsR (a13 i)) ∧ (∀ i, IsR (a14 i)) ∧ (∀ i, IsR (a15 i)) ∧ (∀ i, IsR (a16 i)) ∧ (∀ i, IsR (a17 i)) ∧ (∀ i, IsR (a18 i)) := by
  have h := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5] at h
  obtain ⟨h, h18⟩ := finite_andi_ix0 h
  obtain ⟨h, h17⟩ := finite_andi_ix0 h
  obtain ⟨h, h16⟩ := finite_andi_ix0 h
  obtain ⟨h, h15⟩ := finite_andi_ix0 h
  obtain ⟨h, h14⟩ := finite_andi_ix0 h
  obtain ⟨h, h13⟩ := finite_andi_ix0 h
  obtain ⟨h, h12⟩ := finite_andi_ix0 h
  obtain ⟨h, h11⟩ := finite_andi_ix0 h
  obtain ⟨h, h10⟩ := finite_andi_ix0 h
  obtain ⟨h, h9⟩ := finite_andi_ix0 h
  obtain ⟨h, h8⟩ := finite_andi_ix0 h
  obtain ⟨h, h7⟩ := finite_andi_ix0 h
  obtain ⟨h, h6⟩ := finite_andi_ix0 h
  obtain ⟨h, h5⟩ := finite_andi_ix0 h
  obtain ⟨h, h4⟩ := finite_andi_ix0 h
  obtain ⟨h, h3⟩ := finite_andi_ix0 h
  obtain ⟨h, h2⟩ := finite_andi_ix0 h
  obtain ⟨h0, h1⟩ := finite_andi_ix0 h
  exact ⟨finite_isR_of_all a0 _ _ _ h0, finite_isR_of_all a1 _ _ _ h1, finite_isR_of_all a2 _ _ _ h2, finite_isR_of_all a3 _ _ _ h3,
    finite_isR_of_all a4 _ _ _ h4, finite_isR_of_all a5 _ _ _ h5, finite_isR_of_all a6 _ _ _ h6, finite_isR_of_all a7 _ _ _ h7,
    finite_isR_of_all a8 _ _ _ h8, finite_isR_of_all a9 _ _ _ h9, finite_isR_of_all a10 _ _ _ h10, finite_isR_of_all a11 _ _ _ h11,
    finite_isR_of_all a12 _ _ _ h12, finite_isR_of_all a13 _ _ _ h13, finite_isR_of_all a14 _ _ _ h14, finite_isR_of_all a15 _ _ _ h15,
    finite_isR_of_all a16 _ _ _ h16, finite_isR_of_all a17 _ _ _ h17, finite_isR_of_all a18 _ _ _ h18⟩

theorem real_of_pre [Cert.Pre_finite_inputs.Facts] (m : (ℓ : Loc nD τ sig) → Buf (Elt Ideal) ℓ) (hpre : Cert.Pre_KernelIdeal m) (c : Dev nD) :
    (inpOf m c).Real := by
  obtain ⟨h0, h1, h2, h3, h4, h5, h6, h7, h8, h9, h10, h11, h12, h13, h14, h15, h16, h17, h18⟩ :=
    finite_real_of_fn _ _ _ _ _ _ _ _ _ _ _ _ _ _ _ _ _ _ _ (hpre c)
  exact ⟨fun n d => h0 _, fun d => h1 _, fun d => h2 _, fun d => h3 _, fun d => h4 _, fun d => h5 _, fun d => h6 _,
    fun k h => h7 _, fun i j => h8 _, fun i j => h9 _, fun i j => h10 _, fun i j => h11 _, fun i j => h12 _,
    fun i => h13 _, fun i => h14 _, fun i j => h15 _, fun i => h16 _, fun i j => h17 _, fun i => h18 _⟩

end Cert.KernelIdeal.HV

end
-- ==== Proof.R.RefIter.lean ====
import proofs.«153310_j37245956390967_1_alg».proof.Proof.Gen.ReferenceIdeal.Run

set_option maxRecDepth 16384

noncomputable section

namespace Cert.ReferenceIdeal.HV

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

def it31 (s : (⟨S16x256, .f32⟩ : BufTy).Contents (Elt F)) : (⟨S16x1, .f32⟩ : BufTy).Contents (Elt F) :=
  Host.divf (broadcastInDim S16x1 ![0] bcast_S16_S16x1_0 (Host.reduceAdd (s) (constant S_ .f32 0x00000000#32) reducesTo_S16x256_S16_d1 h_S_)) (broadcastInDim S16x1 ![] bcast_S_S16x1 (constant S_ .f32 0x43800000#32))

def it33 (s : (⟨S16x256, .f32⟩ : BufTy).Contents (Elt F)) : (⟨S16x256, .f32⟩ : BufTy).Contents (Elt F) :=
  subf (s) (broadcastInDim S16x256 ![0, 1] bcast_S16x1_S16x256_0_1 (it31 s))

def it57 (V0 : Valuation τ sig (Elt F)) (Kk : (⟨S16384x256, .f32⟩ : BufTy).Contents (Elt F)) (s : (⟨S16x256, .f32⟩ : BufTy).Contents (Elt F)) : (⟨S16384x16, .f32⟩ : BufTy).Contents (Elt F) :=
  Host.dotGeneral dot_S16384x256_S256x16_S16384x16_1_0_0_1_n_n none Kk (transpose S256x16 [1, 0] (mulf (Host.dotGeneral dot_S16x256_S256x256_S16x256_1_0_0_1_n_n none (addf (mulf (mulf (subf (s) (broadcastInDim S16x256 ![0, 1] bcast_S16x1_S16x256_0_1 (it31 s))) (broadcastInDim S16x256 ![0, 1] bcast_S16x1_S16x256_0_1 (Host.rsqrt (addf (Host.divf (broadcastInDim S16x1 ![0] bcast_S16_S16x1_0 (Host.reduceAdd (mulf (it33 s) (it33 s)) (constant S_ .f32 0x00000000#32) reducesTo_S16x256_S16_d1 h_S_)) (broadcastInDim S16x1 ![] bcast_S_S16x1 (constant S_ .f32 0x43800000#32))) (broadcastInDim S16x1 ![] bcast_S_S16x1 (constant S_ .f32 0x3727C5AC#32)))))) (broadcastInDim S16x256 ![0, 1] bcast_S1x256_S16x256_0_1 (broadcastInDim S1x256 ![1] bcast_S256_S1x256_1 (V0 (Proc.devRef .tc main_arg3))))) (broadcastInDim S16x256 ![0, 1] bcast_S1x256_S16x256_0_1 (broadcastInDim S1x256 ![1] bcast_S256_S1x256_1 (V0 (Proc.devRef .tc main_arg4))))) (transpose S256x256 [1, 0] (V0 (Proc.devRef .tc main_arg8)) transposes_S256x256_S256x256_1_0)) (broadcastInDim S16x256 ![] bcast_S_S16x256 (constant S_ .f32 0x3D800000#32))) transposes_S16x256_S256x16_1_0)

def it64 (V0 : Valuation τ sig (Elt F)) (Kk : (⟨S16384x256, .f32⟩ : BufTy).Contents (Elt F)) (s : (⟨S16x256, .f32⟩ : BufTy).Contents (Elt F)) : (⟨S16384x16, .f32⟩ : BufTy).Contents (Elt F) :=
  Host.exp (subf (it57 V0 Kk s) (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf (it57 V0 Kk s) (constant S_ .f32 0xFF800000#32) reducesTo_S16384x16_S16384_d1 h_S_)))))

def it70 (V0 : Valuation τ sig (Elt F)) (Kk : (⟨S16384x256, .f32⟩ : BufTy).Contents (Elt F)) (s : (⟨S16x256, .f32⟩ : BufTy).Contents (Elt F)) : (⟨S16384x16, .f32⟩ : BufTy).Contents (Elt F) :=
  addf (Host.divf (it64 V0 Kk s) (broadcastInDim S16384x16 ![0, 1] bcast_S16384x1_S16384x16_0_1 (broadcastInDim S16384x1 ![0] bcast_S16384_S16384x1_0 (Host.reduceAdd (it64 V0 Kk s) (constant S_ .f32 0x00000000#32) reducesTo_S16384x16_S16384_d1 h_S_)))) (broadcastInDim S16384x16 ![] bcast_S_S16384x16 (constant S_ .f32 0x322BCC77#32))

def it74 (V0 : Valuation τ sig (Elt F)) (Kk : (⟨S16384x256, .f32⟩ : BufTy).Contents (Elt F)) (s : (⟨S16x256, .f32⟩ : BufTy).Contents (Elt F)) : (⟨S16384x16, .f32⟩ : BufTy).Contents (Elt F) :=
  Host.divf (it70 V0 Kk s) (broadcastInDim S16384x16 ![0, 1] bcast_S1x16_S16384x16_0_1 (broadcastInDim S1x16 ![1] bcast_S16_S1x16_1 (Host.reduceAdd (it70 V0 Kk s) (constant S_ .f32 0x00000000#32) reducesTo_S16384x16_S16_d0 h_S_)))

def it78 (V0 : Valuation τ sig (Elt F)) (Kk : (⟨S16384x256, .f32⟩ : BufTy).Contents (Elt F)) (s : (⟨S16x256, .f32⟩ : BufTy).Contents (Elt F)) : (⟨S16384x16, .f32⟩ : BufTy).Contents (Elt F) :=
  subf (it74 V0 Kk s) (broadcastInDim S16384x16 ![] bcast_S_S16384x16 (Host.divf (Host.reduceAdd (it74 V0 Kk s) (constant S_ .f32 0x00000000#32) reducesTo_S16384x16_S_d0_1 h_S_) (constant S_ .f32 0x48800000#32)))

def it88 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x768, .f32⟩ : BufTy).Contents (Elt F) :=
  addf (Host.dotGeneral dot_S16x256_S256x768_S16x768_1_0_0_1_n_n none (Host.dotGeneral dot_S16x16384_S16384x256_S16x256_1_0_0_1_n_n none (transpose S16x16384 [1, 0] (it74 V0 Kk s) transposes_S16384x16_S16x16384_1_0) Vv) (transpose S256x768 [1, 0] (V0 (Proc.devRef .tc main_arg11)) transposes_S768x256_S256x768_1_0)) (broadcastInDim S16x768 ![0, 1] bcast_S1x768_S16x768_0_1 (broadcastInDim S1x768 ![1] bcast_S768_S1x768_1 (V0 (Proc.devRef .tc main_arg13))))

def it93 (V0 : Valuation τ sig (Elt F)) (s : (⟨S16x256, .f32⟩ : BufTy).Contents (Elt F)) : (⟨S16x768, .f32⟩ : BufTy).Contents (Elt F) :=
  addf (Host.dotGeneral dot_S16x256_S256x768_S16x768_1_0_0_1_n_n none (s) (transpose S256x768 [1, 0] (V0 (Proc.devRef .tc main_arg12)) transposes_S768x256_S256x768_1_0)) (broadcastInDim S16x768 ![0, 1] bcast_S1x768_S16x768_0_1 (broadcastInDim S1x768 ![1] bcast_S768_S1x768_1 (V0 (Proc.devRef .tc main_arg14))))

def it113 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x256, .f32⟩ : BufTy).Contents (Elt F) :=
  Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 256] (it88 V0 Kk Vv s) slices_S16x768_S16x256_0_256) (extractStridedSlice S16x256 ![0, 256] (it93 V0 s) slices_S16x768_S16x256_0_256)))))

def it121 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x256, .f32⟩ : BufTy).Contents (Elt F) :=
  addf (mulf (subf (broadcastInDim S16x256 ![] bcast_S_S16x256 (constant S_ .f32 0x3F800000#32)) (it113 V0 Kk Vv s)) (Host.tanh (addf (extractStridedSlice S16x256 ![0, 512] (it88 V0 Kk Vv s) slices_S16x768_S16x256_0_512) (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 0] (it88 V0 Kk Vv s) slices_S16x768_S16x256_0_0) (extractStridedSlice S16x256 ![0, 0] (it93 V0 s) slices_S16x768_S16x256_0_0)))))) (extractStridedSlice S16x256 ![0, 512] (it93 V0 s) slices_S16x768_S16x256_0_512))))) (mulf (it113 V0 Kk Vv s) (s))

def it125 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x1, .f32⟩ : BufTy).Contents (Elt F) :=
  Host.divf (broadcastInDim S16x1 ![0] bcast_S16_S16x1_0 (Host.reduceAdd (it121 V0 Kk Vv s) (constant S_ .f32 0x00000000#32) reducesTo_S16x256_S16_d1 h_S_)) (broadcastInDim S16x1 ![] bcast_S_S16x1 (constant S_ .f32 0x43800000#32))

def it127 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x256, .f32⟩ : BufTy).Contents (Elt F) :=
  subf (it121 V0 Kk Vv s) (broadcastInDim S16x256 ![0, 1] bcast_S16x1_S16x256_0_1 (it125 V0 Kk Vv s))

def it158 (V0 : Valuation τ sig (Elt F)) (Kk : (⟨S16384x256, .f32⟩ : BufTy).Contents (Elt F)) (Vv : (⟨S16384x256, .f32⟩ : BufTy).Contents (Elt F)) (s : (⟨S16x256, .f32⟩ : BufTy).Contents (Elt F)) : (⟨S16x256, .f32⟩ : BufTy).Contents (Elt F) :=
  addf (it121 V0 Kk Vv s) (addf (Host.dotGeneral dot_S16x512_S512x256_S16x256_1_0_0_1_n_n none (maximumf (addf (Host.dotGeneral dot_S16x256_S256x512_S16x512_1_0_0_1_n_n none (addf (mulf (mulf (subf (it121 V0 Kk Vv s) (broadcastInDim S16x256 ![0, 1] bcast_S16x1_S16x256_0_1 (it125 V0 Kk Vv s))) (broadcastInDim S16x256 ![0, 1] bcast_S16x1_S16x256_0_1 (Host.rsqrt (addf (Host.divf (broadcastInDim S16x1 ![0] bcast_S16_S16x1_0 (Host.reduceAdd (mulf (it127 V0 Kk Vv s) (it127 V0 Kk Vv s)) (constant S_ .f32 0x00000000#32) reducesTo_S16x256_S16_d1 h_S_)) (broadcastInDim S16x1 ![] bcast_S_S16x1 (constant S_ .f32 0x43800000#32))) (broadcastInDim S16x1 ![] bcast_S_S16x1 (constant S_ .f32 0x3727C5AC#32)))))) (broadcastInDim S16x256 ![0, 1] bcast_S1x256_S16x256_0_1 (broadcastInDim S1x256 ![1] bcast_S256_S1x256_1 (V0 (Proc.devRef .tc main_arg5))))) (broadcastInDim S16x256 ![0, 1] bcast_S1x256_S16x256_0_1 (broadcastInDim S1x256 ![1] bcast_S256_S1x256_1 (V0 (Proc.devRef .tc main_arg6))))) (transpose S256x512 [1, 0] (V0 (Proc.devRef .tc main_arg15)) transposes_S512x256_S256x512_1_0)) (broadcastInDim S16x512 ![0, 1] bcast_S1x512_S16x512_0_1 (broadcastInDim S1x512 ![1] bcast_S512_S1x512_1 (V0 (Proc.devRef .tc main_arg16))))) (broadcastInDim S16x512 ![] bcast_S_S16x512 (constant S_ .f32 0x00000000#32))) (transpose S512x256 [1, 0] (V0 (Proc.devRef .tc main_arg17)) transposes_S256x512_S512x256_1_0)) (broadcastInDim S16x256 ![0, 1] bcast_S1x256_S16x256_0_1 (broadcastInDim S1x256 ![1] bcast_S256_S1x256_1 (V0 (Proc.devRef .tc main_arg18)))))

def itVar (V0 : Valuation τ sig (Elt F)) (Kk : (⟨S16384x256, .f32⟩ : BufTy).Contents (Elt F)) (s : (⟨S16x256, .f32⟩ : BufTy).Contents (Elt F)) : (⟨S_, .f32⟩ : BufTy).Contents (Elt F) :=
  Host.divf (Host.reduceAdd (mulf (it78 V0 Kk s) (it78 V0 Kk s)) (constant S_ .f32 0x00000000#32) reducesTo_S16384x16_S_d0_1 h_S_) (constant S_ .f32 0x487FFFC0#32)

theorem r31 (V0 : Valuation τ sig (Elt F)) : res_main_v31 V0 = it31 (V0 (Proc.devRef .tc main_arg7)) := by
  unfold res_main_v31 it31
  rfl

theorem r33 (V0 : Valuation τ sig (Elt F)) : res_main_v33 V0 = it33 (V0 (Proc.devRef .tc main_arg7)) := by
  unfold res_main_v33 it33
  rw [r31]

theorem r57 (V0 : Valuation τ sig (Elt F)) : res_main_v57 V0 = it57 V0 (res_main_v25 V0) (V0 (Proc.devRef .tc main_arg7)) := by
  unfold res_main_v57 it57
  rw [r31, r33]

theorem r64 (V0 : Valuation τ sig (Elt F)) : res_main_v64 V0 = it64 V0 (res_main_v25 V0) (V0 (Proc.devRef .tc main_arg7)) := by
  unfold res_main_v64 it64
  rw [r57]

theorem r70 (V0 : Valuation τ sig (Elt F)) : res_main_v70 V0 = it70 V0 (res_main_v25 V0) (V0 (Proc.devRef .tc main_arg7)) := by
  unfold res_main_v70 it70
  rw [r64]

theorem r74 (V0 : Valuation τ sig (Elt F)) : res_main_v74 V0 = it74 V0 (res_main_v25 V0) (V0 (Proc.devRef .tc main_arg7)) := by
  unfold res_main_v74 it74
  rw [r70]

theorem r78 (V0 : Valuation τ sig (Elt F)) : res_main_v78 V0 = it78 V0 (res_main_v25 V0) (V0 (Proc.devRef .tc main_arg7)) := by
  unfold res_main_v78 it78
  rw [r74]

theorem r88 (V0 : Valuation τ sig (Elt F)) : res_main_v88 V0 = it88 V0 (res_main_v25 V0) (res_main_v27 V0) (V0 (Proc.devRef .tc main_arg7)) := by
  unfold res_main_v88 it88
  rw [r74]

theorem r93 (V0 : Valuation τ sig (Elt F)) : res_main_v93 V0 = it93 V0 (V0 (Proc.devRef .tc main_arg7)) := by
  unfold res_main_v93 it93
  rfl

theorem r113 (V0 : Valuation τ sig (Elt F)) : res_main_v113 V0 = it113 V0 (res_main_v25 V0) (res_main_v27 V0) (V0 (Proc.devRef .tc main_arg7)) := by
  unfold res_main_v113 it113
  rw [r88, r93]

theorem r121 (V0 : Valuation τ sig (Elt F)) : res_main_v121 V0 = it121 V0 (res_main_v25 V0) (res_main_v27 V0) (V0 (Proc.devRef .tc main_arg7)) := by
  unfold res_main_v121 it121
  rw [r113, r88, r93]

theorem r125 (V0 : Valuation τ sig (Elt F)) : res_main_v125 V0 = it125 V0 (res_main_v25 V0) (res_main_v27 V0) (V0 (Proc.devRef .tc main_arg7)) := by
  unfold res_main_v125 it125
  rw [r121]

theorem r127 (V0 : Valuation τ sig (Elt F)) : res_main_v127 V0 = it127 V0 (res_main_v25 V0) (res_main_v27 V0) (V0 (Proc.devRef .tc main_arg7)) := by
  unfold res_main_v127 it127
  rw [r121, r125]

theorem r158 (V0 : Valuation τ sig (Elt F)) : res_main_v158 V0 = it158 V0 (res_main_v25 V0) (res_main_v27 V0) (V0 (Proc.devRef .tc main_arg7)) := by
  unfold res_main_v158 it158
  rw [r121, r125, r127]

theorem r162 (V0 : Valuation τ sig (Elt F)) : res_main_v162 V0 = it31 (res_main_v158 V0) := by
  unfold res_main_v162 it31
  rfl

theorem r164 (V0 : Valuation τ sig (Elt F)) : res_main_v164 V0 = it33 (res_main_v158 V0) := by
  unfold res_main_v164 it33
  rw [r162]

theorem r188 (V0 : Valuation τ sig (Elt F)) : res_main_v188 V0 = it57 V0 (res_main_v25 V0) (res_main_v158 V0) := by
  unfold res_main_v188 it57
  rw [r162, r164]

theorem r195 (V0 : Valuation τ sig (Elt F)) : res_main_v195 V0 = it64 V0 (res_main_v25 V0) (res_main_v158 V0) := by
  unfold res_main_v195 it64
  rw [r188]

theorem r201 (V0 : Valuation τ sig (Elt F)) : res_main_v201 V0 = it70 V0 (res_main_v25 V0) (res_main_v158 V0) := by
  unfold res_main_v201 it70
  rw [r195]

theorem r205 (V0 : Valuation τ sig (Elt F)) : res_main_v205 V0 = it74 V0 (res_main_v25 V0) (res_main_v158 V0) := by
  unfold res_main_v205 it74
  rw [r201]

theorem r209 (V0 : Valuation τ sig (Elt F)) : res_main_v209 V0 = it78 V0 (res_main_v25 V0) (res_main_v158 V0) := by
  unfold res_main_v209 it78
  rw [r205]

theorem r219 (V0 : Valuation τ sig (Elt F)) : res_main_v219 V0 = it88 V0 (res_main_v25 V0) (res_main_v27 V0) (res_main_v158 V0) := by
  unfold res_main_v219 it88
  rw [r205]

theorem r224 (V0 : Valuation τ sig (Elt F)) : res_main_v224 V0 = it93 V0 (res_main_v158 V0) := by
  unfold res_main_v224 it93
  rfl

theorem r244 (V0 : Valuation τ sig (Elt F)) : res_main_v244 V0 = it113 V0 (res_main_v25 V0) (res_main_v27 V0) (res_main_v158 V0) := by
  unfold res_main_v244 it113
  rw [r219, r224]

theorem r252 (V0 : Valuation τ sig (Elt F)) : res_main_v252 V0 = it121 V0 (res_main_v25 V0) (res_main_v27 V0) (res_main_v158 V0) := by
  unfold res_main_v252 it121
  rw [r244, r219, r224]

theorem r256 (V0 : Valuation τ sig (Elt F)) : res_main_v256 V0 = it125 V0 (res_main_v25 V0) (res_main_v27 V0) (res_main_v158 V0) := by
  unfold res_main_v256 it125
  rw [r252]

theorem r258 (V0 : Valuation τ sig (Elt F)) : res_main_v258 V0 = it127 V0 (res_main_v25 V0) (res_main_v27 V0) (res_main_v158 V0) := by
  unfold res_main_v258 it127
  rw [r252, r256]

theorem r289 (V0 : Valuation τ sig (Elt F)) : res_main_v289 V0 = it158 V0 (res_main_v25 V0) (res_main_v27 V0) (res_main_v158 V0) := by
  unfold res_main_v289 it158
  rw [r252, r256, r258]

theorem r293 (V0 : Valuation τ sig (Elt F)) : res_main_v293 V0 = it31 (res_main_v289 V0) := by
  unfold res_main_v293 it31
  rfl

theorem r295 (V0 : Valuation τ sig (Elt F)) : res_main_v295 V0 = it33 (res_main_v289 V0) := by
  unfold res_main_v295 it33
  rw [r293]

theorem r319 (V0 : Valuation τ sig (Elt F)) : res_main_v319 V0 = it57 V0 (res_main_v25 V0) (res_main_v289 V0) := by
  unfold res_main_v319 it57
  rw [r293, r295]

theorem r326 (V0 : Valuation τ sig (Elt F)) : res_main_v326 V0 = it64 V0 (res_main_v25 V0) (res_main_v289 V0) := by
  unfold res_main_v326 it64
  rw [r319]

theorem r332 (V0 : Valuation τ sig (Elt F)) : res_main_v332 V0 = it70 V0 (res_main_v25 V0) (res_main_v289 V0) := by
  unfold res_main_v332 it70
  rw [r326]

theorem r336 (V0 : Valuation τ sig (Elt F)) : res_main_v336 V0 = it74 V0 (res_main_v25 V0) (res_main_v289 V0) := by
  unfold res_main_v336 it74
  rw [r332]

theorem r340 (V0 : Valuation τ sig (Elt F)) : res_main_v340 V0 = it78 V0 (res_main_v25 V0) (res_main_v289 V0) := by
  unfold res_main_v340 it78
  rw [r336]

theorem r350 (V0 : Valuation τ sig (Elt F)) : res_main_v350 V0 = it88 V0 (res_main_v25 V0) (res_main_v27 V0) (res_main_v289 V0) := by
  unfold res_main_v350 it88
  rw [r336]

theorem r355 (V0 : Valuation τ sig (Elt F)) : res_main_v355 V0 = it93 V0 (res_main_v289 V0) := by
  unfold res_main_v355 it93
  rfl

theorem r375 (V0 : Valuation τ sig (Elt F)) : res_main_v375 V0 = it113 V0 (res_main_v25 V0) (res_main_v27 V0) (res_main_v289 V0) := by
  unfold res_main_v375 it113
  rw [r350, r355]

theorem r383 (V0 : Valuation τ sig (Elt F)) : res_main_v383 V0 = it121 V0 (res_main_v25 V0) (res_main_v27 V0) (res_main_v289 V0) := by
  unfold res_main_v383 it121
  rw [r375, r350, r355]

theorem r387 (V0 : Valuation τ sig (Elt F)) : res_main_v387 V0 = it125 V0 (res_main_v25 V0) (res_main_v27 V0) (res_main_v289 V0) := by
  unfold res_main_v387 it125
  rw [r383]

theorem r389 (V0 : Valuation τ sig (Elt F)) : res_main_v389 V0 = it127 V0 (res_main_v25 V0) (res_main_v27 V0) (res_main_v289 V0) := by
  unfold res_main_v389 it127
  rw [r383, r387]

end Cert.ReferenceIdeal.HV

end
-- ==== Proof.R.InpR.lean ====
import proofs.«153310_j37245956390967_1_alg».proof.Proof.Gen.ReferenceIdeal.Run
import proofs.«153310_j37245956390967_1_alg».proof.Proof.S.Spec
import Idealize.ShloMosaic.Lib.ValueIdx

noncomputable section

namespace Cert.ReferenceIdeal.HV

open Cert.ReferenceIdeal Cert.ReferenceIdeal.Gen Idealize.ShloMosaic Idealize.ShloMosaic.ValueIdx Idealize.SL.Sem

def inpOfR (V0 : Valuation τ sig (Elt Ideal)) : Cert.Spec.Inp where
  X := fun n d => (V0 (Proc.devRef .tc main_arg0) : (⟨S16384x768, .f32⟩ : BufTy).Contents (Elt Ideal)) (ix2 n d)
  lnw := fun d => (V0 (Proc.devRef .tc main_arg1) : (⟨S768, .f32⟩ : BufTy).Contents (Elt Ideal)) (ix1 d)
  lnb := fun d => (V0 (Proc.devRef .tc main_arg2) : (⟨S768, .f32⟩ : BufTy).Contents (Elt Ideal)) (ix1 d)
  lsw := fun d => (V0 (Proc.devRef .tc main_arg3) : (⟨S256, .f32⟩ : BufTy).Contents (Elt Ideal)) (ix1 d)
  lsb := fun d => (V0 (Proc.devRef .tc main_arg4) : (⟨S256, .f32⟩ : BufTy).Contents (Elt Ideal)) (ix1 d)
  lmw := fun d => (V0 (Proc.devRef .tc main_arg5) : (⟨S256, .f32⟩ : BufTy).Contents (Elt Ideal)) (ix1 d)
  lmb := fun d => (V0 (Proc.devRef .tc main_arg6) : (⟨S256, .f32⟩ : BufTy).Contents (Elt Ideal)) (ix1 d)
  s0 := fun k h => (V0 (Proc.devRef .tc main_arg7) : (⟨S16x256, .f32⟩ : BufTy).Contents (Elt Ideal)) (ix2 k h)
  Wq := fun i j => (V0 (Proc.devRef .tc main_arg8) : (⟨S256x256, .f32⟩ : BufTy).Contents (Elt Ideal)) (ix2 i j)
  Wk := fun i j => (V0 (Proc.devRef .tc main_arg9) : (⟨S256x768, .f32⟩ : BufTy).Contents (Elt Ideal)) (ix2 i j)
  Wv := fun i j => (V0 (Proc.devRef .tc main_arg10) : (⟨S256x768, .f32⟩ : BufTy).Contents (Elt Ideal)) (ix2 i j)
  Wih := fun i j => (V0 (Proc.devRef .tc main_arg11) : (⟨S768x256, .f32⟩ : BufTy).Contents (Elt Ideal)) (ix2 i j)
  Whh := fun i j => (V0 (Proc.devRef .tc main_arg12) : (⟨S768x256, .f32⟩ : BufTy).Contents (Elt Ideal)) (ix2 i j)
  bih := fun i => (V0 (Proc.devRef .tc main_arg13) : (⟨S768, .f32⟩ : BufTy).Contents (Elt Ideal)) (ix1 i)
  bhh := fun i => (V0 (Proc.devRef .tc main_arg14) : (⟨S768, .f32⟩ : BufTy).Contents (Elt Ideal)) (ix1 i)
  W1 := fun i j => (V0 (Proc.devRef .tc main_arg15) : (⟨S512x256, .f32⟩ : BufTy).Contents (Elt Ideal)) (ix2 i j)
  b1 := fun i => (V0 (Proc.devRef .tc main_arg16) : (⟨S512, .f32⟩ : BufTy).Contents (Elt Ideal)) (ix1 i)
  W2 := fun i j => (V0 (Proc.devRef .tc main_arg17) : (⟨S256x512, .f32⟩ : BufTy).Contents (Elt Ideal)) (ix2 i j)
  b2 := fun i => (V0 (Proc.devRef .tc main_arg18) : (⟨S256, .f32⟩ : BufTy).Contents (Elt Ideal)) (ix1 i)

end Cert.ReferenceIdeal.HV

end
-- ==== Proof.R.RefOps.lean ====
import Idealize.ShloMosaic.Lib.StackMember
import Idealize.ShloMosaic.Lib.IdealHost
import Idealize.ShloMosaic.Lib.Pipeline.Value
import Idealize.ShloMosaic.PureOps.Ideal.Laws
import Mathlib.Algebra.BigOperators.Fin

noncomputable section

namespace Cert.ReferenceIdeal.HV

open Idealize.ShloMosaic Idealize.ShloMosaic.ValueIdx

section Ops
variable {a b : ℕ}

theorem rowSum_apply (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (i : Fin a) :
    Host.reduceAdd x init h' hu (ix1 i) = init ix0 + ∑ j : Fin b, x (ix2 i j) := by
  have h : (⟨2, ![a, b]⟩ : Shape).Reduces [1] ⟨1, ![a]⟩ := ⟨h'.1, Nat.one_pos, h'.2⟩
  rw [hostReduceAdd_apply, Ideal.hostReduceAdd_single h' h]
  congr 1
  · exact congrArg init (eq_ix0 _)
  · refine Finset.sum_congr rfl fun j _ => congrArg x ?_
    funext c; apply Fin.ext
    match c with
    | ⟨0, _⟩ => rfl
    | ⟨1, _⟩ => rfl

theorem colSum_apply (x : FVec Ideal ⟨2, ![a, b]⟩ .f32) (init : FVec Ideal ⟨0, ![]⟩ .f32)
    (h' : (⟨2, ![a, b]⟩ : Shape).ReducesTo [0] ⟨1, ![b]⟩) (hu : 0 < (⟨0, ![]⟩ : Shape).numel) (j : Fin b) :
    Host.reduceAdd x init h' hu (ix1 j) = init ix0 + ∑ i : Fin a, x (ix2 i j) := by
  have h : (⟨2, ![a, b]⟩ : Shape).Reduces [0] ⟨1, ![b]⟩ := ⟨h'.1, Nat.one_pos, h'.2⟩
  rw [hostReduceAdd_apply, Ideal.hostReduceAdd_single h' h]
  congr 1
  · exact congrArg init (eq_ix0 _)
  · refine Finset.sum_congr rfl fun i _ => congrArg x ?_
    funext c; apply Fin.ext
    match c with
    | ⟨0, _⟩ => rfl
    | ⟨1, _⟩ => rfl

theorem totalSum_apply (x : FVec Ideal ⟨2, ![a, b]⟩ .f32) (init : FVec Ideal ⟨0, ![]⟩ .f32)
    (h' : (⟨2, ![a, b]⟩ : Shape).ReducesTo [0, 1] ⟨0, ![]⟩) (hu : 0 < (⟨0, ![]⟩ : Shape).numel) (j : (⟨0, ![]⟩ : Shape).Idx) :
    Host.reduceAdd x init h' hu j = init ix0 + ∑ i : Fin a, ∑ k : Fin b, x (ix2 i k) := by
  rw [hostReduceAdd_apply, Ideal.hostReduceAdd_total h' (fun c => c.elim0), sum_idx2]
  congr 1
  exact congrArg init (eq_ix0 _)

theorem vecSum_apply (x : FVec Ideal ⟨1, ![a]⟩ .f32) (init : FVec Ideal ⟨0, ![]⟩ .f32)
    (h' : (⟨1, ![a]⟩ : Shape).ReducesTo [0] ⟨0, ![]⟩) (hu : 0 < (⟨0, ![]⟩ : Shape).numel) (j : (⟨0, ![]⟩ : Shape).Idx) :
    Host.reduceAdd x init h' hu j = init ix0 + ∑ i : Fin a, x (ix1 i) := by
  rw [hostReduceAdd_apply, Ideal.hostReduceAdd_total h' (fun c => c.elim0)]
  congr 1
  · exact congrArg init (eq_ix0 _)
  · refine (Equiv.sum_comp (⟨fun i => ix1 i, fun j => j 0, fun i => rfl, fun j => (eq_ix1 j).symm⟩ : Fin a ≃ (⟨1, ![a]⟩ : Shape).Idx) x).symm

theorem rowMax_apply (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (i : Fin a) :
    Host.reduce FloatOps.maximumf x init h' hu (ix1 i) = (Finset.univ : Finset (Fin b)).fold max (init ix0) (fun j => x (ix2 i j)) := by
  have h : (⟨2, ![a, b]⟩ : Shape).Reduces [1] ⟨1, ![a]⟩ := ⟨h'.1, Nat.one_pos, h'.2⟩
  haveI : Std.Commutative (FloatOps.maximumf (F := Ideal) (φ := .f32)) := ⟨fun x y => max_comm (a := (x : EReal)) y⟩
  haveI : Std.Associative (FloatOps.maximumf (F := Ideal) (φ := .f32)) := ⟨fun x y z => max_assoc (a := (x : EReal)) y z⟩
  rw [Host.reduce_eq_fold_single FloatOps.maximumf x init h' h hu]
  have e0 : init (Shape.Idx.first hu) = init ix0 := congrArg init (eq_ix0 _)
  rw [e0]
  have e1 : (x ∘ h.lift (ix1 i)) = fun j : Fin b => x (ix2 i j) := by
    funext j
    refine congrArg x ?_
    funext c; apply Fin.ext
    match c with
    | ⟨0, _⟩ => rfl
    | ⟨1, _⟩ => rfl
  rw [e1]
  rfl

end Ops

section Layout
variable {a b : ℕ} {α : Type}

theorem bcastCol_apply (v : (⟨1, ![a]⟩ : Shape).Idx → α) (h : (⟨1, ![a]⟩ : Shape).BroadcastsInDim ⟨2, ![a, 1]⟩ ![0]) (i : Fin a) (z : Fin 1) :
    broadcastInDim ⟨2, ![a, 1]⟩ ![0] h v (ix2 i z) = v (ix1 i) := by
  refine broadcastInDim_apply _ h v _ (ix1 i) fun c => ?_
  match c with
  | ⟨0, _⟩ =>
    show i.val = if a = 1 then 0 else i.val
    split
    · have := i.isLt; omega
    · rfl

theorem bcastColRows_apply (x : (⟨2, ![a, 1]⟩ : Shape).Idx → α) (h : (⟨2, ![a, 1]⟩ : Shape).BroadcastsInDim ⟨2, ![a, b]⟩ ![0, 1])
    (i : Fin a) (j : Fin b) : broadcastInDim ⟨2, ![a, b]⟩ ![0, 1] h x (ix2 i j) = x (ix2 i (0 : Fin 1)) := by
  refine broadcastInDim_apply _ h x _ (ix2 i (0 : Fin 1)) fun c => ?_
  match c with
  | ⟨0, _⟩ =>
    show i.val = if a = 1 then 0 else i.val
    split
    · have := i.isLt; omega
    · rfl
  | ⟨1, _⟩ => rfl

theorem bcastRowCols_apply (x : (⟨2, ![1, b]⟩ : Shape).Idx → α) (h : (⟨2, ![1, b]⟩ : Shape).BroadcastsInDim ⟨2, ![a, b]⟩ ![0, 1])
    (i : Fin a) (j : Fin b) : broadcastInDim ⟨2, ![a, b]⟩ ![0, 1] h x (ix2 i j) = x (ix2 (0 : Fin 1) j) := by
  refine broadcastInDim_apply _ h x _ (ix2 (0 : Fin 1) j) fun c => ?_
  match c with
  | ⟨0, _⟩ => rfl
  | ⟨1, _⟩ =>
    show j.val = if b = 1 then 0 else j.val
    split
    · have := j.isLt; omega
    · rfl

theorem bcastRow_apply (v : (⟨1, ![b]⟩ : Shape).Idx → α) (h : (⟨1, ![b]⟩ : Shape).BroadcastsInDim ⟨2, ![1, b]⟩ ![1]) (z : Fin 1) (j : Fin b) :
    broadcastInDim ⟨2, ![1, b]⟩ ![1] h v (ix2 z j) = v (ix1 j) := by
  refine broadcastInDim_apply _ h v _ (ix1 j) fun c => ?_
  match c with
  | ⟨0, _⟩ =>
    show j.val = if b = 1 then 0 else j.val
    split
    · have := j.isLt; omega
    · rfl

theorem transpose2_apply (x : (⟨2, ![a, b]⟩ : Shape).Idx → α) (h : (⟨2, ![a, b]⟩ : Shape).Transposes [1, 0] ⟨2, ![b, a]⟩) (i : Fin a) (j : Fin b) :
    transpose ⟨2, ![b, a]⟩ [1, 0] x h (ix2 j i) = x (ix2 i j) := by
  refine transpose_apply _ x h _ (ix2 i j) fun c => ?_
  match c with
  | ⟨0, _⟩ => rfl
  | ⟨1, _⟩ => rfl

end Layout

section Pointwise
variable {s : Shape} {φ : FTy}

theorem expH_apply (x : FVec Ideal s φ) (i : s.Idx) : Host.exp x i = Ideal.exp (x i) := rfl
theorem rsqrtH_apply (x : FVec Ideal s φ) (i : s.Idx) : Host.rsqrt x i = Ideal.rsqrt (x i) := rfl
theorem tanhH_apply (x : FVec Ideal s φ) (i : s.Idx) : Host.tanh x i = Ideal.tanh (x i) := rfl

end Pointwise

end Cert.ReferenceIdeal.HV

end
-- ==== Proof.S.SpecReal.lean ====
import proofs.«153310_j37245956390967_1_alg».proof.Proof.S.Spec
import Mathlib.Analysis.SpecialFunctions.Exp
import Mathlib.Data.EReal.Basic

noncomputable section

namespace Cert.Spec

open Idealize.ShloMosaic

theorem cNegInf_eq : cNegInf = ⊥ := by
  simp [cNegInf, Ideal.ofBits, Ideal.ieee]

theorem cZero_eq : cZero = 0 := by
  simp [cZero, Ideal.ofBits, Ideal.ieee]

theorem cOne_eq : cOne = ((1 : ℝ) : E) := by
  simp [cOne, Ideal.ofBits, Ideal.ieee, -EReal.coe_mul]; norm_num

theorem c768_eq : c768 = ((768 : ℝ) : E) := by
  simp [c768, Ideal.ofBits, Ideal.ieee, -EReal.coe_mul]; norm_num

theorem c256_eq : c256 = ((256 : ℝ) : E) := by
  simp [c256, Ideal.ofBits, Ideal.ieee, -EReal.coe_mul]; norm_num

theorem epsLN_eq : epsLN = ((10995116 * (2 : ℝ) ^ (-40 : ℤ) : ℝ) : E) := by
  simp [epsLN, Ideal.ofBits, Ideal.ieee, -EReal.coe_mul]

theorem epsAttn_eq : epsAttn = ((11258999 * (2 : ℝ) ^ (-50 : ℤ) : ℝ) : E) := by
  simp [epsAttn, Ideal.ofBits, Ideal.ieee, -EReal.coe_mul]

theorem epsLN_pos : ∃ r : ℝ, 0 < r ∧ epsLN = (r : E) := ⟨_, by positivity, epsLN_eq⟩
theorem epsAttn_pos : ∃ r : ℝ, 0 < r ∧ epsAttn = (r : E) := ⟨_, by positivity, epsAttn_eq⟩

theorem cInvN_eq : cInvN = ((1 / 1024 : ℝ) : E) := by
  simp [cInvN, Ideal.ofBits, Ideal.ieee, -EReal.coe_mul]; norm_num

theorem cNK_eq : cNK = ((262144 : ℝ) : E) := by
  simp [cNK, Ideal.ofBits, Ideal.ieee, -EReal.coe_mul]; norm_num

theorem cScale_isR : IsR cScale := by
  refine ⟨1 / 16, ?_⟩
  simp [cScale, Ideal.ofBits, Ideal.ieee, -EReal.coe_mul]; norm_num

theorem coe_sum {ι : Type} (s : Finset ι) (f : ι → ℝ) : (∑ i ∈ s, ((f i : ℝ) : E)) = ((∑ i ∈ s, f i : ℝ) : E) := by
  classical
  induction s using Finset.induction_on with
  | empty => simp
  | insert a s ha ih => rw [Finset.sum_insert ha, Finset.sum_insert ha, ih, EReal.coe_add]

theorem isR_coe (r : ℝ) : IsR (r : E) := ⟨r, rfl⟩

theorem isR_add {x y : E} (hx : IsR x) (hy : IsR y) : IsR (x + y) := by
  obtain ⟨a, rfl⟩ := hx; obtain ⟨b, rfl⟩ := hy; exact ⟨a + b, (EReal.coe_add a b).symm⟩

theorem isR_sub {x y : E} (hx : IsR x) (hy : IsR y) : IsR (x - y) := by
  obtain ⟨a, rfl⟩ := hx; obtain ⟨b, rfl⟩ := hy; exact ⟨a - b, (EReal.coe_sub a b).symm⟩

theorem isR_mul {x y : E} (hx : IsR x) (hy : IsR y) : IsR (x * y) := by
  obtain ⟨a, rfl⟩ := hx; obtain ⟨b, rfl⟩ := hy; exact ⟨a * b, (EReal.coe_mul a b).symm⟩

theorem isR_sum {ι : Type} (s : Finset ι) (f : ι → E) (h : ∀ i ∈ s, IsR (f i)) : IsR (∑ i ∈ s, f i) := by
  classical
  induction s using Finset.induction_on with
  | empty => exact ⟨0, by simp⟩
  | insert a s ha ih =>
    rw [Finset.sum_insert ha]
    exact isR_add (h a (Finset.mem_insert_self a s)) (ih fun i hi => h i (Finset.mem_insert_of_mem hi))

theorem div_coe_coe (a : ℝ) {c : ℝ} (hc : c ≠ 0) : Ideal.div (a : E) (c : E) = ((a / c : ℝ) : E) := by
  rw [Ideal.div_coe hc, ← EReal.coe_mul, mul_one_div]

theorem isR_div {x y : E} (hx : IsR x) {r : ℝ} (hr : r ≠ 0) (hy : y = (r : E)) : IsR (Ideal.div x y) := by
  obtain ⟨a, rfl⟩ := hx; subst hy; exact ⟨_, div_coe_coe a hr⟩

theorem isR_exp {x : E} (hx : IsR x) : IsR (Ideal.exp x) := by
  obtain ⟨a, rfl⟩ := hx; exact ⟨_, Ideal.exp_coe a⟩

theorem isR_tanh {x : E} (hx : IsR x) : IsR (Ideal.tanh x) := by
  obtain ⟨a, rfl⟩ := hx; exact ⟨_, Ideal.tanh_coe a⟩

theorem isR_logistic {x : E} (hx : IsR x) : IsR (Ideal.logistic x) := by
  obtain ⟨a, rfl⟩ := hx; exact ⟨_, Ideal.logistic_coe a⟩

theorem isR_max {x y : E} (hx : IsR x) (hy : IsR y) : IsR (max x y) := by
  rcases le_total x y with h | h
  · rw [max_eq_right h]; exact hy
  · rw [max_eq_left h]; exact hx

theorem isR_fold_max {ι : Type} (f : ι → E) (hf : ∀ i, IsR (f i)) (s : Finset ι) (hs : s.Nonempty) :
    IsR (s.fold max ⊥ f) := by
  classical
  induction s using Finset.induction_on with
  | empty => exact absurd hs (by simp)
  | insert a s ha ih =>
    rw [Finset.fold_insert ha]
    rcases s.eq_empty_or_nonempty with rfl | hne
    · rw [Finset.fold_empty, max_bot_right]; exact hf a
    · exact isR_max (hf a) (ih hne)

theorem isR_smax {n : ℕ} [NeZero n] (f : Fin n → E) (hf : ∀ i, IsR (f i)) : IsR (smax f) := by
  unfold smax
  rw [cNegInf_eq, max_bot_left]
  exact isR_fold_max f hf _ Finset.univ_nonempty

variable {D : ℕ}

theorem mean_coe {c : ℝ} (hc : c ≠ 0) (x : Fin D → ℝ) :
    mean (c : E) (fun d => (x d : E)) = (((∑ d, x d) / c : ℝ) : E) := by
  unfold mean; rw [coe_sum, div_coe_coe _ hc]

theorem isR_lnRow {cD : E} {c : ℝ} (hc : 0 < c) (hcD : cD = (c : E)) {x w b : Fin D → E}
    (hx : ∀ d, IsR (x d)) (hw : ∀ d, IsR (w d)) (hb : ∀ d, IsR (b d)) (d : Fin D) : IsR (lnRow cD x w b d) := by
  subst hcD
  choose xr hxr using hx
  obtain rfl : x = fun d => (xr d : E) := funext hxr
  obtain ⟨e, he, hE⟩ := epsLN_pos
  unfold lnRow
  rw [mean_coe hc.ne']
  have hv : (fun d' => ((xr d' : E) - (((∑ d, xr d) / c : ℝ) : E)) * ((xr d' : E) - (((∑ d, xr d) / c : ℝ) : E)))
      = fun d' => (((xr d' - (∑ d, xr d) / c) * (xr d' - (∑ d, xr d) / c) : ℝ) : E) :=
    funext fun d' => by rw [← EReal.coe_sub, ← EReal.coe_mul]
  rw [hv, mean_coe hc.ne', hE, ← EReal.coe_add, Ideal.rsqrt_coe]
  have h0 : 0 ≤ ∑ d', (xr d' - (∑ d, xr d) / c) * (xr d' - (∑ d, xr d) / c) :=
    Finset.sum_nonneg fun i _ => mul_self_nonneg _
  have hpos : 0 < (∑ d', (xr d' - (∑ d, xr d) / c) * (xr d' - (∑ d, xr d) / c)) / c + e :=
    add_pos_of_nonneg_of_pos (div_nonneg h0 hc.le) he
  rw [if_neg (not_lt.mpr hpos.le), if_neg hpos.ne']
  exact isR_add (isR_mul (isR_mul (isR_sub (isR_coe _) (isR_coe _)) (isR_coe _)) (hw d)) (hb d)

variable (I : Inp)

theorem isR_xln (hI : I.Real) (n : Fin 16384) (d : Fin 768) : IsR (xln I n d) := by
  obtain ⟨hX, hlnw, hlnb, -⟩ := hI
  exact isR_lnRow (by norm_num : (0 : ℝ) < 768) c768_eq (hX n) hlnw hlnb d

theorem isR_keys (hI : I.Real) (n : Fin 16384) (h : Fin 256) : IsR (keys I n h) := by
  have hWk : ∀ i j, IsR (I.Wk i j) := hI.2.2.2.2.2.2.2.2.2.1
  exact isR_sum _ _ fun d _ => isR_mul (isR_xln I hI n d) (hWk h d)

theorem isR_vals (hI : I.Real) (n : Fin 16384) (h : Fin 256) : IsR (vals I n h) := by
  have hWv : ∀ i j, IsR (I.Wv i j) := hI.2.2.2.2.2.2.2.2.2.2.1
  exact isR_sum _ _ fun d _ => isR_mul (isR_xln I hI n d) (hWv h d)

theorem isR_qry (hI : I.Real) (s : Fin 16 → Fin 256 → E) (hs : ∀ k h, IsR (s k h)) (k : Fin 16) (h : Fin 256) : IsR (qry I s k h) := by
  have hlsw : ∀ d, IsR (I.lsw d) := hI.2.2.2.1
  have hlsb : ∀ d, IsR (I.lsb d) := hI.2.2.2.2.1
  have hWq : ∀ i j, IsR (I.Wq i j) := hI.2.2.2.2.2.2.2.2.1
  exact isR_mul (isR_sum _ _ fun j _ =>
    isR_mul (isR_lnRow (by norm_num : (0 : ℝ) < 256) c256_eq (hs k) hlsw hlsb j) (hWq h j)) cScale_isR

theorem isR_score (hI : I.Real) (s : Fin 16 → Fin 256 → E) (hs : ∀ k h, IsR (s k h)) (n : Fin 16384) (k : Fin 16) : IsR (score I s n k) :=
  isR_sum _ _ fun h _ => isR_mul (isR_keys I hI n h) (isR_qry I hI s hs k h)

theorem attn_pos (hI : I.Real) (s : Fin 16 → Fin 256 → E) (hs : ∀ k h, IsR (s k h)) (n : Fin 16384) (k : Fin 16) :
    ∃ r : ℝ, 0 < r ∧ attn I s n k = (r : E) := by
  have hsc : ∀ k', IsR (score I s n k' - smax (score I s n)) := fun k' =>
    isR_sub (isR_score I hI s hs n k') (isR_smax _ (isR_score I hI s hs n))
  choose t ht using hsc
  obtain ⟨e, he, hE⟩ := epsAttn_pos
  have hden : 0 < ∑ k', Real.exp (t k') := Finset.sum_pos (fun i _ => Real.exp_pos _) Finset.univ_nonempty
  unfold attn
  simp only [ht, Ideal.exp_coe]
  rw [hE, coe_sum, div_coe_coe _ hden.ne', ← EReal.coe_add]
  exact ⟨_, add_pos (div_pos (Real.exp_pos _) hden) he, rfl⟩

theorem isR_attn (hI : I.Real) (s : Fin 16 → Fin 256 → E) (hs : ∀ k h, IsR (s k h)) (n : Fin 16384) (k : Fin 16) : IsR (attn I s n k) := by
  obtain ⟨r, -, hr⟩ := attn_pos I hI s hs n k
  exact ⟨r, hr⟩

theorem colsum_pos (hI : I.Real) (s : Fin 16 → Fin 256 → E) (hs : ∀ k h, IsR (s k h)) (k : Fin 16) : ∃ r : ℝ, 0 < r ∧ colsum I s k = (r : E) := by
  choose a ha0 ha using fun n => attn_pos I hI s hs n k
  refine ⟨∑ n, a n, Finset.sum_pos (fun n _ => ha0 n) Finset.univ_nonempty, ?_⟩
  unfold colsum
  simp only [ha]
  exact coe_sum _ _

theorem isR_upd (hI : I.Real) (s : Fin 16 → Fin 256 → E) (hs : ∀ k h, IsR (s k h)) (k : Fin 16) (h : Fin 256) : IsR (upd I s k h) := by
  obtain ⟨c, hc, hcs⟩ := colsum_pos I hI s hs k
  exact isR_div (isR_sum _ _ fun n _ => isR_mul (isR_attn I hI s hs n k) (isR_vals I hI n h)) hc.ne' hcs

theorem isR_gi (hI : I.Real) (s : Fin 16 → Fin 256 → E) (hs : ∀ k h, IsR (s k h)) (k : Fin 16) (j : Fin 768) : IsR (gi I s k j) := by
  have hWih : ∀ i j, IsR (I.Wih i j) := hI.2.2.2.2.2.2.2.2.2.2.2.1
  have hbih : ∀ i, IsR (I.bih i) := hI.2.2.2.2.2.2.2.2.2.2.2.2.2.1
  exact isR_add (isR_sum _ _ fun h _ => isR_mul (isR_upd I hI s hs k h) (hWih j h)) (hbih j)

theorem isR_gh (hI : I.Real) (s : Fin 16 → Fin 256 → E) (hs : ∀ k h, IsR (s k h)) (k : Fin 16) (j : Fin 768) : IsR (gh I s k j) := by
  have hWhh : ∀ i j, IsR (I.Whh i j) := hI.2.2.2.2.2.2.2.2.2.2.2.2.1
  have hbhh : ∀ i, IsR (I.bhh i) := hI.2.2.2.2.2.2.2.2.2.2.2.2.2.2.1
  exact isR_add (isR_sum _ _ fun h _ => isR_mul (hs k h) (hWhh j h)) (hbhh j)

theorem isR_gateR (hI : I.Real) (s : Fin 16 → Fin 256 → E) (hs : ∀ k h, IsR (s k h)) (k : Fin 16) (j : Fin 256) : IsR (gateR I s k j) :=
  isR_logistic (isR_add (isR_gi I hI s hs k _) (isR_gh I hI s hs k _))

theorem isR_gateZ (hI : I.Real) (s : Fin 16 → Fin 256 → E) (hs : ∀ k h, IsR (s k h)) (k : Fin 16) (j : Fin 256) : IsR (gateZ I s k j) :=
  isR_logistic (isR_add (isR_gi I hI s hs k _) (isR_gh I hI s hs k _))

theorem isR_cand (hI : I.Real) (s : Fin 16 → Fin 256 → E) (hs : ∀ k h, IsR (s k h)) (k : Fin 16) (j : Fin 256) : IsR (cand I s k j) :=
  isR_tanh (isR_add (isR_gi I hI s hs k _) (isR_mul (isR_gateR I hI s hs k j) (isR_gh I hI s hs k _)))

theorem isR_gru (hI : I.Real) (s : Fin 16 → Fin 256 → E) (hs : ∀ k h, IsR (s k h)) (k : Fin 16) (j : Fin 256) : IsR (gru I s k j) :=
  isR_add (isR_mul (isR_sub ⟨1, cOne_eq⟩ (isR_gateZ I hI s hs k j)) (isR_cand I hI s hs k j))
    (isR_mul (isR_gateZ I hI s hs k j) (hs k j))

theorem isR_hid (hI : I.Real) (s : Fin 16 → Fin 256 → E) (hs : ∀ k h, IsR (s k h)) (k : Fin 16) (i : Fin 512) : IsR (hid I s k i) := by
  have hlmw : ∀ d, IsR (I.lmw d) := hI.2.2.2.2.2.1
  have hlmb : ∀ d, IsR (I.lmb d) := hI.2.2.2.2.2.2.1
  have hW1 : ∀ i j, IsR (I.W1 i j) := hI.2.2.2.2.2.2.2.2.2.2.2.2.2.2.2.1
  have hb1 : ∀ i, IsR (I.b1 i) := hI.2.2.2.2.2.2.2.2.2.2.2.2.2.2.2.2.1
  exact isR_max (isR_add (isR_sum _ _ fun j _ =>
    isR_mul (isR_lnRow (by norm_num : (0 : ℝ) < 256) c256_eq (isR_gru I hI s hs k) hlmw hlmb j) (hW1 i j)) (hb1 i))
    ⟨0, cZero_eq⟩

theorem isR_nextSlots (hI : I.Real) (s : Fin 16 → Fin 256 → E) (hs : ∀ k h, IsR (s k h)) (k : Fin 16) (h : Fin 256) : IsR (nextSlots I s k h) := by
  have hW2 : ∀ i j, IsR (I.W2 i j) := hI.2.2.2.2.2.2.2.2.2.2.2.2.2.2.2.2.2.1
  have hb2 : ∀ i, IsR (I.b2 i) := hI.2.2.2.2.2.2.2.2.2.2.2.2.2.2.2.2.2.2
  exact isR_add (isR_gru I hI s hs k h) (isR_add (isR_sum _ _ fun i _ => isR_mul (isR_hid I hI s hs k i) (hW2 h i)) (hb2 h))

theorem isR_slots1 (hI : I.Real) (k : Fin 16) (h : Fin 256) : IsR (slots1 I k h) :=
  isR_nextSlots I hI I.s0 hI.2.2.2.2.2.2.2.1 k h

theorem isR_slots2 (hI : I.Real) (k : Fin 16) (h : Fin 256) : IsR (slots2 I k h) :=
  isR_nextSlots I hI (slots1 I) (isR_slots1 I hI) k h

theorem sigmoid_eq (x : E) (hx : IsR x) : Ideal.div cOne (cOne + Ideal.exp (-x)) = Ideal.logistic x := by
  rw [cOne_eq, EReal.coe_one]; rfl

theorem upd_ref_eq (hI : I.Real) (s : Fin 16 → Fin 256 → E) (hs : ∀ k h, IsR (s k h)) (k : Fin 16) (h : Fin 256) :
    (∑ n, Ideal.div (attn I s n k) (colsum I s k) * vals I n h) = upd I s k h := by
  choose a ha using fun n => isR_attn I hI s hs n k
  choose v hv using fun n => isR_vals I hI n h
  obtain ⟨c, hc, hcs⟩ := colsum_pos I hI s hs k
  unfold upd numer
  rw [hcs]
  simp only [ha, hv, div_coe_coe _ hc.ne', ← EReal.coe_mul]
  rw [coe_sum, coe_sum, div_coe_coe _ hc.ne', EReal.coe_eq_coe_iff, Finset.sum_div]
  exact Finset.sum_congr rfl fun n _ => by ring

theorem var_real (a : Fin 16384 → Fin 16 → ℝ) (c : Fin 16 → ℝ) (hc : ∀ k, c k ≠ 0) (hca : ∀ k, c k = ∑ n, a n k) :
    (∑ n, ∑ k, (a n k / c k - (∑ n', ∑ k', a n' k' / c k') / 262144) * (a n k / c k - (∑ n', ∑ k', a n' k' / c k') / 262144))
      = (∑ k, (∑ n, a n k * a n k) / (c k * c k)) - 1 / 1024 := by
  have hS : (∑ n', ∑ k', a n' k' / c k') = 16 := by
    rw [Finset.sum_comm]
    have h1 : ∀ k', (∑ n', a n' k' / c k') = 1 := fun k' => by
      rw [← Finset.sum_div, ← hca, div_self (hc k')]
    simp only [h1]
    simp
  rw [hS]
  have hexp : ∀ n k, (a n k / c k - (16 : ℝ) / 262144) * (a n k / c k - (16 : ℝ) / 262144)
      = a n k * a n k / (c k * c k) - (2 * (16 / 262144)) * (a n k / c k) + (16 / 262144) * (16 / 262144) := fun n k => by
    ring
  simp only [hexp, Finset.sum_add_distrib, Finset.sum_sub_distrib, ← Finset.mul_sum]
  rw [hS, Finset.sum_comm]
  simp only [← Finset.sum_div]
  simp
  norm_num
  ring

theorem var_ref_eq (hI : I.Real) (s : Fin 16 → Fin 256 → E) (hs : ∀ k h, IsR (s k h)) :
    Ideal.div (∑ n, ∑ k, (Ideal.div (attn I s n k) (colsum I s k) - Ideal.div (∑ n', ∑ k', Ideal.div (attn I s n' k') (colsum I s k')) cNK)
        * (Ideal.div (attn I s n k) (colsum I s k) - Ideal.div (∑ n', ∑ k', Ideal.div (attn I s n' k') (colsum I s k')) cNK)) cNKm1
      = varOf I s := by
  choose a ha using fun n k => isR_attn I hI s hs n k
  choose c hc hcs using fun k => colsum_pos I hI s hs k
  have hca : ∀ k, c k = ∑ n, a n k := fun k => by
    have h := hcs k
    unfold colsum at h
    simp only [ha] at h
    rw [coe_sum, EReal.coe_eq_coe_iff] at h
    exact h.symm
  have hb : ∀ n k, Ideal.div (attn I s n k) (colsum I s k) = ((a n k / c k : ℝ) : E) := fun n k => by
    rw [ha, hcs, div_coe_coe _ (hc k).ne']
  have hq : ∀ k, Ideal.div (sumsq I s k) (colsum I s k * colsum I s k) = (((∑ n, a n k * a n k) / (c k * c k) : ℝ) : E) := fun k => by
    unfold sumsq
    simp only [ha, ← EReal.coe_mul]
    rw [coe_sum, hcs, ← EReal.coe_mul, div_coe_coe _ (mul_ne_zero (hc k).ne' (hc k).ne')]
  unfold varOf
  refine congrArg (fun z => Ideal.div z cNKm1) ?_
  simp only [hb, hq, coe_sum]
  rw [cNK_eq, cInvN_eq, div_coe_coe _ (by norm_num : (262144 : ℝ) ≠ 0)]
  simp only [← EReal.coe_sub, ← EReal.coe_mul, coe_sum]
  rw [EReal.coe_eq_coe_iff]
  exact var_real a c (fun k => (hc k).ne') hca

end Cert.Spec

end
-- ==== Proof.R.RefAttn.lean ====
import proofs.«153310_j37245956390967_1_alg».proof.Proof.R.RefIter
import proofs.«153310_j37245956390967_1_alg».proof.Proof.R.InpR
import proofs.«153310_j37245956390967_1_alg».proof.Proof.R.RefOps
import proofs.«153310_j37245956390967_1_alg».proof.Proof.S.SpecReal

set_option maxRecDepth 16384

noncomputable section

namespace Cert.ReferenceIdeal.HV

open Cert.ReferenceIdeal Cert.ReferenceIdeal.Gen Cert.ReferenceIdeal.Value Idealize.ShloMosaic Idealize.ShloMosaic.ValueIdx Idealize.SL.Sem Cert.Spec

theorem dotX_apply (A : FVec Ideal S16384x768 .f32) (B : FVec Ideal S768x256 .f32) (i : Fin 16384) (j : Fin 256) :
    Host.dotGeneral dot_S16384x768_S768x256_S16384x256_1_0_0_1_n_n none A B (ix2 i j) = ∑ c : Fin 768, A (ix2 i c) * B (ix2 c j) :=
  StackMember.dotGeneral_plain_apply none A B i j

theorem dotQ_apply (A : FVec Ideal S16x256 .f32) (B : FVec Ideal S256x256 .f32) (i : Fin 16) (j : Fin 256) :
    Host.dotGeneral dot_S16x256_S256x256_S16x256_1_0_0_1_n_n none A B (ix2 i j) = ∑ c : Fin 256, A (ix2 i c) * B (ix2 c j) :=
  StackMember.dotGeneral_plain_apply none A B i j

theorem dotS_apply (A : FVec Ideal S16384x256 .f32) (B : FVec Ideal S256x16 .f32) (i : Fin 16384) (j : Fin 16) :
    Host.dotGeneral dot_S16384x256_S256x16_S16384x16_1_0_0_1_n_n none A B (ix2 i j) = ∑ c : Fin 256, A (ix2 i c) * B (ix2 c j) :=
  StackMember.dotGeneral_plain_apply none A B i j

section LayerNorm
variable {a b : ℕ}

theorem lnHost_apply (x : FVec Ideal ⟨2, ![a, b]⟩ .f32) (mu : FVec Ideal ⟨2, ![a, 1]⟩ .f32) (xc : FVec Ideal ⟨2, ![a, b]⟩ .f32)
    (w bb : FVec Ideal ⟨1, ![b]⟩ .f32) (cD : BitVec 32) (X : Fin a → Fin b → E)
    (hx : ∀ i j, x (ix2 i j) = X i j) (hmu : ∀ i z, mu (ix2 i z) = mean (Ideal.ofBits .f32 cD) (X i))
    (hxc : ∀ i j, xc (ix2 i j) = X i j - mean (Ideal.ofBits .f32 cD) (X i))
    (h1 : (⟨2, ![a, 1]⟩ : Shape).BroadcastsInDim ⟨2, ![a, b]⟩ ![0, 1]) (h2 : (⟨1, ![a]⟩ : Shape).BroadcastsInDim ⟨2, ![a, 1]⟩ ![0])
    (h3 : (⟨2, ![a, b]⟩ : Shape).ReducesTo [1] ⟨1, ![a]⟩) (h4 : 0 < (⟨0, ![]⟩ : Shape).numel)
    (h5 : (⟨0, ![]⟩ : Shape).BroadcastsInDim ⟨2, ![a, 1]⟩ ![])
    (h6 : (⟨2, ![1, b]⟩ : Shape).BroadcastsInDim ⟨2, ![a, b]⟩ ![0, 1]) (h7 : (⟨1, ![b]⟩ : Shape).BroadcastsInDim ⟨2, ![1, b]⟩ ![1])
    (i : Fin a) (j : Fin b) :
    addf (mulf (mulf (subf x (broadcastInDim ⟨2, ![a, b]⟩ ![0, 1] h1 mu))
        (broadcastInDim ⟨2, ![a, b]⟩ ![0, 1] h1 (Host.rsqrt (addf (Host.divf
          (broadcastInDim ⟨2, ![a, 1]⟩ ![0] h2 (Host.reduceAdd (mulf xc xc) (constant ⟨0, ![]⟩ .f32 0x00000000#32) h3 h4))
          (broadcastInDim ⟨2, ![a, 1]⟩ ![] h5 (constant ⟨0, ![]⟩ .f32 cD)))
          (broadcastInDim ⟨2, ![a, 1]⟩ ![] h5 (constant ⟨0, ![]⟩ .f32 0x3727C5AC#32))))))
        (broadcastInDim ⟨2, ![a, b]⟩ ![0, 1] h6 (broadcastInDim ⟨2, ![1, b]⟩ ![1] h7 w)))
        (broadcastInDim ⟨2, ![a, b]⟩ ![0, 1] h6 (broadcastInDim ⟨2, ![1, b]⟩ ![1] h7 bb)) (ix2 i j)
      = lnRow (Ideal.ofBits .f32 cD) (X i) (fun d => w (ix1 d)) (fun d => bb (ix1 d)) j := by
  rw [addf_apply, mulf_apply, mulf_apply, subf_apply, bcastColRows_apply, bcastColRows_apply, rsqrtH_apply, addf_apply,
    hostDivf_apply, bcastCol_apply, rowSum_apply, broadcastInDim_scalar_apply, broadcastInDim_scalar_apply, constant_apply,
    constant_apply, constant_apply, bcastRowCols_apply, bcastRow_apply, bcastRowCols_apply, bcastRow_apply, hx, hmu,
    Ideal.ofBits_zero_f32, zero_add]
  have e : (∑ j' : Fin b, mulf xc xc (ix2 i j'))
      = ∑ j' : Fin b, (X i j' - mean (Ideal.ofBits .f32 cD) (X i)) * (X i j' - mean (Ideal.ofBits .f32 cD) (X i)) :=
    Finset.sum_congr rfl fun j' _ => by rw [mulf_apply, hxc]
  rw [e]
  rfl

end LayerNorm

section Iter
variable (V0 : Valuation τ sig (Elt Ideal)) (Kk : (⟨S16384x256, .f32⟩ : BufTy).Contents (Elt Ideal))
  (s : (⟨S16x256, .f32⟩ : BufTy).Contents (Elt Ideal)) (sS : Fin 16 → Fin 256 → E)
  (hs : ∀ k h, s (ix2 k h) = sS k h)

include hs in
theorem it31_apply (k : Fin 16) (z : Fin 1) : it31 s (ix2 k z) = mean c256 (sS k) := by
  unfold it31 mean c256
  rw [hostDivf_apply, bcastCol_apply, rowSum_apply, broadcastInDim_scalar_apply, constant_apply, constant_apply,
    Ideal.ofBits_zero_f32, zero_add]
  simp only [hs]

include hs in
theorem it33_apply (k : Fin 16) (h : Fin 256) : it33 s (ix2 k h) = sS k h - mean c256 (sS k) := by
  unfold it33
  rw [subf_apply, bcastColRows_apply, it31_apply s sS hs, hs]

end Iter

section Iter2
variable (V0 : Valuation τ sig (Elt Ideal)) (Kk : (⟨S16384x256, .f32⟩ : BufTy).Contents (Elt Ideal))
  (s : (⟨S16x256, .f32⟩ : BufTy).Contents (Elt Ideal)) (sS : Fin 16 → Fin 256 → E)
  (hs : ∀ k h, s (ix2 k h) = sS k h) (hK : ∀ n h, Kk (ix2 n h) = keys (inpOfR V0) n h)

include hs hK in
theorem it57_apply (n : Fin 16384) (k : Fin 16) : it57 V0 Kk s (ix2 n k) = score (inpOfR V0) sS n k := by
  unfold it57
  rw [dotS_apply]
  refine Finset.sum_congr rfl fun h _ => ?_
  rw [hK, transpose2_apply, mulf_apply, dotQ_apply, broadcastInDim_scalar_apply, constant_apply]
  refine congrArg (fun t => keys (inpOfR V0) n h * (t * cScale)) ?_
  refine Finset.sum_congr rfl fun j _ => ?_
  rw [transpose2_apply, lnHost_apply s (it31 s) (it33 s) _ _ _ sS hs (it31_apply s sS hs) (it33_apply s sS hs)]
  rfl

end Iter2

section Iter3
variable (V0 : Valuation τ sig (Elt Ideal)) (Kk : (⟨S16384x256, .f32⟩ : BufTy).Contents (Elt Ideal))
  (s : (⟨S16x256, .f32⟩ : BufTy).Contents (Elt Ideal)) (sS : Fin 16 → Fin 256 → E)
  (hs : ∀ k h, s (ix2 k h) = sS k h) (hK : ∀ n h, Kk (ix2 n h) = keys (inpOfR V0) n h)

include hs hK in
theorem it64_apply (n : Fin 16384) (k : Fin 16) :
    it64 V0 Kk s (ix2 n k) = Ideal.exp (score (inpOfR V0) sS n k - smax (score (inpOfR V0) sS n)) := by
  unfold it64
  rw [expH_apply, subf_apply, bcastColRows_apply, bcastCol_apply, maximumf_apply, broadcastInDim_scalar_apply, constant_apply,
    rowMax_apply, constant_apply, it57_apply V0 Kk s sS hs hK]
  have e : (fun j => it57 V0 Kk s (ix2 n j)) = score (inpOfR V0) sS n := funext fun j => it57_apply V0 Kk s sS hs hK n j
  rw [e]
  rfl

include hs hK in
theorem it70_apply (n : Fin 16384) (k : Fin 16) : it70 V0 Kk s (ix2 n k) = attn (inpOfR V0) sS n k := by
  unfold it70
  rw [addf_apply, hostDivf_apply, bcastColRows_apply, bcastCol_apply, rowSum_apply, constant_apply, Ideal.ofBits_zero_f32, zero_add,
    broadcastInDim_scalar_apply, constant_apply, it64_apply V0 Kk s sS hs hK]
  have e : (∑ j : Fin 16, it64 V0 Kk s (ix2 n j))
      = ∑ k' : Fin 16, Ideal.exp (score (inpOfR V0) sS n k' - smax (score (inpOfR V0) sS n)) :=
    Finset.sum_congr rfl fun j _ => it64_apply V0 Kk s sS hs hK n j
  rw [e]
  rfl

include hs hK in

theorem it74_apply (n : Fin 16384) (k : Fin 16) :
    it74 V0 Kk s (ix2 n k) = Ideal.div (attn (inpOfR V0) sS n k) (colsum (inpOfR V0) sS k) := by
  unfold it74
  rw [hostDivf_apply, bcastRowCols_apply, bcastRow_apply, colSum_apply, constant_apply, Ideal.ofBits_zero_f32, zero_add,
    it70_apply V0 Kk s sS hs hK]
  have e : (∑ i : Fin 16384, it70 V0 Kk s (ix2 i k)) = colsum (inpOfR V0) sS k :=
    Finset.sum_congr rfl fun i _ => it70_apply V0 Kk s sS hs hK i k
  rw [e]

include hs hK in
theorem it78_apply (n : Fin 16384) (k : Fin 16) :
    it78 V0 Kk s (ix2 n k) = Ideal.div (attn (inpOfR V0) sS n k) (colsum (inpOfR V0) sS k)
      - Ideal.div (∑ n' : Fin 16384, ∑ k' : Fin 16, Ideal.div (attn (inpOfR V0) sS n' k') (colsum (inpOfR V0) sS k')) cNK := by
  unfold it78
  rw [subf_apply, broadcastInDim_scalar_apply, hostDivf_apply, totalSum_apply, constant_apply, constant_apply, Ideal.ofBits_zero_f32,
    zero_add, it74_apply V0 Kk s sS hs hK]
  have e : (∑ i : Fin 16384, ∑ j : Fin 16, it74 V0 Kk s (ix2 i j))
      = ∑ n' : Fin 16384, ∑ k' : Fin 16, Ideal.div (attn (inpOfR V0) sS n' k') (colsum (inpOfR V0) sS k') :=
    Finset.sum_congr rfl fun i _ => Finset.sum_congr rfl fun j _ => it74_apply V0 Kk s sS hs hK i j
  rw [e]
  rfl

end Iter3

section Iter4
variable (V0 : Valuation τ sig (Elt Ideal)) (Kk : (⟨S16384x256, .f32⟩ : BufTy).Contents (Elt Ideal))
  (s : (⟨S16x256, .f32⟩ : BufTy).Contents (Elt Ideal)) (sS : Fin 16 → Fin 256 → E)
  (hs : ∀ k h, s (ix2 k h) = sS k h) (hK : ∀ n h, Kk (ix2 n h) = keys (inpOfR V0) n h)

include hs hK in

theorem itVar_apply (hR : (inpOfR V0).Real) (hsR : ∀ k h, IsR (sS k h)) : itVar V0 Kk s ix0 = varOf (inpOfR V0) sS := by
  unfold itVar
  rw [hostDivf_apply, totalSum_apply, constant_apply, constant_apply, Ideal.ofBits_zero_f32, zero_add]
  have e : (∑ i : Fin 16384, ∑ j : Fin 16, mulf (it78 V0 Kk s) (it78 V0 Kk s) (ix2 i j))
      = ∑ n : Fin 16384, ∑ k : Fin 16,
          (Ideal.div (attn (inpOfR V0) sS n k) (colsum (inpOfR V0) sS k)
            - Ideal.div (∑ n' : Fin 16384, ∑ k' : Fin 16, Ideal.div (attn (inpOfR V0) sS n' k') (colsum (inpOfR V0) sS k')) cNK)
          * (Ideal.div (attn (inpOfR V0) sS n k) (colsum (inpOfR V0) sS k)
            - Ideal.div (∑ n' : Fin 16384, ∑ k' : Fin 16, Ideal.div (attn (inpOfR V0) sS n' k') (colsum (inpOfR V0) sS k')) cNK) :=
    Finset.sum_congr rfl fun i _ => Finset.sum_congr rfl fun j _ => by rw [mulf_apply, it78_apply V0 Kk s sS hs hK]
  rw [e]
  exact var_ref_eq (inpOfR V0) hR sS hsR

end Iter4

end Cert.ReferenceIdeal.HV

end
-- ==== Proof.R.RefFin.lean ====
import proofs.«153310_j37245956390967_1_alg».proof.Proof.R.RefIter
import proofs.«153310_j37245956390967_1_alg».proof.Proof.R.InpR
import proofs.«153310_j37245956390967_1_alg».proof.Proof.S.SpecReal
import Idealize.ShloMosaic.Lib.ValueIdx
import Idealize.ShloMosaic.Lib.ValueLayout
import Idealize.ShloMosaic.Lib.IdealHost
import Idealize.ShloMosaic.Lib.KernelVsHost
import Idealize.ShloMosaic.Lib.StackMember

set_option maxRecDepth 16384

noncomputable section

namespace Cert.ReferenceIdeal.HV

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.Spec

theorem dot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

theorem rowvec_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply h2 _ r t]
  refine broadcastInDim_apply ![1] h1 x (ix2 (0 : Fin 1) t) (ix1 t) ?_
  intro a
  match a with
  | ⟨0, _⟩ =>
    show t.val = if n = 1 then 0 else t.val
    split_ifs with hn
    · have := t.isLt; omega
    · rfl

theorem colvec_apply {α : Type} {m n : Nat} (h2 : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h2 y (ix2 r t) = y (ix2 r (0 : Fin 1)) := by
  refine broadcastInDim_apply ![0, 1] h2 y (ix2 r t) (ix2 r (0 : Fin 1)) ?_
  intro a
  match a with
  | ⟨0, _⟩ =>
    show r.val = if m = 1 then 0 else r.val
    split_ifs with hm
    · have := r.isLt; omega
    · rfl
  | ⟨1, _⟩ =>
    show (0 : ℕ) = if (1 : ℕ) = 1 then 0 else t.val
    simp

theorem keep_apply {α : Type} {m : Nat} (h1 : (⟨1, ![m]⟩ : Shape).BroadcastsInDim ⟨2, ![m, 1]⟩ ![0])
    (z : (⟨1, ![m]⟩ : Shape).Idx → α) (r : Fin m) :
    broadcastInDim ⟨2, ![m, 1]⟩ ![0] h1 z (ix2 r (0 : Fin 1)) = z (ix1 r) := by
  refine broadcastInDim_apply ![0] h1 z (ix2 r (0 : Fin 1)) (ix1 r) ?_
  intro a
  match a with
  | ⟨0, _⟩ =>
    show r.val = if m = 1 then 0 else r.val
    split_ifs with hm
    · have := r.isLt; omega
    · rfl

theorem lit_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

theorem rowsum_apply (x : FVec Ideal S16x256 .f32) (k : Fin 16) :
    Host.reduceAdd x (constant (F := Ideal) S_ .f32 0x00000000#32) reducesTo_S16x256_S16_d1 h_S_ (ix1 k)
      = ∑ j : Fin 256, x (ix2 k j) := by
  have h : S16x256.Reduces [1] S16 := by decide
  rw [hostReduceAdd_apply, Ideal.hostReduceAdd_single reducesTo_S16x256_S16_d1 h]
  show Ideal.ofBits .f32 0x00000000#32 + _ = _
  rw [Ideal.ofBits_zero_f32, zero_add]
  refine Finset.sum_congr rfl fun j _ => congrArg x (funext fun ax => ?_)
  match ax with
  | ⟨0, _⟩ => exact Fin.ext rfl
  | ⟨1, _⟩ => exact Fin.ext rfl

theorem dot768_apply (A : FVec Ideal S16x256 .f32) (B : FVec Ideal S256x768 .f32) (a : Fin 16) (b : Fin 768) :
    Host.dotGeneral dot_S16x256_S256x768_S16x768_1_0_0_1_n_n none A B (ix2 a b) = ∑ c : Fin 256, A (ix2 a c) * B (ix2 c b) :=
  dot_apply dot_S16x256_S256x768_S16x768_1_0_0_1_n_n rfl A B a b

theorem dotN_apply (A : FVec Ideal S16x16384 .f32) (B : FVec Ideal S16384x256 .f32) (a : Fin 16) (b : Fin 256) :
    Host.dotGeneral dot_S16x16384_S16384x256_S16x256_1_0_0_1_n_n none A B (ix2 a b) = ∑ c : Fin 16384, A (ix2 a c) * B (ix2 c b) :=
  dot_apply dot_S16x16384_S16384x256_S16x256_1_0_0_1_n_n rfl A B a b

theorem dot512_apply (A : FVec Ideal S16x256 .f32) (B : FVec Ideal S256x512 .f32) (a : Fin 16) (b : Fin 512) :
    Host.dotGeneral dot_S16x256_S256x512_S16x512_1_0_0_1_n_n none A B (ix2 a b) = ∑ c : Fin 256, A (ix2 a c) * B (ix2 c b) :=
  dot_apply dot_S16x256_S256x512_S16x512_1_0_0_1_n_n rfl A B a b

theorem dot256_apply (A : FVec Ideal S16x512 .f32) (B : FVec Ideal S512x256 .f32) (a : Fin 16) (b : Fin 256) :
    Host.dotGeneral dot_S16x512_S512x256_S16x256_1_0_0_1_n_n none A B (ix2 a b) = ∑ c : Fin 512, A (ix2 a c) * B (ix2 c b) :=
  dot_apply dot_S16x512_S512x256_S16x256_1_0_0_1_n_n rfl A B a b

theorem it93_apply (V0 : Valuation τ sig (Elt Ideal)) (s : (⟨S16x256, .f32⟩ : BufTy).Contents (Elt Ideal)) (sS : Fin 16 → Fin 256 → E)
    (hs : ∀ k h, s (ix2 k h) = sS k h) (k : Fin 16) (j : Fin 768) :
    it93 V0 s (ix2 k j) = gh (inpOfR V0) sS k j := by
  unfold it93 gh
  rw [addf_apply, dot768_apply, rowvec_apply]
  refine congrArg₂ (· + ·) (Finset.sum_congr rfl fun c _ => ?_) rfl
  rw [transpose_ix2_apply, hs]
  rfl

theorem it88_apply (V0 : Valuation τ sig (Elt Ideal)) (Kk Vv : (⟨S16384x256, .f32⟩ : BufTy).Contents (Elt Ideal))
    (s : (⟨S16x256, .f32⟩ : BufTy).Contents (Elt Ideal)) (sS : Fin 16 → Fin 256 → E)
    (hR : (inpOfR V0).Real) (hsR : ∀ k h, IsR (sS k h))
    (hV : ∀ n h, Vv (ix2 n h) = vals (inpOfR V0) n h)
    (h74 : ∀ (n : Fin 16384) (k : Fin 16), it74 V0 Kk s (ix2 n k) = Ideal.div (attn (inpOfR V0) sS n k) (colsum (inpOfR V0) sS k))
    (k : Fin 16) (j : Fin 768) :
    it88 V0 Kk Vv s (ix2 k j) = gi (inpOfR V0) sS k j := by
  unfold it88 gi
  rw [addf_apply, dot768_apply, rowvec_apply]
  refine congrArg₂ (· + ·) (Finset.sum_congr rfl fun c _ => ?_) rfl
  rw [transpose_ix2_apply, dotN_apply, ← upd_ref_eq (inpOfR V0) hR sS hsR k c]
  refine congrArg₂ (· * ·) (Finset.sum_congr rfl fun n _ => ?_) rfl
  rw [transpose_ix2_apply, h74, hV]

theorem sl0_apply {α : Type} (x : S16x768.Idx → α) (k : Fin 16) (j : Fin 256) :
    extractStridedSlice S16x256 ![0, 0] x slices_S16x768_S16x256_0_0 (ix2 k j) = x (ix2 k (at0 j)) :=
  slice2_axis1_apply 0 x slices_S16x768_S16x256_0_0 k j (at0 j) (Nat.zero_add _).symm

theorem sl1_apply {α : Type} (x : S16x768.Idx → α) (k : Fin 16) (j : Fin 256) :
    extractStridedSlice S16x256 ![0, 256] x slices_S16x768_S16x256_0_256 (ix2 k j) = x (ix2 k (at1 j)) :=
  slice2_axis1_apply 256 x slices_S16x768_S16x256_0_256 k j (at1 j) rfl

theorem sl2_apply {α : Type} (x : S16x768.Idx → α) (k : Fin 16) (j : Fin 256) :
    extractStridedSlice S16x256 ![0, 512] x slices_S16x768_S16x256_0_512 (ix2 k j) = x (ix2 k (at2 j)) :=
  slice2_axis1_apply 512 x slices_S16x768_S16x256_0_512 k j (at2 j) rfl

theorem hostTanh_apply {s : Shape} (x : FVec Ideal s .f32) (i : s.Idx) : Host.tanh x i = Ideal.tanh (x i) := rfl

theorem gate_apply (a b : FVec Ideal S16x256 .f32) (k : Fin 16) (j : Fin 256) (x : E) (hx : IsR x)
    (hab : a (ix2 k j) + b (ix2 k j) = x) :
    Host.divf (broadcastInDim S16x256 ![] bcast_S_S16x256 (constant (F := Ideal) S_ .f32 0x3F800000#32))
        (addf (broadcastInDim S16x256 ![] bcast_S_S16x256 (constant (F := Ideal) S_ .f32 0x3F800000#32)) (Host.exp (Host.negf (addf a b))))
        (ix2 k j) = Ideal.logistic x := by
  rw [hostDivf_apply, addf_apply, lit_apply]
  show Ideal.div cOne (cOne + Ideal.exp (-(a (ix2 k j) + b (ix2 k j)))) = _
  rw [hab, sigmoid_eq x hx]

section Cell

variable (V0 : Valuation τ sig (Elt Ideal)) (Kk Vv : (⟨S16384x256, .f32⟩ : BufTy).Contents (Elt Ideal))
  (s : (⟨S16x256, .f32⟩ : BufTy).Contents (Elt Ideal)) (sS : Fin 16 → Fin 256 → E)
  (hR : (inpOfR V0).Real) (hsR : ∀ k h, IsR (sS k h)) (hs : ∀ k h, s (ix2 k h) = sS k h)
  (hV : ∀ n h, Vv (ix2 n h) = vals (inpOfR V0) n h)
  (h74 : ∀ (n : Fin 16384) (k : Fin 16), it74 V0 Kk s (ix2 n k) = Ideal.div (attn (inpOfR V0) sS n k) (colsum (inpOfR V0) sS k))

include hR hsR hs hV h74

theorem it113_apply (k : Fin 16) (j : Fin 256) : it113 V0 Kk Vv s (ix2 k j) = gateZ (inpOfR V0) sS k j := by
  unfold it113 gateZ
  refine gate_apply _ _ k j _ (isR_add (isR_gi (inpOfR V0) hR sS hsR k (at1 j)) (isR_gh (inpOfR V0) hR sS hsR k (at1 j))) ?_
  rw [sl1_apply, sl1_apply, it88_apply V0 Kk Vv s sS hR hsR hV h74, it93_apply V0 s sS hs]

theorem it121_apply (k : Fin 16) (j : Fin 256) : it121 V0 Kk Vv s (ix2 k j) = gru (inpOfR V0) sS k j := by
  unfold it121 gru cand gateR
  rw [addf_apply, mulf_apply, mulf_apply, subf_apply, lit_apply, it113_apply V0 Kk Vv s sS hR hsR hs hV h74, hs,
    hostTanh_apply, addf_apply, mulf_apply, sl2_apply, sl2_apply,
    gate_apply _ _ k j (gi (inpOfR V0) sS k (at0 j) + gh (inpOfR V0) sS k (at0 j))
      (isR_add (isR_gi (inpOfR V0) hR sS hsR k (at0 j)) (isR_gh (inpOfR V0) hR sS hsR k (at0 j)))
      (by rw [sl0_apply, sl0_apply, it88_apply V0 Kk Vv s sS hR hsR hV h74, it93_apply V0 s sS hs]),
    it88_apply V0 Kk Vv s sS hR hsR hV h74, it93_apply V0 s sS hs]
  rfl

end Cell

theorem hostRsqrt_apply {s : Shape} (x : FVec Ideal s .f32) (i : s.Idx) : Host.rsqrt x i = Ideal.rsqrt (x i) := rfl

section Next

variable (V0 : Valuation τ sig (Elt Ideal)) (Kk Vv : (⟨S16384x256, .f32⟩ : BufTy).Contents (Elt Ideal))
  (s : (⟨S16x256, .f32⟩ : BufTy).Contents (Elt Ideal)) (sS : Fin 16 → Fin 256 → E)
  (hR : (inpOfR V0).Real) (hsR : ∀ k h, IsR (sS k h)) (hs : ∀ k h, s (ix2 k h) = sS k h)
  (hV : ∀ n h, Vv (ix2 n h) = vals (inpOfR V0) n h)
  (h74 : ∀ (n : Fin 16384) (k : Fin 16), it74 V0 Kk s (ix2 n k) = Ideal.div (attn (inpOfR V0) sS n k) (colsum (inpOfR V0) sS k))

include hR hsR hs hV h74

theorem it125_apply (k : Fin 16) : it125 V0 Kk Vv s (ix2 k (0 : Fin 1)) = mean c256 (gru (inpOfR V0) sS k) := by
  unfold it125 mean
  rw [hostDivf_apply, keep_apply, rowsum_apply, lit_apply]
  exact congrArg₂ Ideal.div (Finset.sum_congr rfl fun j _ => it121_apply V0 Kk Vv s sS hR hsR hs hV h74 k j) rfl

theorem it127_apply (k : Fin 16) (j : Fin 256) :
    it127 V0 Kk Vv s (ix2 k j) = gru (inpOfR V0) sS k j - mean c256 (gru (inpOfR V0) sS k) := by
  unfold it127
  rw [subf_apply, colvec_apply, it121_apply V0 Kk Vv s sS hR hsR hs hV h74, it125_apply V0 Kk Vv s sS hR hsR hs hV h74]

theorem rstd_apply (k : Fin 16) :
    Host.rsqrt (addf (Host.divf (broadcastInDim S16x1 ![0] bcast_S16_S16x1_0
        (Host.reduceAdd (mulf (it127 V0 Kk Vv s) (it127 V0 Kk Vv s)) (constant (F := Ideal) S_ .f32 0x00000000#32) reducesTo_S16x256_S16_d1 h_S_))
        (broadcastInDim S16x1 ![] bcast_S_S16x1 (constant (F := Ideal) S_ .f32 0x43800000#32)))
        (broadcastInDim S16x1 ![] bcast_S_S16x1 (constant (F := Ideal) S_ .f32 0x3727C5AC#32))) (ix2 k (0 : Fin 1))
      = Ideal.rsqrt (mean c256 (fun d' => (gru (inpOfR V0) sS k d' - mean c256 (gru (inpOfR V0) sS k))
          * (gru (inpOfR V0) sS k d' - mean c256 (gru (inpOfR V0) sS k))) + epsLN) := by
  rw [hostRsqrt_apply, addf_apply, hostDivf_apply, keep_apply, rowsum_apply, lit_apply, lit_apply]
  unfold mean
  refine congrArg Ideal.rsqrt (congrArg₂ (· + ·) (congrArg₂ Ideal.div (Finset.sum_congr rfl fun d _ => ?_) rfl) rfl)
  rw [mulf_apply, it127_apply V0 Kk Vv s sS hR hsR hs hV h74]
  rfl

theorem it158_apply : ∀ k h, it158 V0 Kk Vv s (ix2 k h) = nextSlots (inpOfR V0) sS k h := by
  intro k h
  unfold it158 nextSlots
  rw [addf_apply, addf_apply, it121_apply V0 Kk Vv s sS hR hsR hs hV h74, dot256_apply, rowvec_apply]
  refine congrArg₂ (· + ·) rfl (congrArg₂ (· + ·) (Finset.sum_congr rfl fun i _ => ?_) rfl)
  rw [transpose_ix2_apply, maximumf_apply, addf_apply, lit_apply, dot512_apply, rowvec_apply]
  unfold hid
  refine congrArg₂ (· * ·) (congrArg₂ max (congrArg₂ (· + ·) (Finset.sum_congr rfl fun j _ => ?_) rfl) rfl) rfl
  rw [transpose_ix2_apply, addf_apply, mulf_apply, mulf_apply, subf_apply, colvec_apply, colvec_apply, rowvec_apply, rowvec_apply,
    it121_apply V0 Kk Vv s sS hR hsR hs hV h74, it125_apply V0 Kk Vv s sS hR hsR hs hV h74,
    rstd_apply V0 Kk Vv s sS hR hsR hs hV h74]
  rfl

end Next

end Cert.ReferenceIdeal.HV

end
-- ==== Proof.R.RefKV.lean ====
import proofs.«153310_j37245956390967_1_alg».proof.Proof.Gen.ReferenceIdeal.Run
import proofs.«153310_j37245956390967_1_alg».proof.Proof.R.InpR
import proofs.«153310_j37245956390967_1_alg».proof.Proof.R.RefOps
import Idealize.ShloMosaic.Lib.ValueIdx
import Idealize.ShloMosaic.Lib.IdealHost
import Idealize.ShloMosaic.Lib.StackMember

set_option maxRecDepth 16384

noncomputable section

namespace Cert.ReferenceIdeal.HV

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.Spec

theorem dotKV_apply (A : FVec Ideal S16384x768 .f32) (B : FVec Ideal S768x256 .f32) (n : Fin 16384) (h : Fin 256) :
    Host.dotGeneral dot_S16384x768_S768x256_S16384x256_1_0_0_1_n_n none A B (ix2 n h) = ∑ d : Fin 768, A (ix2 n d) * B (ix2 d h) := by
  have hD : dot_S16384x768_S768x256_S16384x256_1_0_0_1_n_n = DotDims.plain 16384 768 256 := rfl
  rw [hD]
  exact StackMember.dotGeneral_plain_apply none A B n h

private theorem rsqrtAt {s : Shape} (x : FVec Ideal s .f32) (i : s.Idx) : Host.rsqrt x i = Ideal.rsqrt (x i) := rfl

variable (V0 : Valuation τ sig (Elt Ideal))

theorem v3_apply (n : Fin 16384) : res_main_v3 V0 (ix2 n (0 : Fin 1)) = mean c768 ((inpOfR V0).X n) := by
  unfold res_main_v3 mean
  rw [hostDivf_apply, bcastCol_apply, rowSum_apply, broadcastInDim_scalar_apply, constant_apply, constant_apply,
    Ideal.ofBits_zero_f32, zero_add]
  rfl

theorem v5_apply (n : Fin 16384) (d : Fin 768) :
    res_main_v5 V0 (ix2 n d) = (inpOfR V0).X n d - mean c768 ((inpOfR V0).X n) := by
  unfold res_main_v5
  rw [subf_apply, bcastColRows_apply, v3_apply]
  rfl

theorem v23_apply (n : Fin 16384) (d : Fin 768) : res_main_v23 V0 (ix2 n d) = xln (inpOfR V0) n d := by
  unfold res_main_v23 xln lnRow
  rw [addf_apply, mulf_apply, mulf_apply, subf_apply, bcastColRows_apply, bcastColRows_apply, v3_apply,
    bcastRowCols_apply, bcastRowCols_apply, bcastRow_apply, bcastRow_apply,
    rsqrtAt, addf_apply, hostDivf_apply, bcastCol_apply, rowSum_apply,
    broadcastInDim_scalar_apply, broadcastInDim_scalar_apply, constant_apply, constant_apply, constant_apply,
    Ideal.ofBits_zero_f32, zero_add]
  have hsum : (∑ j : Fin 768, mulf (res_main_v5 V0) (res_main_v5 V0) (ix2 n j))
      = ∑ d' : Fin 768, ((inpOfR V0).X n d' - mean c768 ((inpOfR V0).X n)) * ((inpOfR V0).X n d' - mean c768 ((inpOfR V0).X n)) :=
    Finset.sum_congr rfl fun j _ => by rw [mulf_apply, v5_apply]
  rw [hsum]
  rfl

theorem refKeys_apply (n : Fin 16384) (h : Fin 256) : res_main_v25 V0 (ix2 n h) = keys (inpOfR V0) n h := by
  unfold res_main_v25 keys
  refine (dotKV_apply _ _ n h).trans (Finset.sum_congr rfl fun d _ => ?_)
  rw [v23_apply, transpose2_apply]
  rfl

theorem refVals_apply (n : Fin 16384) (h : Fin 256) : res_main_v27 V0 (ix2 n h) = vals (inpOfR V0) n h := by
  unfold res_main_v27 vals
  refine (dotKV_apply _ _ n h).trans (Finset.sum_congr rfl fun d _ => ?_)
  rw [v23_apply, transpose2_apply]
  rfl

end Cert.ReferenceIdeal.HV

end
-- ==== Proof.R.RefTop.lean ====
import proofs.«153310_j37245956390967_1_alg».proof.Proof.R.RefAttn
import proofs.«153310_j37245956390967_1_alg».proof.Proof.R.RefFin
import proofs.«153310_j37245956390967_1_alg».proof.Proof.R.RefKV

set_option maxRecDepth 16384

noncomputable section

namespace Cert.ReferenceIdeal.HV

open Cert.ReferenceIdeal Cert.ReferenceIdeal.Gen Cert.ReferenceIdeal.Value Idealize.ShloMosaic Idealize.ShloMosaic.ValueIdx Idealize.SL.Sem Cert.Spec

section Generic
variable {F : FTy → Type} [FloatOps F]

theorem r420 (V0 : Valuation τ sig (Elt F)) :
    val9 V0 (Proc.devRef .tc main_v420) = it158 V0 (res_main_v25 V0) (res_main_v27 V0) (res_main_v289 V0) := by
  rw [val9_main_v420]
  unfold it158
  rw [r383, r387, r389]

theorem rVar1 (V0 : Valuation τ sig (Elt F)) :
    Host.divf (Host.reduceAdd (mulf (res_main_v78 V0) (res_main_v78 V0)) (constant S_ .f32 0x00000000#32) reducesTo_S16384x16_S_d0_1 h_S_) (constant S_ .f32 0x487FFFC0#32)
      = itVar V0 (res_main_v25 V0) (V0 (Proc.devRef .tc main_arg7)) := by
  unfold itVar
  rw [r78]

theorem rVar2 (V0 : Valuation τ sig (Elt F)) :
    Host.divf (Host.reduceAdd (mulf (res_main_v209 V0) (res_main_v209 V0)) (constant S_ .f32 0x00000000#32) reducesTo_S16384x16_S_d0_1 h_S_) (constant S_ .f32 0x487FFFC0#32)
      = itVar V0 (res_main_v25 V0) (res_main_v158 V0) := by
  unfold itVar
  rw [r209]

theorem rVar3 (V0 : Valuation τ sig (Elt F)) :
    Host.divf (Host.reduceAdd (mulf (res_main_v340 V0) (res_main_v340 V0)) (constant S_ .f32 0x00000000#32) reducesTo_S16384x16_S_d0_1 h_S_) (constant S_ .f32 0x487FFFC0#32)
      = itVar V0 (res_main_v25 V0) (res_main_v289 V0) := by
  unfold itVar
  rw [r340]

end Generic

theorem concat3_apply {α : Type} (u0 u1 u2 : S1.Idx → α) (h : Shape.Concatenates [S1, S1, S1] S3 0) :
    concatenate S3 0 [⟨S1, u0⟩, ⟨S1, u1⟩, ⟨S1, u2⟩] h (ix1 (0 : Fin 3)) = u0 (ix1 (0 : Fin 1))
    ∧ concatenate S3 0 [⟨S1, u0⟩, ⟨S1, u1⟩, ⟨S1, u2⟩] h (ix1 (1 : Fin 3)) = u1 (ix1 (0 : Fin 1))
    ∧ concatenate S3 0 [⟨S1, u0⟩, ⟨S1, u1⟩, ⟨S1, u2⟩] h (ix1 (2 : Fin 3)) = u2 (ix1 (0 : Fin 1)) := by
  refine ⟨?_, ?_, ?_⟩
  · exact concatenate_apply_piece (t := S3) 0 [⟨S1, u0⟩, ⟨S1, u1⟩, ⟨S1, u2⟩] h (ix1 (0 : Fin 3)) 0 (by show (0 : ℕ) < 3; omega) S1 u0 rfl rfl 0 rfl (ix1 (0 : Fin 1))
      (fun b => match b with | ⟨0, _⟩ => fun hb => (hb rfl).elim) rfl
  · exact concatenate_apply_piece (t := S3) 0 [⟨S1, u0⟩, ⟨S1, u1⟩, ⟨S1, u2⟩] h (ix1 (1 : Fin 3)) 1 (by show (1 : ℕ) < 3; omega) S1 u1 rfl rfl 1 rfl (ix1 (0 : Fin 1))
      (fun b => match b with | ⟨0, _⟩ => fun hb => (hb rfl).elim) rfl
  · exact concatenate_apply_piece (t := S3) 0 [⟨S1, u0⟩, ⟨S1, u1⟩, ⟨S1, u2⟩] h (ix1 (2 : Fin 3)) 2 (by show (2 : ℕ) < 3; omega) S1 u2 rfl rfl 2 rfl (ix1 (0 : Fin 1))
      (fun b => match b with | ⟨0, _⟩ => fun hb => (hb rfl).elim) rfl

section Top
variable (V0 : Valuation τ sig (Elt Ideal)) (hR : (inpOfR V0).Real)

include hR in
theorem s0_isR : ∀ k h, IsR ((inpOfR V0).s0 k h) := hR.2.2.2.2.2.2.2.1

include hR in

theorem iter_next (s : (⟨S16x256, .f32⟩ : BufTy).Contents (Elt Ideal)) (sS : Fin 16 → Fin 256 → E)
    (hsR : ∀ k h, IsR (sS k h)) (hs : ∀ k h, s (ix2 k h) = sS k h) :
    ∀ k h, it158 V0 (res_main_v25 V0) (res_main_v27 V0) s (ix2 k h) = nextSlots (inpOfR V0) sS k h :=
  it158_apply V0 (res_main_v25 V0) (res_main_v27 V0) s sS hR hsR hs (refVals_apply V0)
    (it74_apply V0 (res_main_v25 V0) s sS hs (refKeys_apply V0))

include hR in

theorem iter_var (s : (⟨S16x256, .f32⟩ : BufTy).Contents (Elt Ideal)) (sS : Fin 16 → Fin 256 → E)
    (hsR : ∀ k h, IsR (sS k h)) (hs : ∀ k h, s (ix2 k h) = sS k h) :
    itVar V0 (res_main_v25 V0) s ix0 = varOf (inpOfR V0) sS :=
  itVar_apply V0 (res_main_v25 V0) s sS hs (refKeys_apply V0) hR hsR

include hR in
theorem ref_slots1 (k : Fin 16) (h : Fin 256) : res_main_v158 V0 (ix2 k h) = slots1 (inpOfR V0) k h := by
  rw [r158]
  exact iter_next V0 hR _ (inpOfR V0).s0 (s0_isR V0 hR) (fun _ _ => rfl) k h

include hR in
theorem ref_slots2 (k : Fin 16) (h : Fin 256) : res_main_v289 V0 (ix2 k h) = slots2 (inpOfR V0) k h := by
  rw [r289]
  exact iter_next V0 hR _ (slots1 (inpOfR V0)) (isR_slots1 _ hR) (ref_slots1 V0 hR) k h

include hR in

theorem ref_slots (k : Fin 16) (h : Fin 256) :
    Cert.ReferenceIdeal.Value.val9 V0 (Proc.devRef .tc main_v420) (ix2 k h) = Cert.Spec.slots3 (inpOfR V0) k h := by
  rw [r420]
  exact iter_next V0 hR _ (slots2 (inpOfR V0)) (isR_slots2 _ hR) (ref_slots2 V0 hR) k h

include hR in

theorem ref_var : Cert.ReferenceIdeal.Value.val9 V0 (Proc.devRef .tc main_v426) ix0 = Cert.Spec.varMean (inpOfR V0) := by
  rw [val9_main_v426, rVar1, rVar2, rVar3]
  rw [hostDivf_apply, vecSum_apply, constant_apply, constant_apply, Ideal.ofBits_zero_f32, zero_add, Fin.sum_univ_three]
  obtain ⟨e0, e1, e2⟩ := concat3_apply
    (broadcastInDim S1 ![] bcast_S_S1 (itVar V0 (res_main_v25 V0) (V0 (Proc.devRef .tc main_arg7))))
    (broadcastInDim S1 ![] bcast_S_S1 (itVar V0 (res_main_v25 V0) (res_main_v158 V0)))
    (broadcastInDim S1 ![] bcast_S_S1 (itVar V0 (res_main_v25 V0) (res_main_v289 V0))) concatenates_S1_S1_S1_S3_d0
  rw [e0, e1, e2, broadcastInDim_scalar_apply, broadcastInDim_scalar_apply, broadcastInDim_scalar_apply,
    iter_var V0 hR _ (inpOfR V0).s0 (s0_isR V0 hR) (fun _ _ => rfl),
    iter_var V0 hR _ (slots1 (inpOfR V0)) (isR_slots1 _ hR) (ref_slots1 V0 hR),
    iter_var V0 hR _ (slots2 (inpOfR V0)) (isR_slots2 _ hR) (ref_slots2 V0 hR)]
  unfold varMean cZero cThree
  rw [Ideal.ofBits_zero_f32, zero_add]

end Top

end Cert.ReferenceIdeal.HV

end
-- ==== Proof.Asm.lean ====
import proofs.«153310_j37245956390967_1_alg».proof.Defs
import proofs.«153310_j37245956390967_1_alg».proof.Proof.K.Run
import proofs.«153310_j37245956390967_1_alg».proof.Proof.KB.Run
import proofs.«153310_j37245956390967_1_alg».proof.Proof.K.Val1
import proofs.«153310_j37245956390967_1_alg».proof.Proof.K.Val1Out
import proofs.«153310_j37245956390967_1_alg».proof.Proof.K.ValRec
import proofs.«153310_j37245956390967_1_alg».proof.Proof.K.Finite
import proofs.«153310_j37245956390967_1_alg».proof.Proof.R.RefTop
import proofs.«153310_j37245956390967_1_alg».proof.Proof.Gen.Kernel
import proofs.«153310_j37245956390967_1_alg».proof.Proof.Gen.KernelIdeal
import proofs.«153310_j37245956390967_1_alg».proof.Proof.Gen.ReferenceIdeal
import proofs.«153310_j37245956390967_1_alg».proof.Proof.Gen.Pre_finite_inputs
import proofs.«153310_j37245956390967_1_alg».proof.Proof.Gen.ReferenceIdeal.Run
import Idealize.ShloMosaic.Lib.Pipeline.Value
import Idealize.ShloMosaic.Lib.ValueIdx

set_option maxRecDepth 16384

noncomputable section

namespace Cert.Proof.H

open Idealize.ShloMosaic Idealize.ShloMosaic.TcCoe Idealize.SL.Sem Idealize.ShloMosaic.ValueIdx
open Idealize.ShloMosaic.StableHlo (launchContents)

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

theorem kernel_slots (m : KMem) (c : Dev Cert.KernelIdeal.nD) (k : Fin 16) (h : Fin 256) :
    Cert.KernelIdeal.H.W4 m c (Proc.devRef .tc Cert.KernelIdeal.main_v18_0) (ix2 k h)
      = Cert.Spec.slots3 (Cert.KernelIdeal.HV.inpOf m c) k h :=
  (congrFun (Cert.KernelIdeal.H.W4_main_v18_0 m c) _).trans <|
    (Cert.KernelIdeal.HV.out16_arr (c := c) (V := Cert.KernelIdeal.H.V2 m) k h).trans <|
      (Cert.KernelIdeal.HV.stAt1_final (Cert.KernelIdeal.H.V2 m) c (Cert.KernelIdeal.HV.inpOf m c)
        (Cert.KernelIdeal.HV.iblk1_keys m c) (Cert.KernelIdeal.HV.iblk1_vals m c) (Cert.KernelIdeal.HV.wof_V2 m c)).1 k h

theorem kernel_var (m : KMem) (c : Dev Cert.KernelIdeal.nD) :
    Cert.KernelIdeal.H.W4 m c (Proc.devRef .tc Cert.KernelIdeal.main_v19) ix0
      = Cert.Spec.varMean (Cert.KernelIdeal.HV.inpOf m c) :=
  (congrFun (Cert.KernelIdeal.H.W4_main_v19' m c) ix0).trans <|
    (shapeCast_apply _ _ ix0 (ix2 (0 : Fin 1) (0 : Fin 1)) (by decide)).trans <|
      (congrFun (Cert.KernelIdeal.H.W3_main_v18_1 m c) _).trans <|
        (Cert.KernelIdeal.HV.out17_arr (c := c) (V := Cert.KernelIdeal.H.V2 m)).trans
          (Cert.KernelIdeal.HV.stAt1_final (Cert.KernelIdeal.H.V2 m) c (Cert.KernelIdeal.HV.inpOf m c)
            (Cert.KernelIdeal.HV.iblk1_keys m c) (Cert.KernelIdeal.HV.iblk1_vals m c) (Cert.KernelIdeal.HV.wof_V2 m c)).2

section
variable [Cert.Pre_finite_inputs.Facts]

theorem ref_real (m : KMem) (m' : RMem) (c : Dev Cert.KernelIdeal.nD) (hpre : Cert.Pre_KernelIdeal m) (hI : Cert.ReferenceIdeal.HV.inpOfR (launchContents m' c) = Cert.KernelIdeal.HV.inpOf m c) :
    (Cert.ReferenceIdeal.HV.inpOfR (launchContents m' c)).Real := by
  rw [hI]; exact Cert.KernelIdeal.HV.real_of_pre m hpre c

theorem ref_eq_v0 (m : KMem) (m' : RMem) (c : Dev Cert.KernelIdeal.nD) (hpre : Cert.Pre_KernelIdeal m) (hI : Cert.ReferenceIdeal.HV.inpOfR (launchContents m' c) = Cert.KernelIdeal.HV.inpOf m c) :
    Cert.ReferenceIdeal.Value.val9 (launchContents m' c) (Proc.devRef .tc Cert.ReferenceIdeal.main_v420)
      = Cert.KernelIdeal.H.W4 m c (Proc.devRef .tc Cert.KernelIdeal.main_v18_0) := by
  funext j
  obtain ⟨k, h, rfl⟩ : ∃ (k : Fin 16) (h : Fin 256), j = ix2 k h := ⟨j 0, j 1, eq_ix2 j⟩
  exact (Cert.ReferenceIdeal.HV.ref_slots _ (ref_real m m' c hpre hI) k h).trans
    ((congrArg (fun I => Cert.Spec.slots3 I k h) hI).trans (kernel_slots m c k h).symm)

theorem ref_eq_v1 (m : KMem) (m' : RMem) (c : Dev Cert.KernelIdeal.nD) (hpre : Cert.Pre_KernelIdeal m) (hI : Cert.ReferenceIdeal.HV.inpOfR (launchContents m' c) = Cert.KernelIdeal.HV.inpOf m c) :
    Cert.ReferenceIdeal.Value.val9 (launchContents m' c) (Proc.devRef .tc Cert.ReferenceIdeal.main_v426)
      = Cert.KernelIdeal.H.W4 m c (Proc.devRef .tc Cert.KernelIdeal.main_v19) := by
  funext j
  obtain rfl : j = ix0 := eq_ix0 j
  exact (Cert.ReferenceIdeal.HV.ref_var _ (ref_real m m' c hpre hI)).trans
    ((congrArg Cert.Spec.varMean hI).trans (kernel_var m c).symm)

end

theorem frame_k : Cert.frame_Kernel := fun m ρ _ => Cert.Kernel.H.frame_all m ρ

theorem frame_ki : Cert.frame_KernelIdeal := fun m ρ _ => Cert.KernelIdeal.H.frame_all m ρ

theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' hpre hagree
  have hI : ∀ c, Cert.ReferenceIdeal.HV.inpOfR (launchContents m' c) = Cert.KernelIdeal.HV.inpOf m c := fun c => by
    obtain ⟨h0, h1, h2, h3, h4, h5, h6, h7, h8, h9, h10, h11, h12, h13, h14, h15, h16, h17, h18⟩ := hagree c
    unfold Cert.ReferenceIdeal.HV.inpOfR Cert.KernelIdeal.HV.inpOf
    simp only [Cert.Spec.Inp.mk.injEq]
    refine ⟨?_, ?_, ?_, ?_, ?_, ?_, ?_, ?_, ?_, ?_, ?_, ?_, ?_, ?_, ?_, ?_, ?_, ?_, ?_⟩
    · funext p q; exact congrFun h0 _
    · funext d; exact congrFun h1 _
    · funext d; exact congrFun h2 _
    · funext d; exact congrFun h3 _
    · funext d; exact congrFun h4 _
    · funext d; exact congrFun h5 _
    · funext d; exact congrFun h6 _
    · funext p q; exact congrFun h7 _
    · funext p q; exact congrFun h8 _
    · funext p q; exact congrFun h9 _
    · funext p q; exact congrFun h10 _
    · funext p q; exact congrFun h11 _
    · funext p q; exact congrFun h12 _
    · funext d; exact congrFun h13 _
    · funext d; exact congrFun h14 _
    · funext p q; exact congrFun h15 _
    · funext d; exact congrFun h16 _
    · funext p q; exact congrFun h17 _
    · funext d; exact congrFun h18 _
  refine ⟨fun c => Cert.KernelIdeal.H.W4 m c (Proc.devRef .tc Cert.KernelIdeal.main_v18_0),
    fun c => Cert.KernelIdeal.H.W4 m c (Proc.devRef .tc Cert.KernelIdeal.main_v19), ?_, ?_⟩
  · exact (θ_run Cert.KernelIdeal.defs _ _).mono (fun r h c =>
      ⟨h c _ (Cert.KernelIdeal.H.mem_uc Cert.KernelIdeal.main_v18_0 (by decide)),
        h c _ (Cert.KernelIdeal.H.mem_uc Cert.KernelIdeal.main_v19 (by decide)),
        by and_intros <;> exact Cert.KernelIdeal.H.arg_end m c r.2.mem (h c) _ (by decide)⟩)
      (Cert.KernelIdeal.H.run_all m ρ)
  · exact (θ_run Cert.ReferenceIdeal.defs _ _).mono (fun r h c =>
      ⟨((h c).1.trans (Cert.ReferenceIdeal.Value.val9_main_v420 (launchContents m' c)).symm).trans (ref_eq_v0 m m' c hpre (hI c)),
        ((h c).2.1.trans (Cert.ReferenceIdeal.Value.val9_main_v426 (launchContents m' c)).symm).trans (ref_eq_v1 m m' c hpre (hI c)),
        (h c).2.2⟩)
      (Cert.ReferenceIdeal.Value.run (F := Ideal) m' ρ')

end Cert.Proof.H

end
-- ==== Proof.lean ====
/-
  Three iterations of slot attention over 16384 tokens with sixteen slots.  Both programs equal one specification
  of the nineteen argument arrays: a sum over all tokens is the sum of the four tiles' sums, a product against a
  transposed weight array is the product with the axes exchanged, and on real inputs, which the precondition
  gives, the arithmetic of either side is the real arithmetic.  Each frame claim is a run with the results dropped.
-/
import proofs.«153310_j37245956390967_1_alg».proof.Defs
import proofs.«153310_j37245956390967_1_alg».proof.Proof.Gen.Kernel
import proofs.«153310_j37245956390967_1_alg».proof.Proof.Gen.KernelIdeal
import proofs.«153310_j37245956390967_1_alg».proof.Proof.Gen.ReferenceIdeal
import proofs.«153310_j37245956390967_1_alg».proof.Proof.Gen.Pre_finite_inputs
import proofs.«153310_j37245956390967_1_alg».proof.Proof.Asm

noncomputable section

namespace Cert.Proof

open Cert.Proof.H

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
